-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![8192, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Pre_finite_inputs_ReferenceIdeal.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S2048x512 : Shape := ⟨2, ![2048, 512]⟩
abbrev S1024x512 : Shape := ⟨2, ![1024, 512]⟩
abbrev S1024x256 : Shape := ⟨2, ![1024, 256]⟩
abbrev S512x256 : Shape := ⟨2, ![512, 256]⟩
abbrev S32 : Shape := ⟨1, ![32]⟩
abbrev S_ : Shape := ⟨0, ![]⟩
abbrev S512x128 : Shape := ⟨2, ![512, 128]⟩
abbrev S1 : Shape := ⟨1, ![1]⟩
abbrev S256x128 : Shape := ⟨2, ![256, 128]⟩

abbrev nBuf : Space → Nat
  | .hbm => 2
  | .vmem => 9
  | .smem => 0
  | _ => 0

abbrev bufTy : (tb : Table) → Fin (tcTables nBuf tb) → BufTy
  | .hbm, ⟨0, _⟩ => ⟨S2048x512, .f32⟩
  | .hbm, ⟨1, _⟩ => ⟨S2048x512, .bf16⟩
  | .local _ .vmem, ⟨0, _⟩ => ⟨S2048x512, .f32⟩
  | .local _ .vmem, ⟨1, _⟩ => ⟨S2048x512, .bf16⟩
  | .local _ .vmem, ⟨2, _⟩ => ⟨S1024x512, .bf16⟩
  | .local _ .vmem, ⟨3, _⟩ => ⟨S1024x256, .bf16⟩
  | .local _ .vmem, ⟨4, _⟩ => ⟨S1024x256, .bf16⟩
  | .local _ .vmem, ⟨5, _⟩ => ⟨S512x256, .bf16⟩
  | .local _ .vmem, ⟨6, _⟩ => ⟨S512x256, .bf16⟩
  | .local _ .vmem, ⟨7, _⟩ => ⟨S1024x256, .bf16⟩
  | .local _ .vmem, ⟨8, _⟩ => ⟨S1024x256, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_4 : BitVec 32 := 1#32
  let v8 : BitVec 32 := Scalar.muli v5 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v6 : BitVec 32 := Scalar.xori v2 c3_i32
  let c1_i32_6 : BitVec 32 := 1#32
  let v10 : BitVec 32 := Scalar.muli v6 c1_i32_6
  let v11 : BitVec 32 := Scalar.addi c0_i32_7 v10
  v11.toNat
def k0_off1 (d0 : Dev nD) (c0_i32_25 : BitVec 32) (c512_i32_9 : BitVec 32) (c0_i32_10 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v12 : BitVec 1 := Scalar.cmpi .eq v3 v4
  let v14 : BitVec 32 := Scalar.select v12 c512_i32_9 c0_i32_10
  let v28 : BitVec 32 := Scalar.addi c0_i32_25 v14
  let v29 : Index := Scalar.indexCast v28
  let c0 : Index := 0#32
  ![v29.toNat, 0]
def k0_off1_at (r : Fin 4) : BitVec 32 × BitVec 32 × BitVec 32 :=
  if r.val < 2 then
    if r.val < 1 then
      (0#32, 512#32, 0#32)
    else
      (1024#32, 512#32, 0#32)
  else
    if r.val < 3 then
      (0#32, 0#32, 512#32)
    else
      (1024#32, 0#32, 512#32)
def k0_off2 (d0 : Dev nD) (c0_i32_28 : BitVec 32) (c512_i32_14 : BitVec 32) (c0_i32_15 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let c0_i32_11 : BitVec 32 := 0#32
  let v15 : BitVec 1 := Scalar.cmpi .eq v4 c0_i32_11
  let v17 : BitVec 32 := Scalar.select v15 c512_i32_14 c0_i32_15
  let v36 : BitVec 32 := Scalar.addi c0_i32_28 v17
  let v37 : Index := Scalar.indexCast v36
  let c256 : Index := 256#32
  ![v37.toNat, 256]
def k0_off2_at (r : Fin 4) : BitVec 32 × BitVec 32 × BitVec 32 :=
  if r.val < 2 then
    if r.val < 1 then
      (0#32, 512#32, 0#32)
    else
      (1024#32, 512#32, 0#32)
  else
    if r.val < 3 then
      (0#32, 0#32, 512#32)
    else
      (1024#32, 0#32, 512#32)
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_33 : BitVec 32 := 1#32
  let v44 : BitVec 32 := Scalar.muli v5 c1_i32_33
  let v45 : BitVec 32 := Scalar.addi c0_i32_34 v44
  v45.toNat
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v6 : BitVec 32 := Scalar.xori v2 c3_i32
  let c1_i32_41 : BitVec 32 := 1#32
  let v52 : BitVec 32 := Scalar.muli v6 c1_i32_41
  let v53 : BitVec 32 := Scalar.addi c0_i32_42 v52
  v53.toNat
def k0_off3 (d0 : Dev nD) (c0_i32_47 : BitVec 32) (c512_i32_9 : BitVec 32) (c0_i32_10 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v12 : BitVec 1 := Scalar.cmpi .eq v3 v4
  let v14 : BitVec 32 := Scalar.select v12 c512_i32_9 c0_i32_10
  let v60 : BitVec 32 := Scalar.addi c0_i32_47 v14
  let v61 : Index := Scalar.indexCast v60
  let c128 : Index := 128#32
  ![v61.toNat, 128]
def k0_off3_at (r : Fin 4) : BitVec 32 × BitVec 32 × BitVec 32 :=
  if r.val < 2 then
    if r.val < 1 then
      (0#32, 512#32, 0#32)
    else
      (1024#32, 512#32, 0#32)
  else
    if r.val < 3 then
      (0#32, 0#32, 512#32)
    else
      (1024#32, 0#32, 512#32)
def k0_off4 (d0 : Dev nD) (c0_i32_50 : BitVec 32) (c512_i32_14 : BitVec 32) (c0_i32_15 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let c0_i32_11 : BitVec 32 := 0#32
  let v15 : BitVec 1 := Scalar.cmpi .eq v4 c0_i32_11
  let v17 : BitVec 32 := Scalar.select v15 c512_i32_14 c0_i32_15
  let v68 : BitVec 32 := Scalar.addi c0_i32_50 v17
  let v69 : Index := Scalar.indexCast v68
  let c384 : Index := 384#32
  ![v69.toNat, 384]
def k0_off4_at (r : Fin 4) : BitVec 32 × BitVec 32 × BitVec 32 :=
  if r.val < 2 then
    if r.val < 1 then
      (0#32, 512#32, 0#32)
    else
      (1024#32, 512#32, 0#32)
  else
    if r.val < 3 then
      (0#32, 0#32, 512#32)
    else
      (1024#32, 0#32, 512#32)
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_54 : BitVec 32 := 1#32
  let v76 : BitVec 32 := Scalar.muli v5 c1_i32_54
  let v77 : BitVec 32 := Scalar.addi c0_i32_55 v76
  v77.toNat
def k0_dev6 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v6 : BitVec 32 := Scalar.xori v2 c3_i32
  let c1_i32_60 : BitVec 32 := 1#32
  let v84 : BitVec 32 := Scalar.muli v6 c1_i32_60
  let v85 : BitVec 32 := Scalar.addi c0_i32_61 v84
  v85.toNat
def k0_dev7 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_72 : BitVec 32 := 1#32
  let v108 : BitVec 32 := Scalar.muli v5 c1_i32_72
  let v109 : BitVec 32 := Scalar.addi c0_i32_73 v108
  v109.toNat
def k0_dev8 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v6 : BitVec 32 := Scalar.xori v2 c3_i32
  let c1_i32_79 : BitVec 32 := 1#32
  let v116 : BitVec 32 := Scalar.muli v6 c1_i32_79
  let v117 : BitVec 32 := Scalar.addi c0_i32_80 v116
  v117.toNat
def k0_dev9 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_94 : BitVec 32 := 1#32
  let v140 : BitVec 32 := Scalar.muli v5 c1_i32_94
  let v141 : BitVec 32 := Scalar.addi c0_i32_95 v140
  v141.toNat
def k0_dev10 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v6 : BitVec 32 := Scalar.xori v2 c3_i32
  let c1_i32_101 : BitVec 32 := 1#32
  let v148 : BitVec 32 := Scalar.muli v6 c1_i32_101
  let v149 : BitVec 32 := Scalar.addi c0_i32_102 v148
  v149.toNat
def k0_off5 (d0 : Dev nD) (c0_i32_135 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let c0_i32_16 : BitVec 32 := 0#32
  let v18 : BitVec 1 := Scalar.cmpi .eq v4 c0_i32_16
  let c256_i32_18 : BitVec 32 := 256#32
  let c0_i32_19 : BitVec 32 := 0#32
  let v20 : BitVec 32 := Scalar.select v18 c256_i32_18 c0_i32_19
  let v190 : BitVec 32 := Scalar.addi c0_i32_135 v20
  let c0_i32_142 : BitVec 32 := 0#32
  ![v190.toNat, 0]
def k0_dev11 (d0 : Dev nD) : Nat :=
  let c0_i32_139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v6 : BitVec 32 := Scalar.xori v2 c3_i32
  let c1_i32_138 : BitVec 32 := 1#32
  let v191 : BitVec 32 := Scalar.muli v6 c1_i32_138
  let v192 : BitVec 32 := Scalar.addi c0_i32_139 v191
  v192.toNat
def k0_off6 (d0 : Dev nD) (c0_i32_143 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c0_i32_20 : BitVec 32 := 0#32
  let v21 : BitVec 1 := Scalar.cmpi .eq v3 c0_i32_20
  let c256_i32_23 : BitVec 32 := 256#32
  let c0_i32_24 : BitVec 32 := 0#32
  let v23 : BitVec 32 := Scalar.select v21 c256_i32_23 c0_i32_24
  let v199 : BitVec 32 := Scalar.addi c0_i32_143 v23
  let c0_i32_150 : BitVec 32 := 0#32
  ![v199.toNat, 0]
def k0_dev12 (d0 : Dev nD) : Nat :=
  let c0_i32_147 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_146 : BitVec 32 := 1#32
  let v200 : BitVec 32 := Scalar.muli v5 c1_i32_146
  let v201 : BitVec 32 := Scalar.addi c0_i32_147 v200
  v201.toNat
def k0_off7 (d0 : Dev nD) (c0_i32_179 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let c0_i32_16 : BitVec 32 := 0#32
  let v18 : BitVec 1 := Scalar.cmpi .eq v4 c0_i32_16
  let c256_i32_18 : BitVec 32 := 256#32
  let c0_i32_19 : BitVec 32 := 0#32
  let v20 : BitVec 32 := Scalar.select v18 c256_i32_18 c0_i32_19
  let v242 : BitVec 32 := Scalar.addi c0_i32_179 v20
  let c128_i32_185 : BitVec 32 := 128#32
  ![v242.toNat, 128]
def k0_dev13 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v6 : BitVec 32 := Scalar.xori v2 c3_i32
  let c1_i32_181 : BitVec 32 := 1#32
  let v243 : BitVec 32 := Scalar.muli v6 c1_i32_181
  let v244 : BitVec 32 := Scalar.addi c0_i32_182 v243
  v244.toNat
def k0_off8 (d0 : Dev nD) (c0_i32_186 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c0_i32_20 : BitVec 32 := 0#32
  let v21 : BitVec 1 := Scalar.cmpi .eq v3 c0_i32_20
  let c256_i32_23 : BitVec 32 := 256#32
  let c0_i32_24 : BitVec 32 := 0#32
  let v23 : BitVec 32 := Scalar.select v21 c256_i32_23 c0_i32_24
  let v251 : BitVec 32 := Scalar.addi c0_i32_186 v23
  let c128_i32_192 : BitVec 32 := 128#32
  ![v251.toNat, 128]
def k0_dev14 (d0 : Dev nD) : Nat :=
  let c0_i32_189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_188 : BitVec 32 := 1#32
  let v252 : BitVec 32 := Scalar.muli v5 c1_i32_188
  let v253 : BitVec 32 := Scalar.addi c0_i32_189 v252
  v253.toNat
def k0_dev15 (d0 : Dev nD) : Nat :=
  let c0_i32_224 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v6 : BitVec 32 := Scalar.xori v2 c3_i32
  let c1_i32_223 : BitVec 32 := 1#32
  let v295 : BitVec 32 := Scalar.muli v6 c1_i32_223
  let v296 : BitVec 32 := Scalar.addi c0_i32_224 v295
  v296.toNat
def k0_dev16 (d0 : Dev nD) : Nat :=
  let c0_i32_231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_230 : BitVec 32 := 1#32
  let v304 : BitVec 32 := Scalar.muli v5 c1_i32_230
  let v305 : BitVec 32 := Scalar.addi c0_i32_231 v304
  v305.toNat
def k0_dev17 (d0 : Dev nD) : Nat :=
  let c0_i32_266 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v6 : BitVec 32 := Scalar.xori v2 c3_i32
  let c1_i32_265 : BitVec 32 := 1#32
  let v347 : BitVec 32 := Scalar.muli v6 c1_i32_265
  let v348 : BitVec 32 := Scalar.addi c0_i32_266 v347
  v348.toNat
def k0_dev18 (d0 : Dev nD) : Nat :=
  let c0_i32_273 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_272 : BitVec 32 := 1#32
  let v356 : BitVec 32 := Scalar.muli v5 c1_i32_272
  let v357 : BitVec 32 := Scalar.addi c0_i32_273 v356
  v357.toNat
def k0_off9 (d0 : Dev nD) (c0_i32_291 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let c0_i32_16 : BitVec 32 := 0#32
  let v18 : BitVec 1 := Scalar.cmpi .eq v4 c0_i32_16
  let c0_i32_17 : BitVec 32 := 0#32
  let c256_i32 : BitVec 32 := 256#32
  let v19 : BitVec 32 := Scalar.select v18 c0_i32_17 c256_i32
  let v376 : BitVec 32 := Scalar.addi c0_i32_291 v19
  let v377 : Index := Scalar.indexCast v376
  let c0_292 : Index := 0#32
  ![v377.toNat, 0]
def k0_off10 (d0 : Dev nD) (c0_i32_295 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v12 : BitVec 1 := Scalar.cmpi .eq v3 v4
  let c0_i32_8 : BitVec 32 := 0#32
  let c512_i32 : BitVec 32 := 512#32
  let v13 : BitVec 32 := Scalar.select v12 c0_i32_8 c512_i32
  let c0_i32_16 : BitVec 32 := 0#32
  let v18 : BitVec 1 := Scalar.cmpi .eq v4 c0_i32_16
  let c0_i32_17 : BitVec 32 := 0#32
  let c256_i32 : BitVec 32 := 256#32
  let v19 : BitVec 32 := Scalar.select v18 c0_i32_17 c256_i32
  let v24 : BitVec 32 := Scalar.addi v13 v19
  let v384 : BitVec 32 := Scalar.addi c0_i32_295 v24
  let v385 : Index := Scalar.indexCast v384
  let c0_296 : Index := 0#32
  ![v385.toNat, 0]
def k0_off11 (d0 : Dev nD) (c0_i32_297 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c0_i32_20 : BitVec 32 := 0#32
  let v21 : BitVec 1 := Scalar.cmpi .eq v3 c0_i32_20
  let c0_i32_21 : BitVec 32 := 0#32
  let c256_i32_22 : BitVec 32 := 256#32
  let v22 : BitVec 32 := Scalar.select v21 c0_i32_21 c256_i32_22
  let v387 : BitVec 32 := Scalar.addi c0_i32_297 v22
  let v388 : Index := Scalar.indexCast v387
  let c0_298 : Index := 0#32
  ![v388.toNat, 0]
def k0_off12 (d0 : Dev nD) (c0_i32_301 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let c0_i32_11 : BitVec 32 := 0#32
  let v15 : BitVec 1 := Scalar.cmpi .eq v4 c0_i32_11
  let c0_i32_12 : BitVec 32 := 0#32
  let c512_i32_13 : BitVec 32 := 512#32
  let v16 : BitVec 32 := Scalar.select v15 c0_i32_12 c512_i32_13
  let c1_i32_0 : BitVec 32 := 1#32
  let v3 : BitVec 32 := Scalar.andi v2 c1_i32_0
  let c0_i32_20 : BitVec 32 := 0#32
  let v21 : BitVec 1 := Scalar.cmpi .eq v3 c0_i32_20
  let c0_i32_21 : BitVec 32 := 0#32
  let c256_i32_22 : BitVec 32 := 256#32
  let v22 : BitVec 32 := Scalar.select v21 c0_i32_21 c256_i32_22
  let v25 : BitVec 32 := Scalar.addi v16 v22
  let v395 : BitVec 32 := Scalar.addi c0_i32_301 v25
  let v396 : Index := Scalar.indexCast v395
  let c256_302 : Index := 256#32
  ![v396.toNat, 256]
def k0_off13 (d0 : Dev nD) (c0_i32_304 : BitVec 32) (c0_i32_17 : BitVec 32) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v12 : BitVec 1 := Scalar.cmpi .eq v3 v4
  let c0_i32_8 : BitVec 32 := 0#32
  let c512_i32 : BitVec 32 := 512#32
  let v13 : BitVec 32 := Scalar.select v12 c0_i32_8 c512_i32
  let c0_i32_16 : BitVec 32 := 0#32
  let v18 : BitVec 1 := Scalar.cmpi .eq v4 c0_i32_16
  let v19 : BitVec 32 := Scalar.select v18 c0_i32_17 c256_i32
  let v24 : BitVec 32 := Scalar.addi v13 v19
  let v399 : BitVec 32 := Scalar.addi c0_i32_304 v24
  let c0_i32_309 : BitVec 32 := 0#32
  ![v399.toNat, 0]
def k0_off13_at (r : Fin 4) : BitVec 32 × BitVec 32 × BitVec 32 :=
  if r.val < 2 then
    if r.val < 1 then
      (0#32, 0#32, 256#32)
    else
      (1024#32, 0#32, 256#32)
  else
    if r.val < 3 then
      (0#32, 256#32, 0#32)
    else
      (1024#32, 256#32, 0#32)
def k0_dev19 (d0 : Dev nD) : Nat :=
  let c0_i32_308 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v6 : BitVec 32 := Scalar.xori v2 c3_i32
  let c1_i32_307 : BitVec 32 := 1#32
  let v400 : BitVec 32 := Scalar.muli v6 c1_i32_307
  let v401 : BitVec 32 := Scalar.addi c0_i32_308 v400
  v401.toNat
def k0_off14 (d0 : Dev nD) (c0_i32_312 : BitVec 32) (c0_i32_21 : BitVec 32) (c256_i32_22 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let c0_i32_11 : BitVec 32 := 0#32
  let v15 : BitVec 1 := Scalar.cmpi .eq v4 c0_i32_11
  let c0_i32_12 : BitVec 32 := 0#32
  let c512_i32_13 : BitVec 32 := 512#32
  let v16 : BitVec 32 := Scalar.select v15 c0_i32_12 c512_i32_13
  let c1_i32_0 : BitVec 32 := 1#32
  let v3 : BitVec 32 := Scalar.andi v2 c1_i32_0
  let c0_i32_20 : BitVec 32 := 0#32
  let v21 : BitVec 1 := Scalar.cmpi .eq v3 c0_i32_20
  let v22 : BitVec 32 := Scalar.select v21 c0_i32_21 c256_i32_22
  let v25 : BitVec 32 := Scalar.addi v16 v22
  let v409 : BitVec 32 := Scalar.addi c0_i32_312 v25
  let c256_i32_316 : BitVec 32 := 256#32
  ![v409.toNat, 256]
def k0_off14_at (r : Fin 4) : BitVec 32 × BitVec 32 × BitVec 32 :=
  if r.val < 2 then
    if r.val < 1 then
      (0#32, 0#32, 256#32)
    else
      (1024#32, 0#32, 256#32)
  else
    if r.val < 3 then
      (0#32, 256#32, 0#32)
    else
      (1024#32, 256#32, 0#32)
def k0_dev20 (d0 : Dev nD) : Nat :=
  let c0_i32_315 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_314 : BitVec 32 := 1#32
  let v410 : BitVec 32 := Scalar.muli v5 c1_i32_314
  let v411 : BitVec 32 := Scalar.addi c0_i32_315 v410
  v411.toNat
def k0_dev21 (d0 : Dev nD) : Nat :=
  let c0_i32_322 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_321 : BitVec 32 := 1#32
  let v420 : BitVec 32 := Scalar.muli v5 c1_i32_321
  let v421 : BitVec 32 := Scalar.addi c0_i32_322 v420
  v421.toNat
def k0_dev22 (d0 : Dev nD) : Nat :=
  let c0_i32_329 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v6 : BitVec 32 := Scalar.xori v2 c3_i32
  let c1_i32_328 : BitVec 32 := 1#32
  let v430 : BitVec 32 := Scalar.muli v6 c1_i32_328
  let v431 : BitVec 32 := Scalar.addi c0_i32_329 v430
  v431.toNat
def k0_off15 (d0 : Dev nD) (c0_i32_346 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let c0_i32_16 : BitVec 32 := 0#32
  let v18 : BitVec 1 := Scalar.cmpi .eq v4 c0_i32_16
  let c0_i32_17 : BitVec 32 := 0#32
  let c256_i32 : BitVec 32 := 256#32
  let v19 : BitVec 32 := Scalar.select v18 c0_i32_17 c256_i32
  let v450 : BitVec 32 := Scalar.addi c0_i32_346 v19
  let v451 : Index := Scalar.indexCast v450
  let c128_347 : Index := 128#32
  ![v451.toNat, 128]
def k0_off16 (d0 : Dev nD) (c0_i32_350 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v12 : BitVec 1 := Scalar.cmpi .eq v3 v4
  let c0_i32_8 : BitVec 32 := 0#32
  let c512_i32 : BitVec 32 := 512#32
  let v13 : BitVec 32 := Scalar.select v12 c0_i32_8 c512_i32
  let c0_i32_16 : BitVec 32 := 0#32
  let v18 : BitVec 1 := Scalar.cmpi .eq v4 c0_i32_16
  let c0_i32_17 : BitVec 32 := 0#32
  let c256_i32 : BitVec 32 := 256#32
  let v19 : BitVec 32 := Scalar.select v18 c0_i32_17 c256_i32
  let v24 : BitVec 32 := Scalar.addi v13 v19
  let v458 : BitVec 32 := Scalar.addi c0_i32_350 v24
  let v459 : Index := Scalar.indexCast v458
  let c128_351 : Index := 128#32
  ![v459.toNat, 128]
def k0_off17 (d0 : Dev nD) (c0_i32_352 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c0_i32_20 : BitVec 32 := 0#32
  let v21 : BitVec 1 := Scalar.cmpi .eq v3 c0_i32_20
  let c0_i32_21 : BitVec 32 := 0#32
  let c256_i32_22 : BitVec 32 := 256#32
  let v22 : BitVec 32 := Scalar.select v21 c0_i32_21 c256_i32_22
  let v461 : BitVec 32 := Scalar.addi c0_i32_352 v22
  let v462 : Index := Scalar.indexCast v461
  let c128_353 : Index := 128#32
  ![v462.toNat, 128]
def k0_off18 (d0 : Dev nD) (c0_i32_356 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let c0_i32_11 : BitVec 32 := 0#32
  let v15 : BitVec 1 := Scalar.cmpi .eq v4 c0_i32_11
  let c0_i32_12 : BitVec 32 := 0#32
  let c512_i32_13 : BitVec 32 := 512#32
  let v16 : BitVec 32 := Scalar.select v15 c0_i32_12 c512_i32_13
  let c1_i32_0 : BitVec 32 := 1#32
  let v3 : BitVec 32 := Scalar.andi v2 c1_i32_0
  let c0_i32_20 : BitVec 32 := 0#32
  let v21 : BitVec 1 := Scalar.cmpi .eq v3 c0_i32_20
  let c0_i32_21 : BitVec 32 := 0#32
  let c256_i32_22 : BitVec 32 := 256#32
  let v22 : BitVec 32 := Scalar.select v21 c0_i32_21 c256_i32_22
  let v25 : BitVec 32 := Scalar.addi v16 v22
  let v469 : BitVec 32 := Scalar.addi c0_i32_356 v25
  let v470 : Index := Scalar.indexCast v469
  let c384_357 : Index := 384#32
  ![v470.toNat, 384]
def k0_off19 (d0 : Dev nD) (c0_i32_359 : BitVec 32) (c0_i32_17 : BitVec 32) (c256_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v12 : BitVec 1 := Scalar.cmpi .eq v3 v4
  let c0_i32_8 : BitVec 32 := 0#32
  let c512_i32 : BitVec 32 := 512#32
  let v13 : BitVec 32 := Scalar.select v12 c0_i32_8 c512_i32
  let c0_i32_16 : BitVec 32 := 0#32
  let v18 : BitVec 1 := Scalar.cmpi .eq v4 c0_i32_16
  let v19 : BitVec 32 := Scalar.select v18 c0_i32_17 c256_i32
  let v24 : BitVec 32 := Scalar.addi v13 v19
  let v473 : BitVec 32 := Scalar.addi c0_i32_359 v24
  let c128_i32_363 : BitVec 32 := 128#32
  ![v473.toNat, 128]
def k0_off19_at (r : Fin 4) : BitVec 32 × BitVec 32 × BitVec 32 :=
  if r.val < 2 then
    if r.val < 1 then
      (0#32, 0#32, 256#32)
    else
      (1024#32, 0#32, 256#32)
  else
    if r.val < 3 then
      (0#32, 256#32, 0#32)
    else
      (1024#32, 256#32, 0#32)
def k0_dev23 (d0 : Dev nD) : Nat :=
  let c0_i32_362 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v6 : BitVec 32 := Scalar.xori v2 c3_i32
  let c1_i32_361 : BitVec 32 := 1#32
  let v474 : BitVec 32 := Scalar.muli v6 c1_i32_361
  let v475 : BitVec 32 := Scalar.addi c0_i32_362 v474
  v475.toNat
def k0_off20 (d0 : Dev nD) (c0_i32_366 : BitVec 32) (c0_i32_21 : BitVec 32) (c256_i32_22 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let c0_i32_11 : BitVec 32 := 0#32
  let v15 : BitVec 1 := Scalar.cmpi .eq v4 c0_i32_11
  let c0_i32_12 : BitVec 32 := 0#32
  let c512_i32_13 : BitVec 32 := 512#32
  let v16 : BitVec 32 := Scalar.select v15 c0_i32_12 c512_i32_13
  let c1_i32_0 : BitVec 32 := 1#32
  let v3 : BitVec 32 := Scalar.andi v2 c1_i32_0
  let c0_i32_20 : BitVec 32 := 0#32
  let v21 : BitVec 1 := Scalar.cmpi .eq v3 c0_i32_20
  let v22 : BitVec 32 := Scalar.select v21 c0_i32_21 c256_i32_22
  let v25 : BitVec 32 := Scalar.addi v16 v22
  let v483 : BitVec 32 := Scalar.addi c0_i32_366 v25
  let c384_i32_370 : BitVec 32 := 384#32
  ![v483.toNat, 384]
def k0_off20_at (r : Fin 4) : BitVec 32 × BitVec 32 × BitVec 32 :=
  if r.val < 2 then
    if r.val < 1 then
      (0#32, 0#32, 256#32)
    else
      (1024#32, 0#32, 256#32)
  else
    if r.val < 3 then
      (0#32, 256#32, 0#32)
    else
      (1024#32, 256#32, 0#32)
def k0_dev24 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_368 : BitVec 32 := 1#32
  let v484 : BitVec 32 := Scalar.muli v5 c1_i32_368
  let v485 : BitVec 32 := Scalar.addi c0_i32_369 v484
  v485.toNat
def k0_dev25 (d0 : Dev nD) : Nat :=
  let c0_i32_376 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_375 : BitVec 32 := 1#32
  let v494 : BitVec 32 := Scalar.muli v5 c1_i32_375
  let v495 : BitVec 32 := Scalar.addi c0_i32_376 v494
  v495.toNat
def k0_dev26 (d0 : Dev nD) : Nat :=
  let c0_i32_383 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v6 : BitVec 32 := Scalar.xori v2 c3_i32
  let c1_i32_382 : BitVec 32 := 1#32
  let v504 : BitVec 32 := Scalar.muli v6 c1_i32_382
  let v505 : BitVec 32 := Scalar.addi c0_i32_383 v504
  v505.toNat
def k0_dev27 (d0 : Dev nD) : Nat :=
  let c0_i32_416 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v6 : BitVec 32 := Scalar.xori v2 c3_i32
  let c1_i32_415 : BitVec 32 := 1#32
  let v548 : BitVec 32 := Scalar.muli v6 c1_i32_415
  let v549 : BitVec 32 := Scalar.addi c0_i32_416 v548
  v549.toNat
def k0_dev28 (d0 : Dev nD) : Nat :=
  let c0_i32_423 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_422 : BitVec 32 := 1#32
  let v558 : BitVec 32 := Scalar.muli v5 c1_i32_422
  let v559 : BitVec 32 := Scalar.addi c0_i32_423 v558
  v559.toNat
def k0_dev29 (d0 : Dev nD) : Nat :=
  let c0_i32_430 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_429 : BitVec 32 := 1#32
  let v568 : BitVec 32 := Scalar.muli v5 c1_i32_429
  let v569 : BitVec 32 := Scalar.addi c0_i32_430 v568
  v569.toNat
def k0_dev30 (d0 : Dev nD) : Nat :=
  let c0_i32_437 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v6 : BitVec 32 := Scalar.xori v2 c3_i32
  let c1_i32_436 : BitVec 32 := 1#32
  let v578 : BitVec 32 := Scalar.muli v6 c1_i32_436
  let v579 : BitVec 32 := Scalar.addi c0_i32_437 v578
  v579.toNat
def k0_dev31 (d0 : Dev nD) : Nat :=
  let c0_i32_470 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v6 : BitVec 32 := Scalar.xori v2 c3_i32
  let c1_i32_469 : BitVec 32 := 1#32
  let v622 : BitVec 32 := Scalar.muli v6 c1_i32_469
  let v623 : BitVec 32 := Scalar.addi c0_i32_470 v622
  v623.toNat
def k0_dev32 (d0 : Dev nD) : Nat :=
  let c0_i32_477 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_476 : BitVec 32 := 1#32
  let v632 : BitVec 32 := Scalar.muli v5 c1_i32_476
  let v633 : BitVec 32 := Scalar.addi c0_i32_477 v632
  v633.toNat
def k0_dev33 (d0 : Dev nD) : Nat :=
  let c0_i32_484 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_483 : BitVec 32 := 1#32
  let v642 : BitVec 32 := Scalar.muli v5 c1_i32_483
  let v643 : BitVec 32 := Scalar.addi c0_i32_484 v642
  v643.toNat
def k0_dev34 (d0 : Dev nD) : Nat :=
  let c0_i32_491 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v6 : BitVec 32 := Scalar.xori v2 c3_i32
  let c1_i32_490 : BitVec 32 := 1#32
  let v652 : BitVec 32 := Scalar.muli v6 c1_i32_490
  let v653 : BitVec 32 := Scalar.addi c0_i32_491 v652
  v653.toNat
def k0_dev35 (d0 : Dev nD) : Nat :=
  let c0_i32_525 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_524 : BitVec 32 := 1#32
  let v682 : BitVec 32 := Scalar.muli v5 c1_i32_524
  let v683 : BitVec 32 := Scalar.addi c0_i32_525 v682
  v683.toNat
def k0_dev36 (d0 : Dev nD) : Nat :=
  let c0_i32_533 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v6 : BitVec 32 := Scalar.xori v2 c3_i32
  let c1_i32_532 : BitVec 32 := 1#32
  let v692 : BitVec 32 := Scalar.muli v6 c1_i32_532
  let v693 : BitVec 32 := Scalar.addi c0_i32_533 v692
  v693.toNat
def k0_dev37 (d0 : Dev nD) : Nat :=
  let c0_i32_567 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_566 : BitVec 32 := 1#32
  let v722 : BitVec 32 := Scalar.muli v5 c1_i32_566
  let v723 : BitVec 32 := Scalar.addi c0_i32_567 v722
  v723.toNat
def k0_dev38 (d0 : Dev nD) : Nat :=
  let c0_i32_575 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v6 : BitVec 32 := Scalar.xori v2 c3_i32
  let c1_i32_574 : BitVec 32 := 1#32
  let v732 : BitVec 32 := Scalar.muli v6 c1_i32_574
  let v733 : BitVec 32 := Scalar.addi c0_i32_575 v732
  v733.toNat
def k0_dev39 (d0 : Dev nD) : Nat :=
  let c0_i32_609 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_608 : BitVec 32 := 1#32
  let v762 : BitVec 32 := Scalar.muli v5 c1_i32_608
  let v763 : BitVec 32 := Scalar.addi c0_i32_609 v762
  v763.toNat
def k0_dev40 (d0 : Dev nD) : Nat :=
  let c0_i32_617 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v6 : BitVec 32 := Scalar.xori v2 c3_i32
  let c1_i32_616 : BitVec 32 := 1#32
  let v772 : BitVec 32 := Scalar.muli v6 c1_i32_616
  let v773 : BitVec 32 := Scalar.addi c0_i32_617 v772
  v773.toNat
def k0_dev41 (d0 : Dev nD) : Nat :=
  let c0_i32_651 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_650 : BitVec 32 := 1#32
  let v802 : BitVec 32 := Scalar.muli v5 c1_i32_650
  let v803 : BitVec 32 := Scalar.addi c0_i32_651 v802
  v803.toNat
def k0_dev42 (d0 : Dev nD) : Nat :=
  let c0_i32_659 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v6 : BitVec 32 := Scalar.xori v2 c3_i32
  let c1_i32_658 : BitVec 32 := 1#32
  let v812 : BitVec 32 := Scalar.muli v6 c1_i32_658
  let v813 : BitVec 32 := Scalar.addi c0_i32_659 v812
  v813.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  h_S512x128 : 0 < S512x128.numel
  shapeCasts_S512x128_S512x128 : S512x128.ShapeCasts S512x128
  bitsLt_bf16_f32 : FTy.bits .bf16 < FTy.bits .f32
  inb_S1024x512_S512x128_0_0 : ∀ a, (![0, 0] : Fin 2 → Nat) a + S512x128.size a ≤ S1024x512.size a
  packedbf16_S1024x512_S512x128_0_0 : (Rect.unit (s := S1024x512) ![0, 0] S512x128.size inb_S1024x512_S512x128_0_0).PackedRows (EltTy.packing .bf16)
  inb_S1024x512_S512x128_0_256 : ∀ a, (![0, 256] : Fin 2 → Nat) a + S512x128.size a ≤ S1024x512.size a
  packedbf16_S1024x512_S512x128_0_256 : (Rect.unit (s := S1024x512) ![0, 256] S512x128.size inb_S1024x512_S512x128_0_256).PackedRows (EltTy.packing .bf16)
  inb_S32_S1_0 : ∀ a, (![0] : Fin 1 → Nat) a + S1.size a ≤ S32.size a
  squeezes_S1_S_ : S1.Squeezes S_
  inb_S1024x256_S512x128_0_0 : ∀ a, (![0, 0] : Fin 2 → Nat) a + S512x128.size a ≤ S1024x256.size a
  wordsbf16_S1024x512_S512x128_0_0 : (Rect.unit (s := S1024x512) ![0, 0] S512x128.size inb_S1024x512_S512x128_0_0).WholeWords (EltTy.packing .bf16)
  wordsbf16_S1024x256_S512x128_0_0 : (Rect.unit (s := S1024x256) ![0, 0] S512x128.size inb_S1024x256_S512x128_0_0).WholeWords (EltTy.packing .bf16)
  inb_S32_S1_1 : ∀ a, (![1] : Fin 1 → Nat) a + S1.size a ≤ S32.size a
  wordsbf16_S1024x512_S512x128_0_256 : (Rect.unit (s := S1024x512) ![0, 256] S512x128.size inb_S1024x512_S512x128_0_256).WholeWords (EltTy.packing .bf16)
  inb_S1024x512_S512x128_0_128 : ∀ a, (![0, 128] : Fin 2 → Nat) a + S512x128.size a ≤ S1024x512.size a
  packedbf16_S1024x512_S512x128_0_128 : (Rect.unit (s := S1024x512) ![0, 128] S512x128.size inb_S1024x512_S512x128_0_128).PackedRows (EltTy.packing .bf16)
  inb_S1024x512_S512x128_0_384 : ∀ a, (![0, 384] : Fin 2 → Nat) a + S512x128.size a ≤ S1024x512.size a
  packedbf16_S1024x512_S512x128_0_384 : (Rect.unit (s := S1024x512) ![0, 384] S512x128.size inb_S1024x512_S512x128_0_384).PackedRows (EltTy.packing .bf16)
  inb_S32_S1_8 : ∀ a, (![8] : Fin 1 → Nat) a + S1.size a ≤ S32.size a
  inb_S1024x256_S512x128_0_128 : ∀ a, (![0, 128] : Fin 2 → Nat) a + S512x128.size a ≤ S1024x256.size a
  wordsbf16_S1024x512_S512x128_0_128 : (Rect.unit (s := S1024x512) ![0, 128] S512x128.size inb_S1024x512_S512x128_0_128).WholeWords (EltTy.packing .bf16)
  wordsbf16_S1024x256_S512x128_0_128 : (Rect.unit (s := S1024x256) ![0, 128] S512x128.size inb_S1024x256_S512x128_0_128).WholeWords (EltTy.packing .bf16)
  inb_S32_S1_9 : ∀ a, (![9] : Fin 1 → Nat) a + S1.size a ≤ S32.size a
  wordsbf16_S1024x512_S512x128_0_384 : (Rect.unit (s := S1024x512) ![0, 384] S512x128.size inb_S1024x512_S512x128_0_384).WholeWords (EltTy.packing .bf16)
  inb_S1024x512_S512x128_512_0 : ∀ a, (![512, 0] : Fin 2 → Nat) a + S512x128.size a ≤ S1024x512.size a
  packedbf16_S1024x512_S512x128_512_0 : (Rect.unit (s := S1024x512) ![512, 0] S512x128.size inb_S1024x512_S512x128_512_0).PackedRows (EltTy.packing .bf16)
  inb_S1024x512_S512x128_512_256 : ∀ a, (![512, 256] : Fin 2 → Nat) a + S512x128.size a ≤ S1024x512.size a
  packedbf16_S1024x512_S512x128_512_256 : (Rect.unit (s := S1024x512) ![512, 256] S512x128.size inb_S1024x512_S512x128_512_256).PackedRows (EltTy.packing .bf16)
  inb_S32_S1_16 : ∀ a, (![16] : Fin 1 → Nat) a + S1.size a ≤ S32.size a
  inb_S1024x256_S512x128_512_0 : ∀ a, (![512, 0] : Fin 2 → Nat) a + S512x128.size a ≤ S1024x256.size a
  wordsbf16_S1024x512_S512x128_512_0 : (Rect.unit (s := S1024x512) ![512, 0] S512x128.size inb_S1024x512_S512x128_512_0).WholeWords (EltTy.packing .bf16)
  wordsbf16_S1024x256_S512x128_512_0 : (Rect.unit (s := S1024x256) ![512, 0] S512x128.size inb_S1024x256_S512x128_512_0).WholeWords (EltTy.packing .bf16)
  inb_S32_S1_17 : ∀ a, (![17] : Fin 1 → Nat) a + S1.size a ≤ S32.size a
  wordsbf16_S1024x512_S512x128_512_256 : (Rect.unit (s := S1024x512) ![512, 256] S512x128.size inb_S1024x512_S512x128_512_256).WholeWords (EltTy.packing .bf16)
  inb_S1024x512_S512x128_512_128 : ∀ a, (![512, 128] : Fin 2 → Nat) a + S512x128.size a ≤ S1024x512.size a
  packedbf16_S1024x512_S512x128_512_128 : (Rect.unit (s := S1024x512) ![512, 128] S512x128.size inb_S1024x512_S512x128_512_128).PackedRows (EltTy.packing .bf16)
  inb_S1024x512_S512x128_512_384 : ∀ a, (![512, 384] : Fin 2 → Nat) a + S512x128.size a ≤ S1024x512.size a
  packedbf16_S1024x512_S512x128_512_384 : (Rect.unit (s := S1024x512) ![512, 384] S512x128.size inb_S1024x512_S512x128_512_384).PackedRows (EltTy.packing .bf16)
  inb_S32_S1_24 : ∀ a, (![24] : Fin 1 → Nat) a + S1.size a ≤ S32.size a
  inb_S1024x256_S512x128_512_128 : ∀ a, (![512, 128] : Fin 2 → Nat) a + S512x128.size a ≤ S1024x256.size a
  wordsbf16_S1024x512_S512x128_512_128 : (Rect.unit (s := S1024x512) ![512, 128] S512x128.size inb_S1024x512_S512x128_512_128).WholeWords (EltTy.packing .bf16)
  wordsbf16_S1024x256_S512x128_512_128 : (Rect.unit (s := S1024x256) ![512, 128] S512x128.size inb_S1024x256_S512x128_512_128).WholeWords (EltTy.packing .bf16)
  inb_S32_S1_25 : ∀ a, (![25] : Fin 1 → Nat) a + S1.size a ≤ S32.size a
  wordsbf16_S1024x512_S512x128_512_384 : (Rect.unit (s := S1024x512) ![512, 384] S512x128.size inb_S1024x512_S512x128_512_384).WholeWords (EltTy.packing .bf16)
  packedbf16_S1024x256_S512x128_0_0 : (Rect.unit (s := S1024x256) ![0, 0] S512x128.size inb_S1024x256_S512x128_0_0).PackedRows (EltTy.packing .bf16)
  inb_S32_S1_2 : ∀ a, (![2] : Fin 1 → Nat) a + S1.size a ≤ S32.size a
  inb_S512x256_S256x128_0_0 : ∀ a, (![0, 0] : Fin 2 → Nat) a + S256x128.size a ≤ S512x256.size a
  wordsbf16_S512x256_S256x128_0_0 : (Rect.unit (s := S512x256) ![0, 0] S256x128.size inb_S512x256_S256x128_0_0).WholeWords (EltTy.packing .bf16)
  inb_S32_S1_3 : ∀ a, (![3] : Fin 1 → Nat) a + S1.size a ≤ S32.size a
  packedbf16_S1024x256_S512x128_0_128 : (Rect.unit (s := S1024x256) ![0, 128] S512x128.size inb_S1024x256_S512x128_0_128).PackedRows (EltTy.packing .bf16)
  inb_S32_S1_10 : ∀ a, (![10] : Fin 1 → Nat) a + S1.size a ≤ S32.size a
  inb_S512x256_S256x128_0_128 : ∀ a, (![0, 128] : Fin 2 → Nat) a + S256x128.size a ≤ S512x256.size a
  wordsbf16_S512x256_S256x128_0_128 : (Rect.unit (s := S512x256) ![0, 128] S256x128.size inb_S512x256_S256x128_0_128).WholeWords (EltTy.packing .bf16)
  inb_S32_S1_11 : ∀ a, (![11] : Fin 1 → Nat) a + S1.size a ≤ S32.size a
  packedbf16_S1024x256_S512x128_512_0 : (Rect.unit (s := S1024x256) ![512, 0] S512x128.size inb_S1024x256_S512x128_512_0).PackedRows (EltTy.packing .bf16)
  inb_S32_S1_18 : ∀ a, (![18] : Fin 1 → Nat) a + S1.size a ≤ S32.size a
  inb_S512x256_S256x128_256_0 : ∀ a, (![256, 0] : Fin 2 → Nat) a + S256x128.size a ≤ S512x256.size a
  wordsbf16_S512x256_S256x128_256_0 : (Rect.unit (s := S512x256) ![256, 0] S256x128.size inb_S512x256_S256x128_256_0).WholeWords (EltTy.packing .bf16)
  inb_S32_S1_19 : ∀ a, (![19] : Fin 1 → Nat) a + S1.size a ≤ S32.size a
  packedbf16_S1024x256_S512x128_512_128 : (Rect.unit (s := S1024x256) ![512, 128] S512x128.size inb_S1024x256_S512x128_512_128).PackedRows (EltTy.packing .bf16)
  inb_S32_S1_26 : ∀ a, (![26] : Fin 1 → Nat) a + S1.size a ≤ S32.size a
  inb_S512x256_S256x128_256_128 : ∀ a, (![256, 128] : Fin 2 → Nat) a + S256x128.size a ≤ S512x256.size a
  wordsbf16_S512x256_S256x128_256_128 : (Rect.unit (s := S512x256) ![256, 128] S256x128.size inb_S512x256_S256x128_256_128).WholeWords (EltTy.packing .bf16)
  inb_S32_S1_27 : ∀ a, (![27] : Fin 1 → Nat) a + S1.size a ≤ S32.size a
  h_S256x128 : 0 < S256x128.numel
  inb_S32_S1_4 : ∀ a, (![4] : Fin 1 → Nat) a + S1.size a ≤ S32.size a
  inb_S32_S1_5 : ∀ a, (![5] : Fin 1 → Nat) a + S1.size a ≤ S32.size a
  inb_S32_S1_6 : ∀ a, (![6] : Fin 1 → Nat) a + S1.size a ≤ S32.size a
  inb_S32_S1_7 : ∀ a, (![7] : Fin 1 → Nat) a + S1.size a ≤ S32.size a
  inb_S32_S1_12 : ∀ a, (![12] : Fin 1 → Nat) a + S1.size a ≤ S32.size a
  inb_S32_S1_13 : ∀ a, (![13] : Fin 1 → Nat) a + S1.size a ≤ S32.size a
  inb_S32_S1_14 : ∀ a, (![14] : Fin 1 → Nat) a + S1.size a ≤ S32.size a
  inb_S32_S1_15 : ∀ a, (![15] : Fin 1 → Nat) a + S1.size a ≤ S32.size a
  inb_S32_S1_20 : ∀ a, (![20] : Fin 1 → Nat) a + S1.size a ≤ S32.size a
  inb_S32_S1_21 : ∀ a, (![21] : Fin 1 → Nat) a + S1.size a ≤ S32.size a
  inb_S32_S1_22 : ∀ a, (![22] : Fin 1 → Nat) a + S1.size a ≤ S32.size a
  inb_S32_S1_23 : ∀ a, (![23] : Fin 1 → Nat) a + S1.size a ≤ S32.size a
  inb_S32_S1_28 : ∀ a, (![28] : Fin 1 → Nat) a + S1.size a ≤ S32.size a
  inb_S32_S1_29 : ∀ a, (![29] : Fin 1 → Nat) a + S1.size a ≤ S32.size a
  inb_S32_S1_30 : ∀ a, (![30] : Fin 1 → Nat) a + S1.size a ≤ S32.size a
  inb_S32_S1_31 : ∀ a, (![31] : Fin 1 → Nat) a + S1.size a ≤ S32.size a
  hcc0_scratch7 : 2 + S32.numel ≤ 66
  hcc0_scratch8 : 34 + S32.numel ≤ 66
  k0_dev1_lt : ∀ d0 : Dev nD, (k0_dev1 d0) < nD
  k0_dev2_lt : ∀ d0 : Dev nD, (k0_dev2 d0) < nD
  k0_off1_inb : ∀ d0 : Dev nD, ∀ (r : Fin 4), ∀ a, (k0_off1 d0 (k0_off1_at r).1 (k0_off1_at r).2.1 (k0_off1_at r).2.2) a + S512x128.size a ≤ S2048x512.size a
  k0_off2_inb : ∀ d0 : Dev nD, ∀ (r : Fin 4), ∀ a, (k0_off2 d0 (k0_off2_at r).1 (k0_off2_at r).2.1 (k0_off2_at r).2.2) a + S512x128.size a ≤ S2048x512.size a
  k0_dev3_lt : ∀ d0 : Dev nD, (k0_dev3 d0) < nD
  k0_dev4_lt : ∀ d0 : Dev nD, (k0_dev4 d0) < nD
  k0_off3_inb : ∀ d0 : Dev nD, ∀ (r : Fin 4), ∀ a, (k0_off3 d0 (k0_off3_at r).1 (k0_off3_at r).2.1 (k0_off3_at r).2.2) a + S512x128.size a ≤ S2048x512.size a
  k0_off4_inb : ∀ d0 : Dev nD, ∀ (r : Fin 4), ∀ a, (k0_off4 d0 (k0_off4_at r).1 (k0_off4_at r).2.1 (k0_off4_at r).2.2) a + S512x128.size a ≤ S2048x512.size a
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_off5_inb : ∀ d0 : Dev nD, ∀ (r : Fin 2), ∀ a, (k0_off5 d0 (BitVec.ofNat 32 (512 * r.val))) a + S256x128.size a ≤ S1024x256.size a
  k0_off5_wordsbf16 : ∀ d0 : Dev nD, ∀ (r : Fin 2), (Rect.unit (s := S1024x256) (k0_off5 d0 (BitVec.ofNat 32 (512 * r.val))) S256x128.size (k0_off5_inb d0 r)).WholeWords (EltTy.packing .bf16)
  k0_dev11_lt : ∀ d0 : Dev nD, (k0_dev11 d0) < nD
  k0_off6_inb : ∀ d0 : Dev nD, ∀ (r : Fin 2), ∀ a, (k0_off6 d0 (BitVec.ofNat 32 (512 * r.val))) a + S256x128.size a ≤ S1024x256.size a
  k0_off6_wordsbf16 : ∀ d0 : Dev nD, ∀ (r : Fin 2), (Rect.unit (s := S1024x256) (k0_off6 d0 (BitVec.ofNat 32 (512 * r.val))) S256x128.size (k0_off6_inb d0 r)).WholeWords (EltTy.packing .bf16)
  k0_dev12_lt : ∀ d0 : Dev nD, (k0_dev12 d0) < nD
  k0_off7_inb : ∀ d0 : Dev nD, ∀ (r : Fin 2), ∀ a, (k0_off7 d0 (BitVec.ofNat 32 (512 * r.val))) a + S256x128.size a ≤ S1024x256.size a
  k0_off7_wordsbf16 : ∀ d0 : Dev nD, ∀ (r : Fin 2), (Rect.unit (s := S1024x256) (k0_off7 d0 (BitVec.ofNat 32 (512 * r.val))) S256x128.size (k0_off7_inb d0 r)).WholeWords (EltTy.packing .bf16)
  k0_dev13_lt : ∀ d0 : Dev nD, (k0_dev13 d0) < nD
  k0_off8_inb : ∀ d0 : Dev nD, ∀ (r : Fin 2), ∀ a, (k0_off8 d0 (BitVec.ofNat 32 (512 * r.val))) a + S256x128.size a ≤ S1024x256.size a
  k0_off8_wordsbf16 : ∀ d0 : Dev nD, ∀ (r : Fin 2), (Rect.unit (s := S1024x256) (k0_off8 d0 (BitVec.ofNat 32 (512 * r.val))) S256x128.size (k0_off8_inb d0 r)).WholeWords (EltTy.packing .bf16)
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off9_inb : ∀ d0 : Dev nD, ∀ (r : Fin 2), ∀ a, (k0_off9 d0 (BitVec.ofNat 32 (512 * r.val))) a + S256x128.size a ≤ S1024x256.size a
  k0_off10_inb : ∀ d0 : Dev nD, ∀ (r : Fin 2), ∀ a, (k0_off10 d0 (BitVec.ofNat 32 (1024 * r.val))) a + S256x128.size a ≤ S2048x512.size a
  k0_off10_packedbf16 : ∀ d0 : Dev nD, ∀ (r : Fin 2), (Rect.unit (s := S2048x512) (k0_off10 d0 (BitVec.ofNat 32 (1024 * r.val))) S256x128.size (k0_off10_inb d0 r)).PackedRows (EltTy.packing .bf16)
  k0_off11_inb : ∀ d0 : Dev nD, ∀ (r : Fin 2), ∀ a, (k0_off11 d0 (BitVec.ofNat 32 (512 * r.val))) a + S256x128.size a ≤ S1024x256.size a
  k0_off12_inb : ∀ d0 : Dev nD, ∀ (r : Fin 2), ∀ a, (k0_off12 d0 (BitVec.ofNat 32 (1024 * r.val))) a + S256x128.size a ≤ S2048x512.size a
  k0_off12_packedbf16 : ∀ d0 : Dev nD, ∀ (r : Fin 2), (Rect.unit (s := S2048x512) (k0_off12 d0 (BitVec.ofNat 32 (1024 * r.val))) S256x128.size (k0_off12_inb d0 r)).PackedRows (EltTy.packing .bf16)
  k0_off13_inb : ∀ d0 : Dev nD, ∀ (r : Fin 4), ∀ a, (k0_off13 d0 (k0_off13_at r).1 (k0_off13_at r).2.1 (k0_off13_at r).2.2) a + S256x128.size a ≤ S2048x512.size a
  k0_off13_wordsbf16 : ∀ d0 : Dev nD, ∀ (r : Fin 4), (Rect.unit (s := S2048x512) (k0_off13 d0 (k0_off13_at r).1 (k0_off13_at r).2.1 (k0_off13_at r).2.2) S256x128.size (k0_off13_inb d0 r)).WholeWords (EltTy.packing .bf16)
  k0_dev19_lt : ∀ d0 : Dev nD, (k0_dev19 d0) < nD
  k0_off14_inb : ∀ d0 : Dev nD, ∀ (r : Fin 4), ∀ a, (k0_off14 d0 (k0_off14_at r).1 (k0_off14_at r).2.1 (k0_off14_at r).2.2) a + S256x128.size a ≤ S2048x512.size a
  k0_off14_wordsbf16 : ∀ d0 : Dev nD, ∀ (r : Fin 4), (Rect.unit (s := S2048x512) (k0_off14 d0 (k0_off14_at r).1 (k0_off14_at r).2.1 (k0_off14_at r).2.2) S256x128.size (k0_off14_inb d0 r)).WholeWords (EltTy.packing .bf16)
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_off15_inb : ∀ d0 : Dev nD, ∀ (r : Fin 2), ∀ a, (k0_off15 d0 (BitVec.ofNat 32 (512 * r.val))) a + S256x128.size a ≤ S1024x256.size a
  k0_off16_inb : ∀ d0 : Dev nD, ∀ (r : Fin 2), ∀ a, (k0_off16 d0 (BitVec.ofNat 32 (1024 * r.val))) a + S256x128.size a ≤ S2048x512.size a
  k0_off16_packedbf16 : ∀ d0 : Dev nD, ∀ (r : Fin 2), (Rect.unit (s := S2048x512) (k0_off16 d0 (BitVec.ofNat 32 (1024 * r.val))) S256x128.size (k0_off16_inb d0 r)).PackedRows (EltTy.packing .bf16)
  k0_off17_inb : ∀ d0 : Dev nD, ∀ (r : Fin 2), ∀ a, (k0_off17 d0 (BitVec.ofNat 32 (512 * r.val))) a + S256x128.size a ≤ S1024x256.size a
  k0_off18_inb : ∀ d0 : Dev nD, ∀ (r : Fin 2), ∀ a, (k0_off18 d0 (BitVec.ofNat 32 (1024 * r.val))) a + S256x128.size a ≤ S2048x512.size a
  k0_off18_packedbf16 : ∀ d0 : Dev nD, ∀ (r : Fin 2), (Rect.unit (s := S2048x512) (k0_off18 d0 (BitVec.ofNat 32 (1024 * r.val))) S256x128.size (k0_off18_inb d0 r)).PackedRows (EltTy.packing .bf16)
  k0_off19_inb : ∀ d0 : Dev nD, ∀ (r : Fin 4), ∀ a, (k0_off19 d0 (k0_off19_at r).1 (k0_off19_at r).2.1 (k0_off19_at r).2.2) a + S256x128.size a ≤ S2048x512.size a
  k0_off19_wordsbf16 : ∀ d0 : Dev nD, ∀ (r : Fin 4), (Rect.unit (s := S2048x512) (k0_off19 d0 (k0_off19_at r).1 (k0_off19_at r).2.1 (k0_off19_at r).2.2) S256x128.size (k0_off19_inb d0 r)).WholeWords (EltTy.packing .bf16)
  k0_dev23_lt : ∀ d0 : Dev nD, (k0_dev23 d0) < nD
  k0_off20_inb : ∀ d0 : Dev nD, ∀ (r : Fin 4), ∀ a, (k0_off20 d0 (k0_off20_at r).1 (k0_off20_at r).2.1 (k0_off20_at r).2.2) a + S256x128.size a ≤ S2048x512.size a
  k0_off20_wordsbf16 : ∀ d0 : Dev nD, ∀ (r : Fin 4), (Rect.unit (s := S2048x512) (k0_off20 d0 (k0_off20_at r).1 (k0_off20_at r).2.1 (k0_off20_at r).2.2) S256x128.size (k0_off20_inb d0 r)).WholeWords (EltTy.packing .bf16)
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  hstage0_0 : ∀ j, (stage0_0 j).IsWhole
  hstage0_1 : ∀ j, (stage0_1 j).IsWhole

variable [Facts₀]

abbrev cc0_scratch7 : DmaSems sig S32 := SemArray.consecutive 2 S32 hcc0_scratch7
abbrev cc0_scratch8 : DmaSems sig S32 := SemArray.consecutive 34 S32 hcc0_scratch8

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x512 : Shape := ⟨2, ![8192, 512]⟩
abbrev S4x2048x512 : Shape := ⟨3, ![4, 2048, 512]⟩
abbrev S_ : Shape := ⟨0, ![]⟩
abbrev S2048x512 : Shape := ⟨2, ![2048, 512]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S4x2048x512, .f32⟩
  | .hbm, ⟨2, _⟩ => ⟨S_, .f32⟩
  | .hbm, ⟨3, _⟩ => ⟨S2048x512, .f32⟩
  | .hbm, ⟨4, _⟩ => ⟨S2048x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S8192x512_S4x2048x512 : S8192x512.ShapeCasts S4x2048x512
  reducesTo_S4x2048x512_S2048x512_d0 : S4x2048x512.ReducesTo [0] S2048x512
  h_S_ : 0 < S_.numel
  bitsLt_bf16_f32 : FTy.bits .bf16 < FTy.bits .f32

variable [Facts₀]

class Facts : Prop extends Facts₀ where

variable [Facts]
-- ==== Proof.Proto.lean ====
-- Partners, the rectangles that travel between them, and what each holds as a function of the four devices' blocks.
import proofs.«900112_g7700000000000113_dist_ar_v7x_i4_i_m2048_n512_bf16_1_alg».proof.Proof.Gen.KernelIdeal
import proofs.«900112_g7700000000000113_dist_ar_v7x_i4_i_m2048_n512_bf16_1_alg».proof.Proof.Gen.KernelIdeal.Skeleton
import proofs.«900112_g7700000000000113_dist_ar_v7x_i4_i_m2048_n512_bf16_1_alg».proof.Proof.Gen.KernelIdeal.Launch
import proofs.«900112_g7700000000000113_dist_ar_v7x_i4_i_m2048_n512_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

def p1 (c : Dev nD) : Dev nD := ⟨c.val ^^^ 1, by revert c; decide⟩

def p2 (c : Dev nD) : Dev nD := ⟨c.val ^^^ 3, by revert c; decide⟩

def p3 (c : Dev nD) : Dev nD := ⟨c.val ^^^ 2, by revert c; decide⟩

theorem p1_p1 (c : Dev nD) : p1 (p1 c) = c := by revert c; decide
theorem p2_p2 (c : Dev nD) : p2 (p2 c) = c := by revert c; decide
theorem p2_p1 (c : Dev nD) : p2 (p1 c) = p3 c := by revert c; decide
theorem p1_p2 (c : Dev nD) : p1 (p2 c) = p3 c := by revert c; decide
def e1 : Dev nD ≃ Dev nD := ⟨p1, p1, p1_p1, p1_p1⟩
def e2 : Dev nD ≃ Dev nD := ⟨p2, p2, p2_p2, p2_p2⟩

def kA : Dev nD → Fin 2 := ![0, 1, 1, 0]
def kB : Dev nD → Fin 2 := ![0, 0, 1, 1]

def k2A : Dev nD → Fin 2 := ![0, 0, 1, 1]
def k2B : Dev nD → Fin 2 := ![0, 1, 0, 1]

def fl : Fin 2 → Fin 2 := ![1, 0]

def qA (c : Dev nD) : Fin 4 := ⟨2 * (kA c).val + (k2A c).val, by revert c; decide⟩
def qB (c : Dev nD) : Fin 4 := ⟨2 * (kB c).val + (k2B c).val, by revert c; decide⟩

theorem k2A_p2 (c : Dev nD) : k2A (p2 c) = fl (k2A c) := by revert c; decide
theorem k2B_p1 (c : Dev nD) : k2B (p1 c) = fl (k2B c) := by revert c; decide

abbrev xM : Memref sig .tc .vmem S2048x512 .f32 := Memref.whole cc0_stg0_0
abbrev oM : Memref sig .tc .vmem S2048x512 .bf16 := Memref.whole cc0_stg1_0
abbrev xbsM : Memref sig .tc .vmem S1024x512 .bf16 := Memref.whole cc0_scratch0
abbrev s1aM : Memref sig .tc .vmem S1024x256 .bf16 := Memref.whole cc0_scratch1
abbrev s1bM : Memref sig .tc .vmem S1024x256 .bf16 := Memref.whole cc0_scratch2
abbrev s2aM : Memref sig .tc .vmem S512x256 .bf16 := Memref.whole cc0_scratch3
abbrev s2bM : Memref sig .tc .vmem S512x256 .bf16 := Memref.whole cc0_scratch4
abbrev r1aM : Memref sig .tc .vmem S1024x256 .bf16 := Memref.whole cc0_scratch5
abbrev r1bM : Memref sig .tc .vmem S1024x256 .bf16 := Memref.whole cc0_scratch6

abbrev offX (rc : Fin 2) (col : Fin 4) (o : Fin 2) : Fin 2 → ℕ := ![rc.val * 1024 + o.val * 512, col.val * 128]

abbrev offS4 (rc : Fin 2) (col : Fin 4) : Fin 2 → ℕ := ![rc.val * 512, col.val * 128]

abbrev offS2 (rc cc : Fin 2) : Fin 2 → ℕ := ![rc.val * 512, cc.val * 128]

abbrev offH (rc cc h : Fin 2) : Fin 2 → ℕ := ![rc.val * 512 + h.val * 256, cc.val * 128]

abbrev offQ (rc cc : Fin 2) : Fin 2 → ℕ := ![rc.val * 256, cc.val * 128]

abbrev offO (rc : Fin 2) (col : Fin 4) (q : Fin 4) : Fin 2 → ℕ := ![rc.val * 1024 + q.val * 256, col.val * 128]

theorem inbX (rc : Fin 2) (col : Fin 4) (o : Fin 2) : ∀ a, offX rc col o a + S512x128.size a ≤ S2048x512.size a := by
  revert rc col o; decide
theorem inbS4 (rc : Fin 2) (col : Fin 4) : ∀ a, offS4 rc col a + S512x128.size a ≤ S1024x512.size a := by revert rc col; decide
theorem inbS2 (rc cc : Fin 2) : ∀ a, offS2 rc cc a + S512x128.size a ≤ S1024x256.size a := by revert rc cc; decide
theorem inbH (rc cc h : Fin 2) : ∀ a, offH rc cc h a + S256x128.size a ≤ S1024x256.size a := by revert rc cc h; decide
theorem inbQ (rc cc : Fin 2) : ∀ a, offQ rc cc a + S256x128.size a ≤ S512x256.size a := by revert rc cc; decide
theorem inbO (rc : Fin 2) (col : Fin 4) (q : Fin 4) : ∀ a, offO rc col q a + S256x128.size a ≤ S2048x512.size a := by
  revert rc col q; decide

abbrev RX (rc : Fin 2) (col : Fin 4) (o : Fin 2) : Rect S2048x512 := Rect.unit (offX rc col o) S512x128.size (inbX rc col o)
abbrev RS4 (rc : Fin 2) (col : Fin 4) : Rect S1024x512 := Rect.unit (offS4 rc col) S512x128.size (inbS4 rc col)
abbrev RS2 (rc cc : Fin 2) : Rect S1024x256 := Rect.unit (offS2 rc cc) S512x128.size (inbS2 rc cc)
abbrev RH (rc cc h : Fin 2) : Rect S1024x256 := Rect.unit (offH rc cc h) S256x128.size (inbH rc cc h)
abbrev RQ (rc cc : Fin 2) : Rect S512x256 := Rect.unit (offQ rc cc) S256x128.size (inbQ rc cc)
abbrev RO (rc : Fin 2) (col : Fin 4) (q : Fin 4) : Rect S2048x512 := Rect.unit (offO rc col q) S256x128.size (inbO rc col q)

def ca (cc : Fin 2) : Fin 4 := ⟨cc.val, by omega⟩
def cb (cc : Fin 2) : Fin 4 := ⟨2 + cc.val, by omega⟩

def tileQ {s : Shape} {e : EltTy} (q : PosShare TreeShare) (c : Dev nD) (M : Memref sig .tc .vmem s e) (r : Rect s)
    (V : r.shape.Idx → Elt F e) : sProp 𝕄 :=
  iprop(∃ f : Buf (Elt F) ((M.access r).loc (c : Thread nD τ)),
    ⌜(M.access r).read (Elt F) f = V⌝ ∗ ((M.access r).loc (c : Thread nD τ) ↦[(M.access r).set]{q} f))

abbrev tile {s : Shape} {e : EltTy} (c : Dev nD) (M : Memref sig .tc .vmem s e) (r : Rect s)
    (V : r.shape.Idx → Elt F e) : sProp 𝕄 := tileQ fullShare c M r V

def tileAny {s : Shape} {e : EltTy} (c : Dev nD) (M : Memref sig .tc .vmem s e) (r : Rect s) : sProp 𝕄 :=
  iprop(∃ f : Buf (Elt F) ((M.access r).loc (c : Thread nD τ)), ((M.access r).loc (c : Thread nD τ) ↦[(M.access r).set]{fullShare} f))

section Values
variable (X : Dev nD → (cc0_stg0_0 : Ref sig .tc).ty.Contents (Elt F))

def xt (d : Dev nD) (rc : Fin 2) (col : Fin 4) (o : Fin 2) : Vec F S512x128 .f32 :=
  (xM.access (RX rc col o)).read (Elt F) (X d)

def xsA (d : Dev nD) (rc cc : Fin 2) : Vec F S512x128 .bf16 := k0_pay1 (xt X d rc (ca cc) (fl (kA d)))
def xsB (d : Dev nD) (rc cc : Fin 2) : Vec F S512x128 .bf16 := k0_pay1 (xt X d rc (cb cc) (fl (kB d)))

def redA (d : Dev nD) (rc cc : Fin 2) : Vec F S512x128 .bf16 := k0_pay9 (xt X d rc (ca cc) (kA d)) (xsA X (p1 d) rc cc)
def redB (d : Dev nD) (rc cc : Fin 2) : Vec F S512x128 .bf16 := k0_pay9 (xt X d rc (cb cc) (kB d)) (xsB X (p2 d) rc cc)

theorem inbHalf (h : Fin 2) : ∀ a, (![h.val * 256, 0] : Fin 2 → ℕ) a + S256x128.size a ≤ S512x128.size a := by revert h; decide

def half (h : Fin 2) (V : Vec F S512x128 .bf16) : Vec F S256x128 .bf16 :=
  fun i => V ((Rect.unit (s := S512x128) ![h.val * 256, 0] S256x128.size (inbHalf h)).emb i)

def outA (d : Dev nD) (rc cc : Fin 2) : Vec F S256x128 .bf16 :=
  k0_pay18 (half (k2A d) (redA X d rc cc)) (half (k2A d) (redA X (p2 d) rc cc))
def outB (d : Dev nD) (rc cc : Fin 2) : Vec F S256x128 .bf16 :=
  k0_pay18 (half (k2B d) (redB X d rc cc)) (half (k2B d) (redB X (p1 d) rc cc))

end Values

end Cert.KernelIdeal.AR

end
-- ==== Proof.Sched.lean ====
-- The semaphores as cells of rounds: who pays each cell, how much, and what a landing hands the device that waits on it.
import proofs.«900112_g7700000000000113_dist_ar_v7x_i4_i_m2048_n512_bf16_1_alg».proof.Proof.Proto

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

def s₀ : MemSt nD τ sig (Elt F) := ⟨m, fun _ => 0, ρ⟩

def xstg (c : Dev nD) : (cc0_stg0_0 : Ref sig .tc).ty.Contents (Elt F) :=
  (win0_0.blk (0 : Fin 1)).view.read (Elt F) ((s₀ m ρ).mem ((c : Thread nD τ).loc main_arg0))

abbrev barS : Sem sig := (SemArray.scalar (sig.barrier 0 rfl) : Sems sig S_).sem

def sSem (i : Fin 32) : DmaSem sig := ⟨2 + i.val, by have := i.isLt; show 2 + i.val < 66; omega⟩
def rSem (i : Fin 32) : DmaSem sig := ⟨34 + i.val, by have := i.isLt; show 34 + i.val < 66; omega⟩

abbrev barCell (c : Dev nD) : GSem nD τ sig := ((c : Thread nD τ), .reg barS)
abbrev sCell (c : Dev nD) (i : Fin 32) : GSem nD τ sig := ((c : Thread nD τ), .dma (sSem i))
abbrev rCell (c : Dev nD) (i : Fin 32) : GSem nD τ sig := ((c : Thread nD τ), .dma (rSem i))

def ix (rc cc : Fin 2) (e : Fin 8) : Fin 32 := ⟨8 * (2 * rc.val + cc.val) + e.val, by omega⟩
def iRc (i : Fin 32) : Fin 2 := ⟨i.val / 16, by omega⟩
def iCc (i : Fin 32) : Fin 2 := ⟨i.val / 8 % 2, by omega⟩
def iE (i : Fin 32) : Fin 8 := ⟨i.val % 8, by omega⟩

theorem iRc_ix (rc cc : Fin 2) (e : Fin 8) : iRc (ix rc cc e) = rc := by revert rc cc e; decide
theorem iCc_ix (rc cc : Fin 2) (e : Fin 8) : iCc (ix rc cc e) = cc := by revert rc cc e; decide
theorem iE_ix (rc cc : Fin 2) (e : Fin 8) : iE (ix rc cc e) = e := by revert rc cc e; decide

abbrev N1 : ℕ := (s1aM.access (RS2 0 0)).dmaCredit
abbrev N2 : ℕ := (s2aM.access (RQ 0 0)).dmaCredit
theorem N1_pos : 0 < N1 := View.dmaCredit_pos _ (by decide)
theorem N2_pos : 0 < N2 := View.dmaCredit_pos _ (by decide)

inductive CK where
  | bar | snd (i : Fin 32) | rcv (i : Fin 32) | other

def ckLoc : SemLoc sig → CK
  | .reg _ => .bar
  | .dma q => if h : 2 ≤ q.val ∧ q.val < 34 then .snd ⟨q.val - 2, by omega⟩
      else if h' : 34 ≤ q.val ∧ q.val < 66 then .rcv ⟨q.val - 34, by omega⟩ else .other

def ck (g : GSem nD τ sig) : CK := if g.1.2 = .tc then ckLoc g.2 else .other

section Pay
variable (X : Dev nD → (cc0_stg0_0 : Ref sig .tc).ty.Contents (Elt F))

def sndPay (c : Dev nD) (i : Fin 32) (r : ℕ) : sProp 𝕄 :=
  match (iE i).val, r with
  | 0, 0 => tile c xbsM (RS4 (iRc i) (ca (iCc i))) (xsA X c (iRc i) (iCc i))
  | 0, _ => tile c oM (RO (iRc i) (ca (iCc i)) (qA (p2 c))) (outA X (p2 c) (iRc i) (iCc i))
  | 1, 0 => tile c xbsM (RS4 (iRc i) (cb (iCc i))) (xsB X c (iRc i) (iCc i))
  | 1, _ => tile c oM (RO (iRc i) (cb (iCc i)) (qB (p1 c))) (outB X (p1 c) (iRc i) (iCc i))
  | 2, _ => tile c r1aM (RH (iRc i) (iCc i) (fl (k2A c))) (half (fl (k2A c)) (redA X c (iRc i) (iCc i)))
  | 3, _ => tile c r1bM (RH (iRc i) (iCc i) (fl (k2B c))) (half (fl (k2B c)) (redB X c (iRc i) (iCc i)))
  | 4, _ => tileQ fullShare.left c oM (RO (iRc i) (ca (iCc i)) (qA c)) (outA X c (iRc i) (iCc i))
  | 5, _ => tileQ fullShare.left c oM (RO (iRc i) (cb (iCc i)) (qB c)) (outB X c (iRc i) (iCc i))
  | 6, _ => tileQ fullShare.right c oM (RO (iRc i) (ca (iCc i)) (qA c)) (outA X c (iRc i) (iCc i))
  | _, _ => tileQ fullShare.right c oM (RO (iRc i) (cb (iCc i)) (qB c)) (outB X c (iRc i) (iCc i))

def rcvPay (c : Dev nD) (i : Fin 32) (r : ℕ) : sProp 𝕄 :=
  match (iE i).val, r with
  | 0, 0 => tile c s1aM (RS2 (iRc i) (iCc i)) (xsA X (p1 c) (iRc i) (iCc i))
  | 0, _ => tile c oM (RO (iRc i) (ca (iCc i)) (qA (p3 c))) (outA X (p3 c) (iRc i) (iCc i))
  | 1, 0 => tile c s1bM (RS2 (iRc i) (iCc i)) (xsB X (p2 c) (iRc i) (iCc i))
  | 1, _ => tile c oM (RO (iRc i) (cb (iCc i)) (qB (p3 c))) (outB X (p3 c) (iRc i) (iCc i))
  | 2, _ => tile c s2aM (RQ (iRc i) (iCc i)) (half (k2A c) (redA X (p2 c) (iRc i) (iCc i)))
  | 3, _ => tile c s2bM (RQ (iRc i) (iCc i)) (half (k2B c) (redB X (p1 c) (iRc i) (iCc i)))
  | 4, _ => iprop(tile c oM (RO (iRc i) (ca (iCc i)) (qA (p2 c))) (outA X (p2 c) (iRc i) (iCc i))
              ∗ reached ER (rCell (p2 c) (ix (iRc i) (iCc i) 1)) 1)
  | 5, _ => iprop(tile c oM (RO (iRc i) (cb (iCc i)) (qB (p1 c))) (outB X (p1 c) (iRc i) (iCc i))
              ∗ reached ER (rCell (p1 c) (ix (iRc i) (iCc i) 0)) 1)
  | 6, _ => tile c oM (RO (iRc i) (ca (iCc i)) (qA (p1 c))) (outA X (p1 c) (iRc i) (iCc i))
  | _, _ => tile c oM (RO (iRc i) (cb (iCc i)) (qB (p2 c))) (outB X (p2 c) (iRc i) (iCc i))

def barTilesF (c : Dev nD) (u : Fin 2 × Fin 2) : sProp 𝕄 :=
  iprop(tileAny (p1 c) s1aM (RS2 u.1 u.2) ∗ tileAny (p1 c) s2bM (RQ u.1 u.2)
    ∗ tileAny (p1 c) oM (RO u.1 (cb u.2) (qB c)) ∗ tileAny (p1 c) oM (RO u.1 (ca u.2) (qA c))
    ∗ tileAny (p1 c) oM (RO u.1 (ca u.2) (qA (p2 c))))

def barTilesT (c : Dev nD) (u : Fin 2 × Fin 2) : sProp 𝕄 :=
  iprop(tileAny (p2 c) s1bM (RS2 u.1 u.2) ∗ tileAny (p2 c) s2aM (RQ u.1 u.2)
    ∗ tileAny (p2 c) oM (RO u.1 (ca u.2) (qA c)) ∗ tileAny (p2 c) oM (RO u.1 (cb u.2) (qB c))
    ∗ tileAny (p2 c) oM (RO u.1 (cb u.2) (qB (p1 c))))

def barPay (c : Dev nD) (d : Bool) : sProp 𝕄 :=
  if d then bigSep Finset.univ (barTilesT (F := F) c) else bigSep Finset.univ (barTilesF (F := F) c)

end Pay

def rd : Rounds.Schedule (GSem nD τ sig) Bool 𝕄 where
  duties g r := match ck g with
    | .bar => if r = 0 then Finset.univ else ∅
    | .snd i => if r = 0 ∨ (r = 1 ∧ i.val % 8 < 2) then {false} else ∅
    | .rcv i => if r = 0 ∨ (r = 1 ∧ i.val % 8 < 2) then {false} else ∅
    | .other => ∅
  unitless _ := False
  amount g r _ := match ck g with
    | .bar => 1
    | .snd i => if r = 0 ∧ i.val % 8 < 2 then N1 else N2
    | .rcv i => if r = 0 ∧ i.val % 8 < 2 then N1 else N2
    | .other => 1
  payload g r d := match ck g with
    | .bar => barPay g.1.1 d
    | .snd i => sndPay (xstg m ρ) g.1.1 i r
    | .rcv i => rcvPay (xstg m ρ) g.1.1 i r
    | .other => iprop(emp)
  amount_pos g r d _ := by
    cases ck g with
    | bar => exact Nat.one_pos
    | snd i => dsimp only; split <;> first | exact N1_pos | exact N2_pos
    | rcv i => dsimp only; split <;> first | exact N1_pos | exact N2_pos
    | other => exact Nat.one_pos

end Cert.KernelIdeal.AR

end
-- ==== Proof.Ghost.lean ====
-- What a device owes, in program order; the level of every wait; and the resources a device starts from.
import proofs.«900112_g7700000000000113_dist_ar_v7x_i4_i_m2048_n512_bf16_1_alg».proof.Proof.Sched
import Idealize.ShloMosaic.Lib.ValueIdx

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

def un : List (Fin 2 × Fin 2) := [(0, 0), (0, 1), (1, 0), (1, 1)]

def pays (c : Dev nD) : List (GSem nD τ sig × ℕ × ℕ) :=
  [(barCell (p1 c), 0, 1), (barCell (p2 c), 0, 1)]
  ++ un.flatMap (fun u => [(rCell (p1 c) (ix u.1 u.2 0), 0, N1), (rCell (p2 c) (ix u.1 u.2 1), 0, N1)])
  ++ un.flatMap (fun u => [(rCell (p2 c) (ix u.1 u.2 2), 0, N2), (rCell (p1 c) (ix u.1 u.2 3), 0, N2)])
  ++ un.flatMap (fun u => [(rCell (p2 c) (ix u.1 u.2 4), 0, N2), (rCell (p1 c) (ix u.1 u.2 5), 0, N2),
                           (rCell (p1 c) (ix u.1 u.2 6), 0, N2), (rCell (p2 c) (ix u.1 u.2 7), 0, N2)])
  ++ un.flatMap (fun u => [(rCell (p1 c) (ix u.1 u.2 0), 1, N2), (rCell (p2 c) (ix u.1 u.2 1), 1, N2)])

def owedFrom (c : Dev nD) (k : ℕ) : CellTallies nD τ sig ℕ :=
  ((pays c).drop k).foldr (fun t acc => acc + tallyAt t.1 t.2.1 t.2.2) 0

def O₀ (c : Dev nD) : CellTallies nD τ sig ℕ := owedFrom c 0

def L (g : GSem nD τ sig) : Finset ℕ := if g.1.2 = .tc then {0, 1} else ∅

def lv (g : GSem nD τ sig) (ι : ℕ) : ℕ :=
  match ckLoc g.2 with
  | .bar => 1
  | .snd _ => 0
  | .rcv i => if (iE i).val < 2 then (if ι = 0 then 2 else 5) else if (iE i).val < 4 then 3 else if (iE i).val < 6 then 4 else 5
  | .other => 0

def csem (k : Fin 65) : SemLoc sig :=
  if h : k.val = 0 then .reg barS
  else if h' : k.val < 33 then .dma (sSem ⟨k.val - 1, by omega⟩)
  else .dma (rSem ⟨k.val - 33, by omega⟩)
abbrev kcell (ck : Dev nD × Fin 65) : GSem nD τ sig := ((ck.1 : Thread nD τ), csem ck.2)

def records (K : Dev nD × Fin 65 → ℕ) : sProp 𝕄 :=
  iprop((bigSep Finset.univ fun ck : Dev nD × Fin 65 => cellInv ER (rd m ρ) (K ck) (kcell ck))
    ∗ bigSep Finset.univ fun ck : Dev nD × Fin 65 => reached ER (kcell ck) 0)

def payToks1 (c : Dev nD) (u : Fin 2 × Fin 2) : sProp 𝕄 :=
  iprop(dutyTok ER (rCell (p1 c) (ix u.1 u.2 0)) 0 false ∗ dutyTok ER (rCell (p1 c) (ix u.1 u.2 3)) 0 false
    ∗ dutyTok ER (rCell (p1 c) (ix u.1 u.2 5)) 0 false ∗ dutyTok ER (rCell (p1 c) (ix u.1 u.2 6)) 0 false
    ∗ dutyTok ER (rCell (p1 c) (ix u.1 u.2 0)) 1 false)
def payToks2 (c : Dev nD) (u : Fin 2 × Fin 2) : sProp 𝕄 :=
  iprop(dutyTok ER (rCell (p2 c) (ix u.1 u.2 1)) 0 false ∗ dutyTok ER (rCell (p2 c) (ix u.1 u.2 2)) 0 false
    ∗ dutyTok ER (rCell (p2 c) (ix u.1 u.2 4)) 0 false ∗ dutyTok ER (rCell (p2 c) (ix u.1 u.2 7)) 0 false
    ∗ dutyTok ER (rCell (p2 c) (ix u.1 u.2 1)) 1 false)

def sendToks (c : Dev nD) : sProp 𝕄 :=
  iprop((bigSep Finset.univ fun i : Fin 32 => dutyTok ER (sCell c i) 0 false)
    ∗ bigSep Finset.univ fun u : Fin 2 × Fin 2 =>
        iprop(dutyTok ER (sCell c (ix u.1 u.2 0)) 1 false ∗ dutyTok ER (sCell c (ix u.1 u.2 1)) 1 false))

def payToks (c : Dev nD) : sProp 𝕄 :=
  iprop(dutyTok ER (barCell (p1 c)) 0 false ∗ dutyTok ER (barCell (p2 c)) 0 true ∗ sendToks c
    ∗ (bigSep Finset.univ (payToks1 (F := F) c)) ∗ bigSep Finset.univ (payToks2 (F := F) c))

def linear (c : Dev nD) : sProp 𝕄 :=
  iprop((bigSep Finset.univ fun k : Fin 65 => atPos ER (kcell (c, k)) 0 ∅ 0) ∗ payToks c)

def ghost (K : Dev nD × Fin 65 → ℕ) (c : Dev nD) : sProp 𝕄 := iprop(records m ρ K ∗ linear c)

def creds (c : Dev nD) : sProp 𝕄 :=
  iprop(cred (tallyAt (barCell c) 0 2)
    ∗ (bigSep Finset.univ fun i : Fin 32 => cred (tallyAt (rCell c i) 0 (if i.val % 8 < 2 then N1 else N2)))
    ∗ bigSep Finset.univ fun u : Fin 2 × Fin 2 =>
        iprop(cred (tallyAt (rCell c (ix u.1 u.2 0)) 1 N2) ∗ cred (tallyAt (rCell c (ix u.1 u.2 1)) 1 N2)))

def start (c : Dev nD) : sProp 𝕄 := iprop((∃ K, ghost m ρ K c) ∗ creds c ∗ levAts L lv)

def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f))

def Φ₀ (c : Dev nD) : sProp 𝕄 := iprop(start m ρ c ∗ scratch c)

def Φ₁ (c : Dev nD) : sProp 𝕄 :=
  iprop(scratch (F := F) c ∗ (bigSep Finset.univ fun i : Fin 32 => semVal (sCell c i) 0)
    ∗ bigSep Finset.univ fun i : Fin 32 => semVal (rCell c i) 0)

section Out
variable (X : Dev nD → (cc0_stg0_0 : Ref sig .tc).ty.Contents (Elt F))

def ownA : Fin 4 → Dev nD := ![0, 3, 1, 2]
def ownB : Fin 4 → Dev nD := ![0, 1, 2, 3]
theorem qA_ownA (q : Fin 4) : qA (ownA q) = q := by revert q; decide
theorem qB_ownB (q : Fin 4) : qB (ownB q) = q := by revert q; decide
theorem ownA_qA (c : Dev nD) : ownA (qA c) = c := by revert c; decide
theorem ownB_qB (c : Dev nD) : ownB (qB c) = c := by revert c; decide

def outTile (rc : Fin 2) (col q : Fin 4) : Vec F S256x128 .bf16 :=
  if h : col.val < 2 then outA X (ownA q) rc ⟨col.val, h⟩ else outB X (ownB q) rc ⟨col.val - 2, by omega⟩

def outAt : (cc0_stg1_0 : Ref sig .tc).ty.Contents (Elt F) := fun i =>
  have h0 : (i 0).val < 2048 := (i 0).isLt
  have h1 : (i 1).val < 512 := (i 1).isLt
  outTile X ⟨(i 0).val / 1024, by omega⟩ ⟨(i 1).val / 128, by omega⟩ ⟨(i 0).val % 1024 / 256, by omega⟩
    (ValueIdx.ix2 (⟨(i 0).val % 256, by omega⟩ : Fin 256) (⟨(i 1).val % 128, by omega⟩ : Fin 128))

end Out

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => outAt (xstg m ρ)
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.KernelIdeal.AR

end
-- ==== Proof.Tables.lean ====
-- The schedule read at each cell: duties, amounts, expected totals and payloads.
import proofs.«900112_g7700000000000113_dist_ar_v7x_i4_i_m2048_n512_bf16_1_alg».proof.Proof.Ghost

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

theorem ck_bar (c : Dev nD) : ck (barCell c) = .bar := by
  unfold ck
  have h : (barCell c).1.2 = .tc := rfl
  rw [if_pos h]; rfl
theorem ck_s (c : Dev nD) (i : Fin 32) : ck (sCell c i) = .snd i := by
  unfold ck
  have h : (sCell c i).1.2 = .tc := rfl
  rw [if_pos h]
  show ckLoc (.dma (sSem i)) = .snd i
  rw [ckLoc]
  have hi := i.isLt
  have hv : (sSem i).val = 2 + i.val := rfl
  rw [dif_pos (show 2 ≤ (sSem i).val ∧ (sSem i).val < 34 by rw [hv]; omega)]
  exact congrArg CK.snd (Fin.ext (by show (sSem i).val - 2 = i.val; rw [hv]; omega))
theorem ck_r (c : Dev nD) (i : Fin 32) : ck (rCell c i) = .rcv i := by
  unfold ck
  have h : (rCell c i).1.2 = .tc := rfl
  rw [if_pos h]
  show ckLoc (.dma (rSem i)) = .rcv i
  rw [ckLoc]
  have hi := i.isLt
  have hv : (rSem i).val = 34 + i.val := rfl
  rw [dif_neg (show ¬ (2 ≤ (rSem i).val ∧ (rSem i).val < 34) by rw [hv]; omega),
    dif_pos (show 34 ≤ (rSem i).val ∧ (rSem i).val < 66 by rw [hv]; omega)]
  exact congrArg CK.rcv (Fin.ext (by show (rSem i).val - 34 = i.val; rw [hv]; omega))

theorem ix_mod (rc cc : Fin 2) (e : Fin 8) : (ix rc cc e).val % 8 = e.val := by
  revert rc cc e; decide

theorem duties_bar (c : Dev nD) : (rd (F := F) m ρ).duties (barCell c) 0 = Finset.univ := by
  dsimp only [rd]; rw [ck_bar]; exact if_pos rfl
theorem duties_s0 (c : Dev nD) (i : Fin 32) : (rd (F := F) m ρ).duties (sCell c i) 0 = {false} := by
  dsimp only [rd]; rw [ck_s]; exact if_pos (Or.inl rfl)
theorem duties_r0 (c : Dev nD) (i : Fin 32) : (rd (F := F) m ρ).duties (rCell c i) 0 = {false} := by
  dsimp only [rd]; rw [ck_r]; exact if_pos (Or.inl rfl)
theorem duties_s1 (c : Dev nD) (rc cc : Fin 2) (e : Fin 8) (he : e.val < 2) : (rd (F := F) m ρ).duties (sCell c (ix rc cc e)) 1 = {false} := by
  dsimp only [rd]; rw [ck_s]; exact if_pos (Or.inr ⟨rfl, by rw [ix_mod]; exact he⟩)
theorem duties_r1 (c : Dev nD) (rc cc : Fin 2) (e : Fin 8) (he : e.val < 2) : (rd (F := F) m ρ).duties (rCell c (ix rc cc e)) 1 = {false} := by
  dsimp only [rd]; rw [ck_r]; exact if_pos (Or.inr ⟨rfl, by rw [ix_mod]; exact he⟩)

theorem duties_s_later1 (c : Dev nD) (rc cc : Fin 2) (e : Fin 8) (he : 2 ≤ e.val) : ∀ r, 1 ≤ r → (rd (F := F) m ρ).duties (sCell c (ix rc cc e)) r = ∅ := by
  intro r hr; dsimp only [rd]; rw [ck_s]; exact if_neg (by rw [ix_mod]; omega)
theorem duties_r_later1 (c : Dev nD) (rc cc : Fin 2) (e : Fin 8) (he : 2 ≤ e.val) : ∀ r, 1 ≤ r → (rd (F := F) m ρ).duties (rCell c (ix rc cc e)) r = ∅ := by
  intro r hr; dsimp only [rd]; rw [ck_r]; exact if_neg (by rw [ix_mod]; omega)
theorem duties_s_later2 (c : Dev nD) (i : Fin 32) : ∀ r, 2 ≤ r → (rd (F := F) m ρ).duties (sCell c i) r = ∅ := by
  intro r hr; dsimp only [rd]; rw [ck_s]; exact if_neg (by omega)
theorem duties_r_later2 (c : Dev nD) (i : Fin 32) : ∀ r, 2 ≤ r → (rd (F := F) m ρ).duties (rCell c i) r = ∅ := by
  intro r hr; dsimp only [rd]; rw [ck_r]; exact if_neg (by omega)

theorem amount_bar (c : Dev nD) (d : Bool) : (rd (F := F) m ρ).amount (barCell c) 0 d = 1 := by
  dsimp only [rd]; rw [ck_bar]

theorem amount_s_big (c : Dev nD) (rc cc : Fin 2) (e : Fin 8) (he : e.val < 2) (d : Bool) : (rd (F := F) m ρ).amount (sCell c (ix rc cc e)) 0 d = N1 := by
  dsimp only [rd]; rw [ck_s]; exact if_pos ⟨rfl, by rw [ix_mod]; exact he⟩
theorem amount_r_big (c : Dev nD) (rc cc : Fin 2) (e : Fin 8) (he : e.val < 2) (d : Bool) : (rd (F := F) m ρ).amount (rCell c (ix rc cc e)) 0 d = N1 := by
  dsimp only [rd]; rw [ck_r]; exact if_pos ⟨rfl, by rw [ix_mod]; exact he⟩
theorem amount_s_small0 (c : Dev nD) (rc cc : Fin 2) (e : Fin 8) (he : 2 ≤ e.val) (d : Bool) : (rd (F := F) m ρ).amount (sCell c (ix rc cc e)) 0 d = N2 := by
  dsimp only [rd]; rw [ck_s]; exact if_neg (by rw [ix_mod]; omega)
theorem amount_r_small0 (c : Dev nD) (rc cc : Fin 2) (e : Fin 8) (he : 2 ≤ e.val) (d : Bool) : (rd (F := F) m ρ).amount (rCell c (ix rc cc e)) 0 d = N2 := by
  dsimp only [rd]; rw [ck_r]; exact if_neg (by rw [ix_mod]; omega)
theorem amount_s_small1 (c : Dev nD) (i : Fin 32) (d : Bool) : (rd (F := F) m ρ).amount (sCell c i) 1 d = N2 := by
  dsimp only [rd]; rw [ck_s]; exact if_neg (by omega)
theorem amount_r_small1 (c : Dev nD) (i : Fin 32) (d : Bool) : (rd (F := F) m ρ).amount (rCell c i) 1 d = N2 := by
  dsimp only [rd]; rw [ck_r]; exact if_neg (by omega)

theorem expect_bar (c : Dev nD) : (rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_s_big (c : Dev nD) (rc cc : Fin 2) (e : Fin 8) (he : e.val < 2) : (rd (F := F) m ρ).expect (sCell c (ix rc cc e)) 0 = N1 := by
  unfold Schedule.expect Schedule.amountOf
  rw [duties_s0, Finset.sum_singleton, amount_s_big m ρ c rc cc e he]
theorem expect_r_big (c : Dev nD) (rc cc : Fin 2) (e : Fin 8) (he : e.val < 2) : (rd (F := F) m ρ).expect (rCell c (ix rc cc e)) 0 = N1 := by
  unfold Schedule.expect Schedule.amountOf
  rw [duties_r0, Finset.sum_singleton, amount_r_big m ρ c rc cc e he]
theorem expect_s_small0 (c : Dev nD) (rc cc : Fin 2) (e : Fin 8) (he : 2 ≤ e.val) : (rd (F := F) m ρ).expect (sCell c (ix rc cc e)) 0 = N2 := by
  unfold Schedule.expect Schedule.amountOf
  rw [duties_s0, Finset.sum_singleton, amount_s_small0 m ρ c rc cc e he]
theorem expect_r_small0 (c : Dev nD) (rc cc : Fin 2) (e : Fin 8) (he : 2 ≤ e.val) : (rd (F := F) m ρ).expect (rCell c (ix rc cc e)) 0 = N2 := by
  unfold Schedule.expect Schedule.amountOf
  rw [duties_r0, Finset.sum_singleton, amount_r_small0 m ρ c rc cc e he]
theorem expect_s_small1 (c : Dev nD) (rc cc : Fin 2) (e : Fin 8) (he : e.val < 2) : (rd (F := F) m ρ).expect (sCell c (ix rc cc e)) 1 = N2 := by
  unfold Schedule.expect Schedule.amountOf
  rw [duties_s1 m ρ c rc cc e he, Finset.sum_singleton, amount_s_small1]
theorem expect_r_small1 (c : Dev nD) (rc cc : Fin 2) (e : Fin 8) (he : e.val < 2) : (rd (F := F) m ρ).expect (rCell c (ix rc cc e)) 1 = N2 := by
  unfold Schedule.expect Schedule.amountOf
  rw [duties_r1 m ρ c rc cc e he, Finset.sum_singleton, amount_r_small1]

theorem payload_bar (c : Dev nD) (d : Bool) : (rd (F := F) m ρ).payload (barCell c) 0 d = barPay c d := by
  dsimp only [rd]; rw [ck_bar]
theorem payload_s (c : Dev nD) (i : Fin 32) (r : ℕ) (d : Bool) : (rd (F := F) m ρ).payload (sCell c i) r d = sndPay (xstg m ρ) c i r := by
  dsimp only [rd]; rw [ck_s]
theorem payload_r (c : Dev nD) (i : Fin 32) (r : ℕ) (d : Bool) : (rd (F := F) m ρ).payload (rCell c i) r d = rcvPay (xstg m ρ) c i r := by
  dsimp only [rd]; rw [ck_r]

instance tileQ_storable {s : Shape} {e : EltTy} (q : PosShare TreeShare) (c : Dev nD) (M : Memref sig .tc .vmem s e) (r : Rect s)
    (V : r.shape.Idx → Elt F e) : BI.Storable (upEmb : UEmb _ 𝕄) (tileQ q c M r V) := by
  unfold tileQ; infer_instance
instance tileAny_storable {s : Shape} {e : EltTy} (c : Dev nD) (M : Memref sig .tc .vmem s e) (r : Rect s) :
    BI.Storable (upEmb : UEmb _ 𝕄) (tileAny (F := F) c M r) := by
  unfold tileAny; infer_instance
instance barTilesF_storable (c : Dev nD) (u : Fin 2 × Fin 2) : BI.Storable (upEmb : UEmb _ 𝕄) (barTilesF (F := F) c u) := by
  unfold barTilesF; infer_instance
instance barTilesT_storable (c : Dev nD) (u : Fin 2 × Fin 2) : BI.Storable (upEmb : UEmb _ 𝕄) (barTilesT (F := F) c u) := by
  unfold barTilesT; infer_instance
instance barPay_storable (c : Dev nD) (d : Bool) : BI.Storable (upEmb : UEmb _ 𝕄) (barPay (F := F) c d) := by
  unfold barPay; split <;> infer_instance
instance sndPay_storable (X : Dev nD → (cc0_stg0_0 : Ref sig .tc).ty.Contents (Elt F)) (c : Dev nD) (i : Fin 32) (r : ℕ) :
    BI.Storable (upEmb : UEmb _ 𝕄) (sndPay X c i r) := by
  unfold sndPay; split <;> infer_instance
instance rcvPay_storable (X : Dev nD → (cc0_stg0_0 : Ref sig .tc).ty.Contents (Elt F)) (c : Dev nD) (i : Fin 32) (r : ℕ) :
    BI.Storable (upEmb : UEmb _ 𝕄) (rcvPay X c i r) := by
  unfold rcvPay; split <;> infer_instance

instance rd_payload_storable (g : GSem nD τ sig) (r : ℕ) (d : Bool) :
    BI.Storable (upEmb : UEmb _ 𝕄) ((rd (F := F) m ρ).payload g r d) := by
  show BI.Storable upEmb (match ck g with
    | .bar => barPay g.1.1 d
    | .snd i => sndPay (xstg m ρ) g.1.1 i r
    | .rcv i => rcvPay (xstg m ρ) g.1.1 i r
    | .other => iprop(emp))
  cases ck g with
  | bar => exact barPay_storable g.1.1 d
  | snd i => exact sndPay_storable (xstg m ρ) g.1.1 i r
  | rcv i => exact rcvPay_storable (xstg m ρ) g.1.1 i r
  | other => exact BI.Storable.emp _

theorem rest_s (c : Dev nD) (i : Fin 32) (r : ℕ) (h : (rd (F := F) m ρ).duties (sCell c i) r = {false}) :
    bigSep ((rd (F := F) m ρ).duties (sCell c i) r \ ∅) (fun d => (rd (F := F) m ρ).payload (sCell c i) r d) = sndPay (xstg m ρ) c i r := by
  rw [Finset.sdiff_empty, h, bigSep_singleton, payload_s]
theorem rest_r (c : Dev nD) (i : Fin 32) (r : ℕ) (h : (rd (F := F) m ρ).duties (rCell c i) r = {false}) :
    bigSep ((rd (F := F) m ρ).duties (rCell c i) r \ ∅) (fun d => (rd (F := F) m ρ).payload (rCell c i) r d) = rcvPay (xstg m ρ) c i r := by
  rw [Finset.sdiff_empty, h, bigSep_singleton, payload_r]

theorem rest_bar (c : Dev nD) :
    bigSep ((rd (F := F) m ρ).duties (barCell c) 0 \ ∅) (fun d => (rd (F := F) m ρ).payload (barCell c) 0 d)
      = iprop(barPay (F := F) c false ∗ barPay (F := F) c true) := by
  rw [Finset.sdiff_empty, duties_bar, bigSep_univ_eq_bigSepL [false, true] (by decide) (by decide), bigSepL_cons_cons, bigSepL_singleton,
    payload_bar, payload_bar]
  rfl

section Slots
variable (X : Dev nD → (cc0_stg0_0 : Ref sig .tc).ty.Contents (Elt F)) (c : Dev nD) (rc cc : Fin 2)

theorem sndPay_0_0 : sndPay X c (ix rc cc 0) 0 = tile c xbsM (RS4 rc (ca cc)) (xsA X c rc cc) := by
  unfold sndPay; rw [iE_ix, iRc_ix, iCc_ix]; rfl
theorem sndPay_0_1 : sndPay X c (ix rc cc 0) 1 = tile c oM (RO rc (ca cc) (qA (p2 c))) (outA X (p2 c) rc cc) := by
  unfold sndPay; rw [iE_ix, iRc_ix, iCc_ix]; rfl
theorem sndPay_1_0 : sndPay X c (ix rc cc 1) 0 = tile c xbsM (RS4 rc (cb cc)) (xsB X c rc cc) := by
  unfold sndPay; rw [iE_ix, iRc_ix, iCc_ix]; rfl
theorem sndPay_1_1 : sndPay X c (ix rc cc 1) 1 = tile c oM (RO rc (cb cc) (qB (p1 c))) (outB X (p1 c) rc cc) := by
  unfold sndPay; rw [iE_ix, iRc_ix, iCc_ix]; rfl
theorem sndPay_2 (r : ℕ) : sndPay X c (ix rc cc 2) r = tile c r1aM (RH rc cc (fl (k2A c))) (half (fl (k2A c)) (redA X c rc cc)) := by
  unfold sndPay; rw [iE_ix, iRc_ix, iCc_ix]; rfl
theorem sndPay_3 (r : ℕ) : sndPay X c (ix rc cc 3) r = tile c r1bM (RH rc cc (fl (k2B c))) (half (fl (k2B c)) (redB X c rc cc)) := by
  unfold sndPay; rw [iE_ix, iRc_ix, iCc_ix]; rfl
theorem sndPay_4 (r : ℕ) : sndPay X c (ix rc cc 4) r = tileQ fullShare.left c oM (RO rc (ca cc) (qA c)) (outA X c rc cc) := by
  unfold sndPay; rw [iE_ix, iRc_ix, iCc_ix]; rfl
theorem sndPay_5 (r : ℕ) : sndPay X c (ix rc cc 5) r = tileQ fullShare.left c oM (RO rc (cb cc) (qB c)) (outB X c rc cc) := by
  unfold sndPay; rw [iE_ix, iRc_ix, iCc_ix]; rfl
theorem sndPay_6 (r : ℕ) : sndPay X c (ix rc cc 6) r = tileQ fullShare.right c oM (RO rc (ca cc) (qA c)) (outA X c rc cc) := by
  unfold sndPay; rw [iE_ix, iRc_ix, iCc_ix]; rfl
theorem sndPay_7 (r : ℕ) : sndPay X c (ix rc cc 7) r = tileQ fullShare.right c oM (RO rc (cb cc) (qB c)) (outB X c rc cc) := by
  unfold sndPay; rw [iE_ix, iRc_ix, iCc_ix]; rfl

theorem rcvPay_0_0 : rcvPay X c (ix rc cc 0) 0 = tile c s1aM (RS2 rc cc) (xsA X (p1 c) rc cc) := by
  unfold rcvPay; rw [iE_ix, iRc_ix, iCc_ix]; rfl
theorem rcvPay_0_1 : rcvPay X c (ix rc cc 0) 1 = tile c oM (RO rc (ca cc) (qA (p3 c))) (outA X (p3 c) rc cc) := by
  unfold rcvPay; rw [iE_ix, iRc_ix, iCc_ix]; rfl
theorem rcvPay_1_0 : rcvPay X c (ix rc cc 1) 0 = tile c s1bM (RS2 rc cc) (xsB X (p2 c) rc cc) := by
  unfold rcvPay; rw [iE_ix, iRc_ix, iCc_ix]; rfl
theorem rcvPay_1_1 : rcvPay X c (ix rc cc 1) 1 = tile c oM (RO rc (cb cc) (qB (p3 c))) (outB X (p3 c) rc cc) := by
  unfold rcvPay; rw [iE_ix, iRc_ix, iCc_ix]; rfl
theorem rcvPay_2 (r : ℕ) : rcvPay X c (ix rc cc 2) r = tile c s2aM (RQ rc cc) (half (k2A c) (redA X (p2 c) rc cc)) := by
  unfold rcvPay; rw [iE_ix, iRc_ix, iCc_ix]; rfl
theorem rcvPay_3 (r : ℕ) : rcvPay X c (ix rc cc 3) r = tile c s2bM (RQ rc cc) (half (k2B c) (redB X (p1 c) rc cc)) := by
  unfold rcvPay; rw [iE_ix, iRc_ix, iCc_ix]; rfl
theorem rcvPay_4 (r : ℕ) : rcvPay X c (ix rc cc 4) r = iprop(tile c oM (RO rc (ca cc) (qA (p2 c))) (outA X (p2 c) rc cc) ∗ reached ER (rCell (p2 c) (ix rc cc 1)) 1) := by
  unfold rcvPay; rw [iE_ix, iRc_ix, iCc_ix]; rfl
theorem rcvPay_5 (r : ℕ) : rcvPay X c (ix rc cc 5) r = iprop(tile c oM (RO rc (cb cc) (qB (p1 c))) (outB X (p1 c) rc cc) ∗ reached ER (rCell (p1 c) (ix rc cc 0)) 1) := by
  unfold rcvPay; rw [iE_ix, iRc_ix, iCc_ix]; rfl
theorem rcvPay_6 (r : ℕ) : rcvPay X c (ix rc cc 6) r = tile c oM (RO rc (ca cc) (qA (p1 c))) (outA X (p1 c) rc cc) := by
  unfold rcvPay; rw [iE_ix, iRc_ix, iCc_ix]; rfl
theorem rcvPay_7 (r : ℕ) : rcvPay X c (ix rc cc 7) r = tile c oM (RO rc (cb cc) (qB (p2 c))) (outB X (p2 c) rc cc) := by
  unfold rcvPay; rw [iE_ix, iRc_ix, iCc_ix]; rfl

end Slots

end Cert.KernelIdeal.AR

end
-- ==== Proof.Tiles.lean ====
-- A buffer as a disjoint union of rectangles: its points-to splits into the rectangles' and joins back.
import proofs.«900112_g7700000000000113_dist_ar_v7x_i4_i_m2048_n512_bf16_1_alg».proof.Proof.Ghost
import Idealize.ShloMosaic.Lib.Pipeline.Value

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

section One
variable {s : Shape} {e : EltTy} (c : Dev nD)

theorem tile_any (M : Memref sig .tc .vmem s e) (r : Rect s) (V : r.shape.Idx → Elt F e) :
    tile c M r V ⊢ (tileAny c M r : sProp 𝕄) := by
  unfold tile tileQ tileAny
  iintro ⟨%f, %hf, H⟩
  iexists f
  iexact H

theorem wp_load_tile {q : PosShare TreeShare} {M : Memref sig .tc .vmem s e} {r : Rect s} {hl : M.view.LoadsAt r} {α : Type} {Q : α → sProp 𝕄}
    {k : (r.shape.Idx → Elt F e) → Prog (TpuEff nD τ sig (Elt F) Λ₀ .tc) α} (V : r.shape.Idx → Elt F e) :
    tileQ q c M r V
      ⊢ iprop((tileQ q c M r V -∗ wp frame (wpE (defs₀ (F := F)) 𝒱₀ (c : Thread nD τ) none) Set.univ (k V) Q)
          -∗ wp frame (wpE (defs₀ (F := F)) 𝒱₀ (c : Thread nD τ) none) Set.univ (.op (.load M r hl) k) Q) := by
  unfold tileQ
  iintro ⟨%f, %hf, H⟩ Hk
  subst hf
  iapply (wp_load_rect 𝒱₀ (c : Thread nD τ) none Set.univ (Γ := .empty) (hl := hl) (k := k) (Finset.Subset.refl _)) $$ H
  iintro H
  iapply Hk
  iexists f
  isplitr
  · ipureintro; rfl
  · iexact H

theorem wp_load_any {M : Memref sig .tc .vmem s e} {r : Rect s} {hl : M.view.LoadsAt r} {α : Type} {Q : α → sProp 𝕄}
    {k : (r.shape.Idx → Elt F e) → Prog (TpuEff nD τ sig (Elt F) Λ₀ .tc) α} :
    (tileAny c M r : sProp 𝕄)
      ⊢ iprop((∀ v, tileAny c M r -∗ wp frame (wpE (defs₀ (F := F)) 𝒱₀ (c : Thread nD τ) none) Set.univ (k v) Q)
          -∗ wp frame (wpE (defs₀ (F := F)) 𝒱₀ (c : Thread nD τ) none) Set.univ (.op (.load M r hl) k) Q) := by
  unfold tileAny
  iintro ⟨%f, H⟩ Hk
  iapply (wp_load_rect 𝒱₀ (c : Thread nD τ) none Set.univ (Γ := .empty) (hl := hl) (k := k) (Finset.Subset.refl _)) $$ H
  iintro H
  iapply Hk
  iexists f
  iexact H

theorem wp_store_tile {M : Memref sig .tc .vmem s e} {r : Rect s} {w : r.shape.Idx → Elt F e} {hx : (M.access r).Stores Finset.univ}
    {hm : (Finset.univ : Finset r.shape.Idx) = Finset.univ ∨ ∀ a, r.stride a = 1} {α : Type} {Q : α → sProp 𝕄}
    {k : PUnit → Prog (TpuEff nD τ sig (Elt F) Λ₀ .tc) α} :
    (tileAny c M r : sProp 𝕄)
      ⊢ iprop((tile c M r w -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  unfold tileAny tile tileQ
  iintro ⟨%f, H⟩ Hk
  iapply (wp_store 𝒱₀ (c : Thread nD τ) none Set.univ (Γ := .empty) (hx := hx) (hm := hm) (k := k) (w := w)
    (S := (M.access r).set) (f := f) (Finset.Subset.refl _)) $$ H
  iintro H
  iapply Hk
  iexists ((M.access r).write (Elt F) f w Finset.univ)
  isplitr
  · ipureintro; exact View.read_write_univ _ _
  · iexact H

theorem tile_shares (M : Memref sig .tc .vmem s e) (r : Rect s) (V : r.shape.Idx → Elt F e) :
    (tile c M r V : sProp 𝕄) ⊣⊢ iprop(tileQ fullShare.left c M r V ∗ tileQ fullShare.right c M r V) := by
  unfold tile tileQ
  constructor
  · iintro ⟨%f, %hf, H⟩
    ihave H := (pointsTo_share (PosShare.mem_left_op_right fullShare)).1 $$ H
    icases H with ⟨H1, H2⟩
    isplitl [H1]
    · iexists f
      isplitr
      · ipureintro; exact hf
      · iexact H1
    · iexists f
      isplitr
      · ipureintro; exact hf
      · iexact H2
  · iintro ⟨⟨%f, %hf, H1⟩, ⟨%g, %hg, H2⟩⟩
    icombine H1 H2 gives %hag
    have hfg : ∀ i ∈ (M.access r).set, g i = f i := fun i hi => ((hag i (Finset.mem_inter.mpr ⟨hi, hi⟩)).1).symm
    ihave H2 := (Entails.of_eq (pointsTo_congr (q := fullShare.right) (f := g) (g := f) hfg)) $$ H2
    ihave H := (pointsTo_share (PosShare.mem_left_op_right fullShare)).2 $$ [H1 H2]
    · iframe H1 H2
    iexists f
    isplitr
    · ipureintro; exact hf
    · iexact H

end One

def xPts (c : Dev nD) : sProp 𝕄 := ((c : Thread nD τ).loc cc0_stg0_0) ↦{fullShare} xstg m ρ c

theorem wp_load_x (c : Dev nD) (rc : Fin 2) (col : Fin 4) (o : Fin 2) {hl : xM.view.LoadsAt (RX rc col o)} {α : Type} {Q : α → sProp 𝕄}
    {k : (Vec F S512x128 .f32) → Prog (TpuEff nD τ sig (Elt F) Λ₀ .tc) α} :
    xPts m ρ c
      ⊢ iprop((xPts m ρ c -∗ wp frame (wpE (defs₀ (F := F)) 𝒱₀ (c : Thread nD τ) none) Set.univ (k (xt (xstg m ρ) c rc col o)) Q)
          -∗ wp frame (wpE (defs₀ (F := F)) 𝒱₀ (c : Thread nD τ) none) Set.univ (.op (.load xM (RX rc col o) hl) k) Q) := by
  unfold xPts
  exact wp_load_rect 𝒱₀ (c : Thread nD τ) none Set.univ (Γ := .empty) (m := xM) (r := RX rc col o) (hl := hl) (k := k)
    (S := Finset.univ) (q := fullShare) (f := xstg m ρ c) (Finset.subset_univ _)

section Halves
variable (rc cc : Fin 2)

theorem mem_RS2 {i : S1024x256.Idx} : i ∈ (RS2 rc cc).set ↔
    (rc.val * 512 ≤ (i 0).val ∧ (i 0).val < rc.val * 512 + 512) ∧ (cc.val * 128 ≤ (i 1).val ∧ (i 1).val < cc.val * 128 + 128) := by
  rw [Rect.mem_set_unit]; exact Fin.forall_fin_two

theorem mem_RH (h : Fin 2) {i : S1024x256.Idx} : i ∈ (RH rc cc h).set ↔
    (rc.val * 512 + h.val * 256 ≤ (i 0).val ∧ (i 0).val < rc.val * 512 + h.val * 256 + 256)
      ∧ (cc.val * 128 ≤ (i 1).val ∧ (i 1).val < cc.val * 128 + 128) := by
  rw [Rect.mem_set_unit]; exact Fin.forall_fin_two

theorem RS2_set : (RS2 rc cc).set = (RH rc cc 0).set ∪ (RH rc cc 1).set := by
  ext i
  rw [Finset.mem_union, mem_RS2, mem_RH, mem_RH]
  have e0 : (0 : Fin 2).val = 0 := rfl
  have e1 : (1 : Fin 2).val = 1 := rfl
  rw [e0, e1]; omega

theorem RH_disjoint : Disjoint (RH rc cc 0).set (RH rc cc 1).set :=
  Rect.unit_disjoint 0 (Or.inl (by show rc.val * 512 + 0 * 256 + 256 ≤ rc.val * 512 + 1 * 256; omega))

theorem emb_RH (h : Fin 2) (y : S256x128.Idx) :
    (RH rc cc h).emb y = (RS2 rc cc).emb ((Rect.unit (s := S512x128) ![h.val * 256, 0] S256x128.size (inbHalf h)).emb y) := by
  funext a
  apply Fin.ext
  rw [Rect.emb_apply, Rect.emb_apply, Rect.emb_apply]
  match a with
  | ⟨0, _⟩ => show rc.val * 512 + h.val * 256 + 1 * (y 0).val = rc.val * 512 + 1 * (h.val * 256 + 1 * (y 0).val); omega
  | ⟨1, _⟩ => show cc.val * 128 + 1 * (y 1).val = cc.val * 128 + 1 * (0 + 1 * (y 1).val); omega

theorem read_RH (M : Memref sig .tc .vmem S1024x256 .bf16) (h : Fin 2) (f : M.view.ty.Contents (Elt F)) :
    (M.access (RH rc cc h)).read (Elt F) f = half h ((M.access (RS2 rc cc)).read (Elt F) f) := by
  funext y
  unfold half
  rw [View.read_apply, View.read_apply]
  have e : (M.access (RH rc cc h)).emb y
      = (M.access (RS2 rc cc)).emb ((Rect.unit (s := S512x128) ![h.val * 256, 0] S256x128.size (inbHalf h)).emb y) :=
    congrArg M.view.emb (emb_RH rc cc h y)
  rw [e]

theorem half_ext {V W : Vec F S512x128 .bf16} (h0 : half 0 W = half 0 V) (h1 : half 1 W = half 1 V) : W = V := by
  funext x
  have hx0 : (x 0).val < 512 := (x 0).isLt
  have hx1 : (x 1).val < 128 := (x 1).isLt
  by_cases hlt : (x 0).val < 256
  · have ex : x = (Rect.unit (s := S512x128) ![(0 : Fin 2).val * 256, 0] S256x128.size (inbHalf 0)).emb
        (ValueIdx.ix2 (⟨(x 0).val, hlt⟩ : Fin 256) (⟨(x 1).val, hx1⟩ : Fin 128)) := by
      funext a; apply Fin.ext; rw [Rect.emb_apply]
      match a with
      | ⟨0, _⟩ => show (x 0).val = 0 * 256 + 1 * (x 0).val; omega
      | ⟨1, _⟩ => show (x 1).val = 0 + 1 * (x 1).val; omega
    have hy := congrFun h0 (ValueIdx.ix2 (⟨(x 0).val, hlt⟩ : Fin 256) (⟨(x 1).val, hx1⟩ : Fin 128))
    exact (congrArg W ex).trans (hy.trans (congrArg V ex.symm))
  · have hge : (x 0).val - 256 < 256 := by omega
    have ex : x = (Rect.unit (s := S512x128) ![(1 : Fin 2).val * 256, 0] S256x128.size (inbHalf 1)).emb
        (ValueIdx.ix2 (⟨(x 0).val - 256, hge⟩ : Fin 256) (⟨(x 1).val, hx1⟩ : Fin 128)) := by
      funext a; apply Fin.ext; rw [Rect.emb_apply]
      match a with
      | ⟨0, _⟩ => show (x 0).val = 1 * 256 + 1 * ((x 0).val - 256); omega
      | ⟨1, _⟩ => show (x 1).val = 0 + 1 * (x 1).val; omega
    have hy := congrFun h1 (ValueIdx.ix2 (⟨(x 0).val - 256, hge⟩ : Fin 256) (⟨(x 1).val, hx1⟩ : Fin 128))
    exact (congrArg W ex).trans (hy.trans (congrArg V ex.symm))

variable (c : Dev nD) (M : Memref sig .tc .vmem S1024x256 .bf16)

theorem set_RS2 : (M.access (RS2 rc cc)).set = (M.access (RH rc cc 0)).set ∪ (M.access (RH rc cc 1)).set := by
  rw [View.set_slice, View.set_slice, View.set_slice, RS2_set, Finset.map_union]

theorem set_RH_disjoint : Disjoint (M.access (RH rc cc 0)).set (M.access (RH rc cc 1)).set := by
  rw [View.set_slice, View.set_slice]; exact (Finset.disjoint_map _).mpr (RH_disjoint rc cc)

theorem pts_RS2 (q : PosShare TreeShare) (f : Buf (Elt F) ((M.access (RS2 rc cc)).loc (c : Thread nD τ))) :
    (((M.access (RS2 rc cc)).loc (c : Thread nD τ) ↦[(M.access (RS2 rc cc)).set]{q} f) : sProp 𝕄)
      ⊣⊢ iprop(((M.access (RH rc cc 0)).loc (c : Thread nD τ) ↦[(M.access (RH rc cc 0)).set]{q} f)
          ∗ ((M.access (RH rc cc 1)).loc (c : Thread nD τ) ↦[(M.access (RH rc cc 1)).set]{q} f)) := by
  rw [set_RS2]; exact pointsTo_union (set_RH_disjoint rc cc M)

end Halves

theorem tile_halves (c : Dev nD) (M : Memref sig .tc .vmem S1024x256 .bf16) (rc cc : Fin 2) (V : Vec F S512x128 .bf16) :
    (tile c M (RS2 rc cc) V : sProp 𝕄) ⊣⊢ iprop(tile c M (RH rc cc 0) (half 0 V) ∗ tile c M (RH rc cc 1) (half 1 V)) := by
  unfold tile tileQ
  constructor
  · iintro ⟨%f, %hf, H⟩
    ihave H := (pts_RS2 rc cc c M fullShare f).1 $$ H
    icases H with ⟨H0, H1⟩
    isplitl [H0]
    · iexists f
      isplitr
      · ipureintro; rw [← hf]; exact read_RH rc cc M 0 f
      · iexact H0
    · iexists f
      isplitr
      · ipureintro; rw [← hf]; exact read_RH rc cc M 1 f
      · iexact H1
  · iintro ⟨⟨%f, %hf, H0⟩, ⟨%g, %hg, H1⟩⟩
    ihave H := (pointsTo_join (ℓ := (M.access (RS2 rc cc)).loc (c : Thread nD τ)) (I := (M.access (RH rc cc 0)).set)
      (J := (M.access (RH rc cc 1)).set) (q := fullShare) (f := f) (g := g) (set_RH_disjoint rc cc M)) $$ [H0 H1]
    · iframe H0 H1
    have hdis := set_RH_disjoint rc cc M
    iexists ((M.access (RH rc cc 1)).set.piecewise g f)
    isplitr
    · ipureintro
      refine half_ext ?_ ?_
      · rw [← read_RH rc cc M 0, ← hf]
        exact View.read_congr fun i hi => Finset.piecewise_eq_of_notMem _ _ _ (Finset.disjoint_left.mp hdis hi)
      · rw [← read_RH rc cc M 1, ← hg]
        exact View.read_congr fun i hi => Finset.piecewise_eq_of_mem _ _ _ hi
    · iapply (Entails.of_eq (congrArg (fun S => (((M.access (RS2 rc cc)).loc (c : Thread nD τ) ↦[S]{fullShare}
          ((M.access (RH rc cc 1)).set.piecewise g f)) : sProp 𝕄)) (set_RS2 rc cc M).symm)) $$ H

theorem tileAny_halves (c : Dev nD) (M : Memref sig .tc .vmem S1024x256 .bf16) (rc cc : Fin 2) :
    (tileAny c M (RS2 rc cc) : sProp 𝕄) ⊣⊢ iprop(tileAny c M (RH rc cc 0) ∗ tileAny c M (RH rc cc 1)) := by
  unfold tileAny
  constructor
  · iintro ⟨%f, H⟩
    ihave H := (pts_RS2 rc cc c M fullShare f).1 $$ H
    icases H with ⟨H0, H1⟩
    isplitl [H0]
    · iexists f; iexact H0
    · iexists f; iexact H1
  · iintro ⟨⟨%f, H0⟩, ⟨%g, H1⟩⟩
    ihave H := (pointsTo_join (ℓ := (M.access (RS2 rc cc)).loc (c : Thread nD τ)) (I := (M.access (RH rc cc 0)).set)
      (J := (M.access (RH rc cc 1)).set) (q := fullShare) (f := f) (g := g) (set_RH_disjoint rc cc M)) $$ [H0 H1]
    · iframe H0 H1
    iexists ((M.access (RH rc cc 1)).set.piecewise g f)
    iapply (Entails.of_eq (congrArg (fun S => (((M.access (RS2 rc cc)).loc (c : Thread nD τ) ↦[S]{fullShare}
          ((M.access (RH rc cc 1)).set.piecewise g f)) : sProp 𝕄)) (set_RS2 rc cc M).symm)) $$ H

section Cover
variable {s : Shape} {e : EltTy} (c : Dev nD) (M : Memref sig .tc .vmem s e)

theorem elt_nonempty (e : EltTy) : Nonempty (Elt F e) := by
  cases e <;> first | exact ⟨(0 : BitVec _)⟩ | exact ⟨FloatOps.ofBits _ 0⟩

theorem cover_split {T : Type} (S : Finset T) (R : T → Rect s) (K : T → Finset (Idx (M.view.loc (c : Thread nD τ))))
    (hK : ∀ t, (M.access (R t)).set = K t) (hcov : ∀ i, ∃ t ∈ S, i ∈ K t)
    (hdis : ∀ t ∈ S, ∀ t' ∈ S, t ≠ t' → Disjoint (K t) (K t'))
    (f : Buf (Elt F) (M.view.loc (c : Thread nD τ))) :
    ((M.view.loc (c : Thread nD τ) ↦{fullShare} f) : sProp 𝕄) ⊢ bigSep S fun t => tileAny c M (R t) := by
  have hU : S.biUnion K = Finset.univ := by
    ext i; simp only [Finset.mem_biUnion, Finset.mem_univ, iff_true]; exact hcov i
  have h1 : ((M.view.loc (c : Thread nD τ) ↦{fullShare} f) : sProp 𝕄)
      = bigSep S fun t => (M.view.loc (c : Thread nD τ) ↦[K t]{fullShare} f) := by
    rw [← pointsTo_biUnion S K hdis, hU]
  rw [h1]
  refine bigSep_mono fun t _ => show ((M.view.loc (c : Thread nD τ) ↦[K t]{fullShare} f) : sProp 𝕄) ⊢ tileAny c M (R t) from ?_
  unfold tileAny
  rw [hK t]
  iintro H
  iexists f
  iexact H

theorem cover_join {T : Type} [DecidableEq T] (S : Finset T) (R : T → Rect s) (K : T → Finset (Idx (M.view.loc (c : Thread nD τ))))
    (hK : ∀ t, (M.access (R t)).set = K t) (hcov : ∀ i, ∃ t ∈ S, i ∈ K t)
    (hdis : ∀ t ∈ S, ∀ t' ∈ S, t ≠ t' → Disjoint (K t) (K t')) :
    (bigSep S fun t => tileAny c M (R t) : sProp 𝕄)
      ⊢ iprop(∃ f : Buf (Elt F) (M.view.loc (c : Thread nD τ)), (M.view.loc (c : Thread nD τ)) ↦{fullShare} f) := by
  have hU : S.biUnion K = Finset.univ := by
    ext i; simp only [Finset.mem_biUnion, Finset.mem_univ, iff_true]; exact hcov i
  have f₀ : Buf (Elt F) (M.view.loc (c : Thread nD τ)) := fun _ => Classical.choice (elt_nonempty _)
  haveI : ∀ t : T, Nonempty (Buf (Elt F) (M.view.loc (c : Thread nD τ))) := fun _ => ⟨f₀⟩
  have e1 : (fun t => (tileAny c M (R t) : sProp 𝕄))
      = fun t => iprop(∃ f : Buf (Elt F) (M.view.loc (c : Thread nD τ)), (M.view.loc (c : Thread nD τ)) ↦[K t]{fullShare} f) :=
    funext fun t => by unfold tileAny; rw [hK t]
  have hj : ∀ fs : T → Buf (Elt F) (M.view.loc (c : Thread nD τ)),
      bigSep S (fun t => ((M.view.loc (c : Thread nD τ)) ↦[K t]{fullShare} fs t : sProp 𝕄))
        ⊢ iprop(∃ g, ⌜∀ t ∈ S, ∀ i ∈ K t, g i = fs t i⌝ ∗ (M.view.loc (c : Thread nD τ)) ↦{fullShare} g) := by
    intro fs
    have := pointsTo_biUnion_join (q := fullShare) (Name := ℕ) (U := UU) (Lvl := ℕ) (Ix := ℕ) S K fs f₀ hdis
    rwa [hU] at this
  rw [e1]
  refine (bigSep_exists_pi S (fun t (f : Buf (Elt F) (M.view.loc (c : Thread nD τ))) =>
    ((M.view.loc (c : Thread nD τ)) ↦[K t]{fullShare} f : sProp 𝕄))).trans ?_
  iintro ⟨%fs, H⟩
  ihave H := (hj fs) $$ H
  icases H with ⟨%g, -, H⟩
  iexists g
  iexact H

theorem cover_split_ex {T : Type} (S : Finset T) (R : T → Rect s) (K : T → Finset (Idx (M.view.loc (c : Thread nD τ))))
    (hK : ∀ t, (M.access (R t)).set = K t) (hcov : ∀ i, ∃ t ∈ S, i ∈ K t)
    (hdis : ∀ t ∈ S, ∀ t' ∈ S, t ≠ t' → Disjoint (K t) (K t')) :
    (iprop(∃ f : Buf (Elt F) (M.view.loc (c : Thread nD τ)), (M.view.loc (c : Thread nD τ)) ↦{fullShare} f) : sProp 𝕄)
      ⊢ bigSep S fun t => tileAny c M (R t) := by
  iintro ⟨%f, H⟩
  iapply (cover_split c M S R K hK hcov hdis f) $$ H

theorem cover_join_val {T : Type} [DecidableEq T] (S : Finset T) (R : T → Rect s) (K : T → Finset (Idx (M.view.loc (c : Thread nD τ))))
    (hK : ∀ t, (M.access (R t)).set = K t) (hcov : ∀ i, ∃ t ∈ S, i ∈ K t)
    (hdis : ∀ t ∈ S, ∀ t' ∈ S, t ≠ t' → Disjoint (K t) (K t'))
    (V : (t : T) → (R t).shape.Idx → Elt F e) :
    (bigSep S fun t => tile c M (R t) (V t) : sProp 𝕄)
      ⊢ iprop(∃ g : Buf (Elt F) (M.view.loc (c : Thread nD τ)),
          ⌜∀ t ∈ S, (M.access (R t)).read (Elt F) g = V t⌝ ∗ ((M.view.loc (c : Thread nD τ)) ↦{fullShare} g)) := by
  have hU : S.biUnion K = Finset.univ := by
    ext i; simp only [Finset.mem_biUnion, Finset.mem_univ, iff_true]; exact hcov i
  have f₀ : Buf (Elt F) (M.view.loc (c : Thread nD τ)) := fun _ => Classical.choice (elt_nonempty _)
  haveI : ∀ t : T, Nonempty (Buf (Elt F) (M.view.loc (c : Thread nD τ))) := fun _ => ⟨f₀⟩
  have e1 : (fun t => (tile c M (R t) (V t) : sProp 𝕄))
      = fun t => iprop(∃ f : Buf (Elt F) (M.view.loc (c : Thread nD τ)),
          ⌜(M.access (R t)).read (Elt F) f = V t⌝ ∗ ((M.view.loc (c : Thread nD τ)) ↦[K t]{fullShare} f)) :=
    funext fun t => by unfold tile tileQ; rw [hK t]
  have hj : ∀ fs : T → Buf (Elt F) (M.view.loc (c : Thread nD τ)),
      bigSep S (fun t => ((M.view.loc (c : Thread nD τ)) ↦[K t]{fullShare} fs t : sProp 𝕄))
        ⊢ iprop(∃ g, ⌜∀ t ∈ S, ∀ i ∈ K t, g i = fs t i⌝ ∗ (M.view.loc (c : Thread nD τ)) ↦{fullShare} g) := by
    intro fs
    have := pointsTo_biUnion_join (q := fullShare) (Name := ℕ) (U := UU) (Lvl := ℕ) (Ix := ℕ) S K fs f₀ hdis
    rwa [hU] at this
  rw [e1]
  refine (bigSep_exists_pi S (fun t (f : Buf (Elt F) (M.view.loc (c : Thread nD τ))) =>
    (iprop(⌜(M.access (R t)).read (Elt F) f = V t⌝ ∗ ((M.view.loc (c : Thread nD τ)) ↦[K t]{fullShare} f)) : sProp 𝕄))).trans ?_
  iintro ⟨%fs, H⟩
  ihave H := (bigSep_pure_sep S (fun t => (M.access (R t)).read (Elt F) (fs t) = V t)
    (fun t => ((M.view.loc (c : Thread nD τ)) ↦[K t]{fullShare} fs t : sProp 𝕄))) $$ H
  icases H with ⟨%hV, H⟩
  ihave H := (hj fs) $$ H
  icases H with ⟨%g, %hg, H⟩
  iexists g
  isplitr
  · ipureintro
    intro t ht
    rw [← hV t ht]
    exact View.read_congr fun i hi => hg t ht i (hK t ▸ hi)
  · iexact H

end Cover

theorem RS2_cover (i : S1024x256.Idx) : ∃ u ∈ (Finset.univ : Finset (Fin 2 × Fin 2)), i ∈ (RS2 u.1 u.2).set := by
  have h0 : (i 0).val < 1024 := (i 0).isLt
  have h1 : (i 1).val < 256 := (i 1).isLt
  refine ⟨(⟨(i 0).val / 512, by omega⟩, ⟨(i 1).val / 128, by omega⟩), Finset.mem_univ _, ?_⟩
  rw [mem_RS2]
  dsimp only
  omega

theorem RS2_disjoint : ∀ u ∈ (Finset.univ : Finset (Fin 2 × Fin 2)), ∀ u' ∈ (Finset.univ : Finset (Fin 2 × Fin 2)), u ≠ u' →
    Disjoint (RS2 u.1 u.2).set (RS2 u'.1 u'.2).set := by
  intro u _ u' _ hne
  have key : ∀ u u' : Fin 2 × Fin 2, u ≠ u' →
      (offS2 u.1 u.2 0 + S512x128.size 0 ≤ offS2 u'.1 u'.2 0 ∨ offS2 u'.1 u'.2 0 + S512x128.size 0 ≤ offS2 u.1 u.2 0)
      ∨ (offS2 u.1 u.2 1 + S512x128.size 1 ≤ offS2 u'.1 u'.2 1 ∨ offS2 u'.1 u'.2 1 + S512x128.size 1 ≤ offS2 u.1 u.2 1) := by decide
  rcases key u u' hne with h | h
  · exact Rect.unit_disjoint 0 h
  · exact Rect.unit_disjoint 1 h

theorem mem_RQ {rc cc : Fin 2} {i : S512x256.Idx} : i ∈ (RQ rc cc).set ↔
    (rc.val * 256 ≤ (i 0).val ∧ (i 0).val < rc.val * 256 + 256) ∧ (cc.val * 128 ≤ (i 1).val ∧ (i 1).val < cc.val * 128 + 128) := by
  rw [Rect.mem_set_unit]; exact Fin.forall_fin_two

theorem RQ_cover (i : S512x256.Idx) : ∃ u ∈ (Finset.univ : Finset (Fin 2 × Fin 2)), i ∈ (RQ u.1 u.2).set := by
  have h0 : (i 0).val < 512 := (i 0).isLt
  have h1 : (i 1).val < 256 := (i 1).isLt
  refine ⟨(⟨(i 0).val / 256, by omega⟩, ⟨(i 1).val / 128, by omega⟩), Finset.mem_univ _, ?_⟩
  rw [mem_RQ]
  dsimp only
  omega

theorem RQ_disjoint : ∀ u ∈ (Finset.univ : Finset (Fin 2 × Fin 2)), ∀ u' ∈ (Finset.univ : Finset (Fin 2 × Fin 2)), u ≠ u' →
    Disjoint (RQ u.1 u.2).set (RQ u'.1 u'.2).set := by
  intro u _ u' _ hne
  have key : ∀ u u' : Fin 2 × Fin 2, u ≠ u' →
      (offQ u.1 u.2 0 + S256x128.size 0 ≤ offQ u'.1 u'.2 0 ∨ offQ u'.1 u'.2 0 + S256x128.size 0 ≤ offQ u.1 u.2 0)
      ∨ (offQ u.1 u.2 1 + S256x128.size 1 ≤ offQ u'.1 u'.2 1 ∨ offQ u'.1 u'.2 1 + S256x128.size 1 ≤ offQ u.1 u.2 1) := by decide
  rcases key u u' hne with h | h
  · exact Rect.unit_disjoint 0 h
  · exact Rect.unit_disjoint 1 h

theorem mem_RS4 {rc : Fin 2} {col : Fin 4} {i : S1024x512.Idx} : i ∈ (RS4 rc col).set ↔
    (rc.val * 512 ≤ (i 0).val ∧ (i 0).val < rc.val * 512 + 512) ∧ (col.val * 128 ≤ (i 1).val ∧ (i 1).val < col.val * 128 + 128) := by
  rw [Rect.mem_set_unit]; exact Fin.forall_fin_two

theorem RS4_cover (i : S1024x512.Idx) : ∃ p ∈ (Finset.univ : Finset (Fin 2 × Fin 4)), i ∈ (RS4 p.1 p.2).set := by
  have h0 : (i 0).val < 1024 := (i 0).isLt
  have h1 : (i 1).val < 512 := (i 1).isLt
  refine ⟨(⟨(i 0).val / 512, by omega⟩, ⟨(i 1).val / 128, by omega⟩), Finset.mem_univ _, ?_⟩
  rw [mem_RS4]
  dsimp only
  omega

theorem RS4_disjoint : ∀ p ∈ (Finset.univ : Finset (Fin 2 × Fin 4)), ∀ p' ∈ (Finset.univ : Finset (Fin 2 × Fin 4)), p ≠ p' →
    Disjoint (RS4 p.1 p.2).set (RS4 p'.1 p'.2).set := by
  intro p _ p' _ hne
  have key : ∀ p p' : Fin 2 × Fin 4, p ≠ p' →
      (offS4 p.1 p.2 0 + S512x128.size 0 ≤ offS4 p'.1 p'.2 0 ∨ offS4 p'.1 p'.2 0 + S512x128.size 0 ≤ offS4 p.1 p.2 0)
      ∨ (offS4 p.1 p.2 1 + S512x128.size 1 ≤ offS4 p'.1 p'.2 1 ∨ offS4 p'.1 p'.2 1 + S512x128.size 1 ≤ offS4 p.1 p.2 1) := by decide
  rcases key p p' hne with h | h
  · exact Rect.unit_disjoint 0 h
  · exact Rect.unit_disjoint 1 h

theorem mem_RO {rc : Fin 2} {col q : Fin 4} {i : S2048x512.Idx} : i ∈ (RO rc col q).set ↔
    (rc.val * 1024 + q.val * 256 ≤ (i 0).val ∧ (i 0).val < rc.val * 1024 + q.val * 256 + 256)
      ∧ (col.val * 128 ≤ (i 1).val ∧ (i 1).val < col.val * 128 + 128) := by
  rw [Rect.mem_set_unit]; exact Fin.forall_fin_two

theorem RO_cover (i : S2048x512.Idx) : ∃ p ∈ (Finset.univ : Finset (Fin 2 × Fin 4 × Fin 4)), i ∈ (RO p.1 p.2.1 p.2.2).set := by
  have h0 : (i 0).val < 2048 := (i 0).isLt
  have h1 : (i 1).val < 512 := (i 1).isLt
  refine ⟨(⟨(i 0).val / 1024, by omega⟩, ⟨(i 1).val / 128, by omega⟩, ⟨(i 0).val % 1024 / 256, by omega⟩), Finset.mem_univ _, ?_⟩
  rw [mem_RO]
  dsimp only
  omega

theorem RO_disjoint : ∀ p ∈ (Finset.univ : Finset (Fin 2 × Fin 4 × Fin 4)), ∀ p' ∈ (Finset.univ : Finset (Fin 2 × Fin 4 × Fin 4)), p ≠ p' →
    Disjoint (RO p.1 p.2.1 p.2.2).set (RO p'.1 p'.2.1 p'.2.2).set := by
  intro p _ p' _ hne
  rw [Finset.disjoint_left]
  intro i hi hi'
  rw [mem_RO] at hi hi'
  have a1 := p.1.isLt; have a2 := p.2.1.isLt; have a3 := p.2.2.isLt
  have b1 := p'.1.isLt; have b2 := p'.2.1.isLt; have b3 := p'.2.2.isLt
  apply hne
  refine Prod.ext (Fin.ext ?_) (Prod.ext (Fin.ext ?_) (Fin.ext ?_)) <;> omega

def eStrip : (Fin 2 × Fin 2) × Fin 2 ≃ Fin 2 × Fin 4 where
  toFun t := (t.1.1, ![ca t.1.2, cb t.1.2] t.2)
  invFun p := ((p.1, ⟨p.2.val % 2, by omega⟩), ⟨p.2.val / 2, by omega⟩)
  left_inv := by intro t; revert t; decide
  right_inv := by intro p; revert p; decide

def eOut : (Fin 2 × Fin 2) × (Fin 4 × Fin 2) ≃ Fin 2 × Fin 4 × Fin 4 where
  toFun t := (t.1.1, ![ca t.1.2, cb t.1.2] t.2.2, t.2.1)
  invFun p := ((p.1, ⟨p.2.1.val % 2, by omega⟩), (p.2.2, ⟨p.2.1.val / 2, by omega⟩))
  left_inv := by intro t; revert t; decide
  right_inv := by intro p; revert p; decide

theorem bigSep_strips (Φ : Fin 2 × Fin 4 → sProp 𝕄) :
    bigSep Finset.univ Φ = bigSep Finset.univ fun u : Fin 2 × Fin 2 => iprop(Φ (u.1, ca u.2) ∗ Φ (u.1, cb u.2)) := by
  rw [bigSep_univ_equiv eStrip Φ, bigSep_univ_prod]
  refine bigSep_congr fun u _ => ?_
  exact bigSep_univ_two _

theorem bigSep_out (Φ : Fin 2 × Fin 4 × Fin 4 → sProp 𝕄) :
    bigSep Finset.univ Φ = bigSep Finset.univ fun u : Fin 2 × Fin 2 => bigSep Finset.univ fun q : Fin 4 =>
      iprop(Φ (u.1, ca u.2, q) ∗ Φ (u.1, cb u.2, q)) := by
  rw [bigSep_univ_equiv eOut Φ, bigSep_univ_prod]
  refine bigSep_congr fun u _ => ?_
  rw [bigSep_univ_prod]
  refine bigSep_congr fun q _ => ?_
  exact bigSep_univ_two _

theorem split_xbs (c : Dev nD) :
    (iprop(∃ f : Buf (Elt F) ((c : Thread nD τ).loc cc0_scratch0), (((c : Thread nD τ).loc cc0_scratch0) ↦{fullShare} f)) : sProp 𝕄)
      ⊢ bigSep (Finset.univ : Finset (Fin 2 × Fin 4)) fun t => tileAny c xbsM (RS4 t.1 t.2) :=
  cover_split_ex (F := F) c xbsM (Finset.univ : Finset (Fin 2 × Fin 4)) (fun t : Fin 2 × Fin 4 => RS4 t.1 t.2) (fun t : Fin 2 × Fin 4 => (RS4 t.1 t.2).set)
    (fun t => View.set_slice_whole cc0_scratch0 _) RS4_cover RS4_disjoint

theorem join_xbs (c : Dev nD) :
    (bigSep (Finset.univ : Finset (Fin 2 × Fin 4)) fun t => tileAny c xbsM (RS4 t.1 t.2) : sProp 𝕄)
      ⊢ iprop(∃ f : Buf (Elt F) ((c : Thread nD τ).loc cc0_scratch0), (((c : Thread nD τ).loc cc0_scratch0) ↦{fullShare} f)) :=
  cover_join (F := F) c xbsM (Finset.univ : Finset (Fin 2 × Fin 4)) (fun t : Fin 2 × Fin 4 => RS4 t.1 t.2) (fun t : Fin 2 × Fin 4 => (RS4 t.1 t.2).set)
    (fun t => View.set_slice_whole cc0_scratch0 _) RS4_cover RS4_disjoint

theorem split_s1a (c : Dev nD) :
    (iprop(∃ f : Buf (Elt F) ((c : Thread nD τ).loc cc0_scratch1), (((c : Thread nD τ).loc cc0_scratch1) ↦{fullShare} f)) : sProp 𝕄)
      ⊢ bigSep (Finset.univ : Finset (Fin 2 × Fin 2)) fun t => tileAny c s1aM (RS2 t.1 t.2) :=
  cover_split_ex (F := F) c s1aM (Finset.univ : Finset (Fin 2 × Fin 2)) (fun t : Fin 2 × Fin 2 => RS2 t.1 t.2) (fun t : Fin 2 × Fin 2 => (RS2 t.1 t.2).set)
    (fun t => View.set_slice_whole cc0_scratch1 _) RS2_cover RS2_disjoint

theorem join_s1a (c : Dev nD) :
    (bigSep (Finset.univ : Finset (Fin 2 × Fin 2)) fun t => tileAny c s1aM (RS2 t.1 t.2) : sProp 𝕄)
      ⊢ iprop(∃ f : Buf (Elt F) ((c : Thread nD τ).loc cc0_scratch1), (((c : Thread nD τ).loc cc0_scratch1) ↦{fullShare} f)) :=
  cover_join (F := F) c s1aM (Finset.univ : Finset (Fin 2 × Fin 2)) (fun t : Fin 2 × Fin 2 => RS2 t.1 t.2) (fun t : Fin 2 × Fin 2 => (RS2 t.1 t.2).set)
    (fun t => View.set_slice_whole cc0_scratch1 _) RS2_cover RS2_disjoint

theorem split_s1b (c : Dev nD) :
    (iprop(∃ f : Buf (Elt F) ((c : Thread nD τ).loc cc0_scratch2), (((c : Thread nD τ).loc cc0_scratch2) ↦{fullShare} f)) : sProp 𝕄)
      ⊢ bigSep (Finset.univ : Finset (Fin 2 × Fin 2)) fun t => tileAny c s1bM (RS2 t.1 t.2) :=
  cover_split_ex (F := F) c s1bM (Finset.univ : Finset (Fin 2 × Fin 2)) (fun t : Fin 2 × Fin 2 => RS2 t.1 t.2) (fun t : Fin 2 × Fin 2 => (RS2 t.1 t.2).set)
    (fun t => View.set_slice_whole cc0_scratch2 _) RS2_cover RS2_disjoint

theorem join_s1b (c : Dev nD) :
    (bigSep (Finset.univ : Finset (Fin 2 × Fin 2)) fun t => tileAny c s1bM (RS2 t.1 t.2) : sProp 𝕄)
      ⊢ iprop(∃ f : Buf (Elt F) ((c : Thread nD τ).loc cc0_scratch2), (((c : Thread nD τ).loc cc0_scratch2) ↦{fullShare} f)) :=
  cover_join (F := F) c s1bM (Finset.univ : Finset (Fin 2 × Fin 2)) (fun t : Fin 2 × Fin 2 => RS2 t.1 t.2) (fun t : Fin 2 × Fin 2 => (RS2 t.1 t.2).set)
    (fun t => View.set_slice_whole cc0_scratch2 _) RS2_cover RS2_disjoint

theorem split_s2a (c : Dev nD) :
    (iprop(∃ f : Buf (Elt F) ((c : Thread nD τ).loc cc0_scratch3), (((c : Thread nD τ).loc cc0_scratch3) ↦{fullShare} f)) : sProp 𝕄)
      ⊢ bigSep (Finset.univ : Finset (Fin 2 × Fin 2)) fun t => tileAny c s2aM (RQ t.1 t.2) :=
  cover_split_ex (F := F) c s2aM (Finset.univ : Finset (Fin 2 × Fin 2)) (fun t : Fin 2 × Fin 2 => RQ t.1 t.2) (fun t : Fin 2 × Fin 2 => (RQ t.1 t.2).set)
    (fun t => View.set_slice_whole cc0_scratch3 _) RQ_cover RQ_disjoint

theorem join_s2a (c : Dev nD) :
    (bigSep (Finset.univ : Finset (Fin 2 × Fin 2)) fun t => tileAny c s2aM (RQ t.1 t.2) : sProp 𝕄)
      ⊢ iprop(∃ f : Buf (Elt F) ((c : Thread nD τ).loc cc0_scratch3), (((c : Thread nD τ).loc cc0_scratch3) ↦{fullShare} f)) :=
  cover_join (F := F) c s2aM (Finset.univ : Finset (Fin 2 × Fin 2)) (fun t : Fin 2 × Fin 2 => RQ t.1 t.2) (fun t : Fin 2 × Fin 2 => (RQ t.1 t.2).set)
    (fun t => View.set_slice_whole cc0_scratch3 _) RQ_cover RQ_disjoint

theorem split_s2b (c : Dev nD) :
    (iprop(∃ f : Buf (Elt F) ((c : Thread nD τ).loc cc0_scratch4), (((c : Thread nD τ).loc cc0_scratch4) ↦{fullShare} f)) : sProp 𝕄)
      ⊢ bigSep (Finset.univ : Finset (Fin 2 × Fin 2)) fun t => tileAny c s2bM (RQ t.1 t.2) :=
  cover_split_ex (F := F) c s2bM (Finset.univ : Finset (Fin 2 × Fin 2)) (fun t : Fin 2 × Fin 2 => RQ t.1 t.2) (fun t : Fin 2 × Fin 2 => (RQ t.1 t.2).set)
    (fun t => View.set_slice_whole cc0_scratch4 _) RQ_cover RQ_disjoint

theorem join_s2b (c : Dev nD) :
    (bigSep (Finset.univ : Finset (Fin 2 × Fin 2)) fun t => tileAny c s2bM (RQ t.1 t.2) : sProp 𝕄)
      ⊢ iprop(∃ f : Buf (Elt F) ((c : Thread nD τ).loc cc0_scratch4), (((c : Thread nD τ).loc cc0_scratch4) ↦{fullShare} f)) :=
  cover_join (F := F) c s2bM (Finset.univ : Finset (Fin 2 × Fin 2)) (fun t : Fin 2 × Fin 2 => RQ t.1 t.2) (fun t : Fin 2 × Fin 2 => (RQ t.1 t.2).set)
    (fun t => View.set_slice_whole cc0_scratch4 _) RQ_cover RQ_disjoint

theorem split_r1a (c : Dev nD) :
    (iprop(∃ f : Buf (Elt F) ((c : Thread nD τ).loc cc0_scratch5), (((c : Thread nD τ).loc cc0_scratch5) ↦{fullShare} f)) : sProp 𝕄)
      ⊢ bigSep (Finset.univ : Finset (Fin 2 × Fin 2)) fun t => tileAny c r1aM (RS2 t.1 t.2) :=
  cover_split_ex (F := F) c r1aM (Finset.univ : Finset (Fin 2 × Fin 2)) (fun t : Fin 2 × Fin 2 => RS2 t.1 t.2) (fun t : Fin 2 × Fin 2 => (RS2 t.1 t.2).set)
    (fun t => View.set_slice_whole cc0_scratch5 _) RS2_cover RS2_disjoint

theorem join_r1a (c : Dev nD) :
    (bigSep (Finset.univ : Finset (Fin 2 × Fin 2)) fun t => tileAny c r1aM (RS2 t.1 t.2) : sProp 𝕄)
      ⊢ iprop(∃ f : Buf (Elt F) ((c : Thread nD τ).loc cc0_scratch5), (((c : Thread nD τ).loc cc0_scratch5) ↦{fullShare} f)) :=
  cover_join (F := F) c r1aM (Finset.univ : Finset (Fin 2 × Fin 2)) (fun t : Fin 2 × Fin 2 => RS2 t.1 t.2) (fun t : Fin 2 × Fin 2 => (RS2 t.1 t.2).set)
    (fun t => View.set_slice_whole cc0_scratch5 _) RS2_cover RS2_disjoint

theorem split_r1b (c : Dev nD) :
    (iprop(∃ f : Buf (Elt F) ((c : Thread nD τ).loc cc0_scratch6), (((c : Thread nD τ).loc cc0_scratch6) ↦{fullShare} f)) : sProp 𝕄)
      ⊢ bigSep (Finset.univ : Finset (Fin 2 × Fin 2)) fun t => tileAny c r1bM (RS2 t.1 t.2) :=
  cover_split_ex (F := F) c r1bM (Finset.univ : Finset (Fin 2 × Fin 2)) (fun t : Fin 2 × Fin 2 => RS2 t.1 t.2) (fun t : Fin 2 × Fin 2 => (RS2 t.1 t.2).set)
    (fun t => View.set_slice_whole cc0_scratch6 _) RS2_cover RS2_disjoint

theorem join_r1b (c : Dev nD) :
    (bigSep (Finset.univ : Finset (Fin 2 × Fin 2)) fun t => tileAny c r1bM (RS2 t.1 t.2) : sProp 𝕄)
      ⊢ iprop(∃ f : Buf (Elt F) ((c : Thread nD τ).loc cc0_scratch6), (((c : Thread nD τ).loc cc0_scratch6) ↦{fullShare} f)) :=
  cover_join (F := F) c r1bM (Finset.univ : Finset (Fin 2 × Fin 2)) (fun t : Fin 2 × Fin 2 => RS2 t.1 t.2) (fun t : Fin 2 × Fin 2 => (RS2 t.1 t.2).set)
    (fun t => View.set_slice_whole cc0_scratch6 _) RS2_cover RS2_disjoint

theorem split_xbs' (c : Dev nD) :
    (iprop(∃ f : Buf (Elt F) ((c : Thread nD τ).loc cc0_scratch0), (((c : Thread nD τ).loc cc0_scratch0) ↦{fullShare} f)) : sProp 𝕄)
      ⊢ bigSep Finset.univ fun u : Fin 2 × Fin 2 => iprop(tileAny c xbsM (RS4 u.1 (ca u.2)) ∗ tileAny c xbsM (RS4 u.1 (cb u.2))) :=
  (split_xbs c).trans (Entails.of_eq (bigSep_strips (fun p : Fin 2 × Fin 4 => (tileAny c xbsM (RS4 p.1 p.2) : sProp 𝕄))))

theorem join_xbs' (c : Dev nD) :
    (bigSep Finset.univ fun u : Fin 2 × Fin 2 => iprop(tileAny c xbsM (RS4 u.1 (ca u.2)) ∗ tileAny c xbsM (RS4 u.1 (cb u.2))) : sProp 𝕄)
      ⊢ iprop(∃ f : Buf (Elt F) ((c : Thread nD τ).loc cc0_scratch0), (((c : Thread nD τ).loc cc0_scratch0) ↦{fullShare} f)) :=
  (Entails.of_eq (bigSep_strips (fun p : Fin 2 × Fin 4 => (tileAny c xbsM (RS4 p.1 p.2) : sProp 𝕄))).symm).trans (join_xbs c)

theorem RO_emb (rc : Fin 2) (col q : Fin 4) (y : S256x128.Idx) (i : S2048x512.Idx)
    (h0 : (i 0).val = rc.val * 1024 + q.val * 256 + (y 0).val) (h1 : (i 1).val = col.val * 128 + (y 1).val) :
    (RO rc col q).emb y = i := by
  funext a
  apply Fin.ext
  rw [Rect.emb_apply]
  match a with
  | ⟨0, _⟩ => show rc.val * 1024 + q.val * 256 + 1 * (y 0).val = (i 0).val; omega
  | ⟨1, _⟩ => show col.val * 128 + 1 * (y 1).val = (i 1).val; omega

def scratchTiles (c : Dev nD) : sProp 𝕄 :=
  iprop((bigSep Finset.univ fun u : Fin 2 × Fin 2 => iprop(tileAny c xbsM (RS4 u.1 (ca u.2)) ∗ tileAny c xbsM (RS4 u.1 (cb u.2))))
    ∗ (bigSep Finset.univ fun u : Fin 2 × Fin 2 => tileAny c s1aM (RS2 u.1 u.2))
    ∗ (bigSep Finset.univ fun u : Fin 2 × Fin 2 => tileAny c s1bM (RS2 u.1 u.2))
    ∗ (bigSep Finset.univ fun u : Fin 2 × Fin 2 => tileAny c s2aM (RQ u.1 u.2))
    ∗ (bigSep Finset.univ fun u : Fin 2 × Fin 2 => tileAny c s2bM (RQ u.1 u.2))
    ∗ (bigSep Finset.univ fun u : Fin 2 × Fin 2 => tileAny c r1aM (RS2 u.1 u.2))
    ∗ (bigSep Finset.univ fun u : Fin 2 × Fin 2 => tileAny c r1bM (RS2 u.1 u.2)))

theorem scratch_split (c : Dev nD) : (scratch c : sProp 𝕄) ⊢ scratchTiles c := by
  unfold scratch scratchTiles
  exact BIClass.sep_mono (split_xbs' c) (BIClass.sep_mono (split_s1a c) (BIClass.sep_mono (split_s1b c) (BIClass.sep_mono (split_s2a c)
    (BIClass.sep_mono (split_s2b c) (BIClass.sep_mono (split_r1a c) (split_r1b c))))))
theorem scratch_join (c : Dev nD) : (scratchTiles c : sProp 𝕄) ⊢ scratch c := by
  unfold scratch scratchTiles
  exact BIClass.sep_mono (join_xbs' c) (BIClass.sep_mono (join_s1a c) (BIClass.sep_mono (join_s1b c) (BIClass.sep_mono (join_s2a c)
    (BIClass.sep_mono (join_s2b c) (BIClass.sep_mono (join_r1a c) (join_r1b c))))))

theorem out_split (c : Dev nD) (f : Buf (Elt F) ((c : Thread nD τ).loc cc0_stg1_0)) :
    ((((c : Thread nD τ).loc cc0_stg1_0) ↦{fullShare} f) : sProp 𝕄)
      ⊢ bigSep Finset.univ fun u : Fin 2 × Fin 2 => bigSep Finset.univ fun q : Fin 4 =>
          iprop(tileAny c oM (RO u.1 (ca u.2) q) ∗ tileAny c oM (RO u.1 (cb u.2) q)) :=
  (cover_split (F := F) c oM (Finset.univ : Finset (Fin 2 × Fin 4 × Fin 4)) (fun p : Fin 2 × Fin 4 × Fin 4 => RO p.1 p.2.1 p.2.2)
      (fun p : Fin 2 × Fin 4 × Fin 4 => (RO p.1 p.2.1 p.2.2).set) (fun t => View.set_slice_whole cc0_stg1_0 _) RO_cover RO_disjoint f).trans
    (Entails.of_eq (bigSep_out (fun p : Fin 2 × Fin 4 × Fin 4 => (tileAny c oM (RO p.1 p.2.1 p.2.2) : sProp 𝕄))))

theorem out_join (c : Dev nD) (X : Dev nD → (cc0_stg0_0 : Ref sig .tc).ty.Contents (Elt F)) :
    (bigSep Finset.univ fun u : Fin 2 × Fin 2 => bigSep Finset.univ fun q : Fin 4 =>
          iprop(tile c oM (RO u.1 (ca u.2) q) (outTile X u.1 (ca u.2) q) ∗ tile c oM (RO u.1 (cb u.2) q) (outTile X u.1 (cb u.2) q)) : sProp 𝕄)
      ⊢ (((c : Thread nD τ).loc cc0_stg1_0) ↦{fullShare} outAt X) := by
  refine (Entails.of_eq (bigSep_out (fun p : Fin 2 × Fin 4 × Fin 4 =>
    (tile c oM (RO p.1 p.2.1 p.2.2) (outTile X p.1 p.2.1 p.2.2) : sProp 𝕄))).symm).trans ?_
  refine (cover_join_val (F := F) c oM (Finset.univ : Finset (Fin 2 × Fin 4 × Fin 4)) (fun p : Fin 2 × Fin 4 × Fin 4 => RO p.1 p.2.1 p.2.2)
      (fun p : Fin 2 × Fin 4 × Fin 4 => (RO p.1 p.2.1 p.2.2).set) (fun t => View.set_slice_whole cc0_stg1_0 _) RO_cover RO_disjoint
      (fun p : Fin 2 × Fin 4 × Fin 4 => outTile X p.1 p.2.1 p.2.2)).trans ?_
  iintro ⟨%g, %hg, H⟩
  have hgX : g = outAt X := by
    funext i
    have h0 : (i 0).val < 2048 := (i 0).isLt
    have h1 : (i 1).val < 512 := (i 1).isLt
    have hq0 : (i 0).val / 1024 < 2 := by omega
    have hq1 : (i 1).val / 128 < 4 := by omega
    have hq2 : (i 0).val % 1024 / 256 < 4 := by omega
    have hy0 : (i 0).val % 256 < 256 := by omega
    have hy1 : (i 1).val % 128 < 128 := by omega
    have hr := hg ((⟨_, hq0⟩ : Fin 2), (⟨_, hq1⟩ : Fin 4), (⟨_, hq2⟩ : Fin 4)) (Finset.mem_univ _)
    have hy := congrFun hr (ValueIdx.ix2 (⟨_, hy0⟩ : Fin 256) (⟨_, hy1⟩ : Fin 128))
    have he := RO_emb (⟨_, hq0⟩ : Fin 2) (⟨_, hq1⟩ : Fin 4) (⟨_, hq2⟩ : Fin 4) (ValueIdx.ix2 (⟨_, hy0⟩ : Fin 256) (⟨_, hy1⟩ : Fin 128)) i
      (by show (i 0).val = (i 0).val / 1024 * 1024 + (i 0).val % 1024 / 256 * 256 + (i 0).val % 256; omega)
      (by show (i 1).val = (i 1).val / 128 * 128 + (i 1).val % 128; omega)
    exact (congrArg g he).symm.trans hy
  subst hgX
  iexact H

theorem bigSep_quartersA (c : Dev nD) (Φ : Fin 4 → sProp 𝕄) :
    bigSep Finset.univ Φ = iprop(Φ (qA c) ∗ Φ (qA (p2 c)) ∗ Φ (qA (p1 c)) ∗ Φ (qA (p3 c))) :=
  bigSep_univ_eq_bigSepL [qA c, qA (p2 c), qA (p1 c), qA (p3 c)] (by revert c; decide) (by revert c; decide) Φ
theorem bigSep_quartersB (c : Dev nD) (Φ : Fin 4 → sProp 𝕄) :
    bigSep Finset.univ Φ = iprop(Φ (qB c) ∗ Φ (qB (p1 c)) ∗ Φ (qB (p2 c)) ∗ Φ (qB (p3 c))) :=
  bigSep_univ_eq_bigSepL [qB c, qB (p1 c), qB (p2 c), qB (p3 c)] (by revert c; decide) (by revert c; decide) Φ

theorem bigSep_units (Φ : Fin 2 × Fin 2 → sProp 𝕄) :
    bigSep Finset.univ Φ = iprop(Φ (0, 0) ∗ Φ (0, 1) ∗ Φ (1, 0) ∗ Φ (1, 1)) :=
  bigSep_univ_eq_bigSepL [(0, 0), (0, 1), (1, 0), (1, 1)] (by decide) (by decide) Φ

theorem outTile_a (X : Dev nD → (cc0_stg0_0 : Ref sig .tc).ty.Contents (Elt F)) (d : Dev nD) (rc cc : Fin 2) :
    outTile X rc (ca cc) (qA d) = outA X d rc cc := by
  unfold outTile
  have h : (ca cc).val < 2 := cc.isLt
  rw [dif_pos h, ownA_qA]
  rfl
theorem outTile_b (X : Dev nD → (cc0_stg0_0 : Ref sig .tc).ty.Contents (Elt F)) (d : Dev nD) (rc cc : Fin 2) :
    outTile X rc (cb cc) (qB d) = outB X d rc cc := by
  unfold outTile
  have h : ¬ (cb cc).val < 2 := by show ¬ (2 + cc.val < 2); omega
  rw [dif_neg h, ownB_qB]
  congr 1
  exact Fin.ext (by show 2 + cc.val - 2 = cc.val; omega)

end Cert.KernelIdeal.AR

end
-- ==== Proof.Rules.lean ====
-- The send and wait rules at this schedule's cells, stated over a device's rectangles.
import proofs.«900112_g7700000000000113_dist_ar_v7x_i4_i_m2048_n512_bf16_1_alg».proof.Proof.Tables
import proofs.«900112_g7700000000000113_dist_ar_v7x_i4_i_m2048_n512_bf16_1_alg».proof.Proof.Tiles

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

def sK (i : Fin 32) : Fin 65 := ⟨i.val + 1, by omega⟩
def rK (i : Fin 32) : Fin 65 := ⟨i.val + 33, by omega⟩
def bK : Fin 65 := ⟨0, by omega⟩

theorem kcell_s (c : Dev nD) (i : Fin 32) : kcell (c, sK i) = sCell c i := by
  unfold kcell csem sK
  have h0 : ¬ ((⟨i.val + 1, by omega⟩ : Fin 65).val = 0) := by simp
  have h1 : (⟨i.val + 1, by omega⟩ : Fin 65).val < 33 := by have := i.isLt; simp; omega
  rw [dif_neg h0, dif_pos h1]
  rfl
theorem kcell_r (c : Dev nD) (i : Fin 32) : kcell (c, rK i) = rCell c i := by
  unfold kcell csem rK
  have h0 : ¬ ((⟨i.val + 33, by omega⟩ : Fin 65).val = 0) := by simp
  have h1 : ¬ (⟨i.val + 33, by omega⟩ : Fin 65).val < 33 := by simp
  rw [dif_neg h0, dif_neg h1]
  show ((c : Thread nD τ), SemLoc.dma (rSem ⟨i.val + 33 - 33, _⟩)) = _
  congr 3
theorem kcell_b (c : Dev nD) : kcell (c, bK) = barCell c := by
  unfold kcell csem bK
  rw [dif_pos rfl]

theorem inv_at (K : Dev nD × Fin 65 → ℕ) (ck : Dev nD × Fin 65) :
    (bigSep Finset.univ fun ck : Dev nD × Fin 65 => (cellInv ER (rd m ρ) (K ck) (kcell ck) : sProp 𝕄)) ⊢ cellInv ER (rd m ρ) (K ck) (kcell ck) :=
  bigSep_elim (Finset.mem_univ ck)
theorem reached_at (ck : Dev nD × Fin 65) :
    (bigSep Finset.univ fun ck : Dev nD × Fin 65 => (reached ER (kcell ck) 0 : sProp 𝕄)) ⊢ reached ER (kcell ck) 0 :=
  bigSep_elim (Finset.mem_univ ck)

theorem inv_s (K : Dev nD × Fin 65 → ℕ) (c : Dev nD) (i : Fin 32) :
    records m ρ K ⊢ (cellInv ER (rd m ρ) (K (c, sK i)) (sCell c i) : sProp 𝕄) := by
  unfold records
  iintro ⟨#HI, -⟩
  rw [← kcell_s c i]
  iapply (inv_at m ρ K (c, sK i)); iexact HI
theorem inv_r (K : Dev nD × Fin 65 → ℕ) (c : Dev nD) (i : Fin 32) :
    records m ρ K ⊢ (cellInv ER (rd m ρ) (K (c, rK i)) (rCell c i) : sProp 𝕄) := by
  unfold records
  iintro ⟨#HI, -⟩
  rw [← kcell_r c i]
  iapply (inv_at m ρ K (c, rK i)); iexact HI
theorem inv_b (K : Dev nD × Fin 65 → ℕ) (c : Dev nD) :
    records m ρ K ⊢ (cellInv ER (rd m ρ) (K (c, bK)) (barCell c) : sProp 𝕄) := by
  unfold records
  iintro ⟨#HI, -⟩
  rw [← kcell_b c]
  iapply (inv_at m ρ K (c, bK)); iexact HI
theorem reached0_s (K : Dev nD × Fin 65 → ℕ) (c : Dev nD) (i : Fin 32) :
    records m ρ K ⊢ (reached ER (sCell c i) 0 : sProp 𝕄) := by
  unfold records
  iintro ⟨-, #HR⟩
  rw [← kcell_s c i]
  iapply (reached_at (F := F) (c, sK i)); iexact HR
theorem reached0_r (K : Dev nD × Fin 65 → ℕ) (c : Dev nD) (i : Fin 32) :
    records m ρ K ⊢ (reached ER (rCell c i) 0 : sProp 𝕄) := by
  unfold records
  iintro ⟨-, #HR⟩
  rw [← kcell_r c i]
  iapply (reached_at (F := F) (c, rK i)); iexact HR
theorem reached0_b (K : Dev nD × Fin 65 → ℕ) (c : Dev nD) :
    records m ρ K ⊢ (reached ER (barCell c) 0 : sProp 𝕄) := by
  unfold records
  iintro ⟨-, #HR⟩
  rw [← kcell_b c]
  iapply (reached_at (F := F) (c, bK)); iexact HR

instance records_persistent (K : Dev nD × Fin 65 → ℕ) : BI.Persistent (records m ρ K) := by unfold records; infer_instance

theorem routes_all (c n : Dev nD) : τ.routes (c : Thread nD τ) (n : Thread nD τ) = true := by revert c n; decide

theorem mem_false_singleton : false ∈ ({false} : Finset Bool) := Finset.mem_singleton_self _

theorem wp_exch (K : Dev nD × Fin 65 → ℕ) (c n : Dev nD) {d₁ d₂ sz : Fin 2 → ℕ} {e : EltTy}
    (M₁ : Memref sig .tc .vmem ⟨2, d₁⟩ e) (off₁ : Fin 2 → ℕ) (inb₁ : ∀ a, off₁ a + sz a ≤ (⟨2, d₁⟩ : Shape).size a)
    (M₂ : Memref sig .tc .vmem ⟨2, d₂⟩ e) (off₂ : Fin 2 → ℕ) (inb₂ : ∀ a, off₂ a + sz a ≤ (⟨2, d₂⟩ : Shape).size a)
    (q : PosShare TreeShare) (V : (⟨2, sz⟩ : Shape).Idx → Elt F e)
    (is ir : Fin 32) (ρ₁ ρ₂ : ℕ) (N : ℕ)
    (hd₁ : (rd (F := F) m ρ).duties (sCell c is) ρ₁ = {false}) (hd₂ : (rd (F := F) m ρ).duties (rCell n ir) ρ₂ = {false})
    (hN : (M₂.slice (Rect.unit off₂ sz inb₂) (fun _ => rfl)).view.amount (.dma (rSem ir)) = N)
    (hk₁ : (rd (F := F) m ρ).amount (sCell c is) ρ₁ false = N) (hk₂ : (rd (F := F) m ρ).amount (rCell n ir) ρ₂ false = N)
    {O₀ : CellTallies nD τ sig ℕ} (O : CellTallies nD τ sig ℕ) (hO : O₀ = O + tallyAt (rCell n ir) ρ₂ N) {W : Waits sig ℕ}
    (Fr : sProp 𝕄)
    (hpay₁ : tileQ q c M₁ (Rect.unit off₁ sz inb₁) V ⊢ (rd (F := F) m ρ).payload (sCell c is) ρ₁ false)
    (hpay₂ : iprop(tile n M₂ (Rect.unit off₂ sz inb₂) V ∗ Fr) ⊢ (rd (F := F) m ρ).payload (rCell n ir) ρ₂ false)
    {hsc : (M₂.slice (Rect.unit off₂ sz inb₂) (fun _ => rfl) : Memref sig (Dev.tc n : Thread nD τ).2.kind .vmem ⟨2, sz⟩ e).view.ref.isScScratch = false}
    {hsrc : (M₁.slice (Rect.unit off₁ sz inb₁) (fun _ => rfl)).view.WordExact}
    {hdst : (M₂.slice (Rect.unit off₂ sz inb₂) (fun _ => rfl)).view.WordExact}
    {hsem : DmaTarget.Typed .vmem (.dma (rSem ir)) (.remote (Dev.tc n : Thread nD τ) (M₂.slice (Rect.unit off₂ sz inb₂) (fun _ => rfl)) (.dma (sSem is)) hsc)}
    {α : Type} {Q : α → sProp 𝕄} {k : PUnit → Prog (TpuEff nD τ sig (Elt F) Λ₀ .tc) α} :
    iprop(records m ρ K ∗ reached ER (sCell c is) ρ₁ ∗ reached ER (rCell n ir) ρ₂
        ∗ tileQ q c M₁ (Rect.unit off₁ sz inb₁) V ∗ tileAny n M₂ (Rect.unit off₂ sz inb₂) ∗ Fr
        ∗ owes (c : Thread nD τ) O₀ W ∗ dutyTok ER (sCell c is) ρ₁ false ∗ dutyTok ER (rCell n ir) ρ₂ false)
      ⊢ iprop(((cred (tallyAt (sCell c is) ρ₁ N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (M₁.slice (Rect.unit off₁ sz inb₁) (fun _ => rfl))
                (.remote (Dev.tc n : Thread nD τ) (M₂.slice (Rect.unit off₂ sz inb₂) (fun _ => rfl)) (.dma (sSem is)) hsc)
                (.dma (rSem ir)) hsrc hdst hsem) k) Q) := by
  unfold tileQ tileAny
  iintro ⟨#HR, #Hr1, #Hr2, ⟨%fs, %hfs, Hs⟩, ⟨%fd, Hd⟩, HF, HO, Ht1, Ht2⟩
  ihave #HI1 := (inv_s m ρ K c is) $$ HR
  ihave #HI2 := (inv_r m ρ K n ir) $$ HR
  iapply (Rounds.wp_send_pointsTo_with 𝒱₀ ER (rd m ρ) (c : Thread nD τ) none (κ₁ := K (c, sK is)) (κ₂ := K (n, rK ir))
      (src := M₁.slice (Rect.unit off₁ sz inb₁) (fun _ => rfl)) (dst := M₂.slice (Rect.unit off₂ sz inb₂) (fun _ => rfl))
      (c' := (n : Thread nD τ)) (q := q) (fs := fs) (fd := fd) (F := Fr)
      (r₁ := ρ₁) (r₂ := ρ₂) (d₁ := false) (d₂ := false) (hd₁ ▸ mem_false_singleton) (hd₂ ▸ mem_false_singleton) ρ₂ ρ₁ N hN hk₁ hk₂ O hO (W := W)
      (by
        refine BIBase.Entails.trans ?_ hpay₁
        unfold tileQ
        iintro H
        iexists fs
        isplitr
        · ipureintro; exact hfs
        · iexact H)
      (by
        refine BIBase.Entails.trans ?_ hpay₂
        unfold tile tileQ
        iintro ⟨H, HF⟩
        isplitl [H]
        · iexists ((M₂.access (Rect.unit off₂ sz inb₂)).write (Elt F) fd ((M₁.access (Rect.unit off₁ sz inb₁)).read (Elt F) fs) Finset.univ)
          isplitr
          · ipureintro
            exact (View.read_write_univ (v := M₂.access (Rect.unit off₂ sz inb₂)) (Val := Elt F) fd _).trans hfs
          · iexact H
        · iexact HF)
      (routes_all c n)) $$ [Hs Hd HF HO Ht1 Ht2]
  iframe HI1 HI2 Hs Hd HF HO Ht1 Hr1 Ht2 Hr2

theorem wp_exch0 (K : Dev nD × Fin 65 → ℕ) (c n : Dev nD) {d₁ d₂ sz : Fin 2 → ℕ} {e : EltTy}
    (M₁ : Memref sig .tc .vmem ⟨2, d₁⟩ e) (off₁ : Fin 2 → ℕ) (inb₁ : ∀ a, off₁ a + sz a ≤ (⟨2, d₁⟩ : Shape).size a)
    (M₂ : Memref sig .tc .vmem ⟨2, d₂⟩ e) (off₂ : Fin 2 → ℕ) (inb₂ : ∀ a, off₂ a + sz a ≤ (⟨2, d₂⟩ : Shape).size a)
    (q : PosShare TreeShare) (V : (⟨2, sz⟩ : Shape).Idx → Elt F e) (is ir : Fin 32) (N : ℕ)
    (hN : (M₂.slice (Rect.unit off₂ sz inb₂) (fun _ => rfl)).view.amount (.dma (rSem ir)) = N)
    (hk₁ : (rd (F := F) m ρ).amount (sCell c is) 0 false = N) (hk₂ : (rd (F := F) m ρ).amount (rCell n ir) 0 false = N)
    {O₀ : CellTallies nD τ sig ℕ} (O : CellTallies nD τ sig ℕ) (hO : O₀ = O + tallyAt (rCell n ir) 0 N) {W : Waits sig ℕ}
    (Fr : sProp 𝕄)
    (hpay₁ : tileQ q c M₁ (Rect.unit off₁ sz inb₁) V ⊢ (rd (F := F) m ρ).payload (sCell c is) 0 false)
    (hpay₂ : iprop(tile n M₂ (Rect.unit off₂ sz inb₂) V ∗ Fr) ⊢ (rd (F := F) m ρ).payload (rCell n ir) 0 false)
    {hsc : (M₂.slice (Rect.unit off₂ sz inb₂) (fun _ => rfl) : Memref sig (Dev.tc n : Thread nD τ).2.kind .vmem ⟨2, sz⟩ e).view.ref.isScScratch = false}
    {hsrc : (M₁.slice (Rect.unit off₁ sz inb₁) (fun _ => rfl)).view.WordExact}
    {hdst : (M₂.slice (Rect.unit off₂ sz inb₂) (fun _ => rfl)).view.WordExact}
    {hsem : DmaTarget.Typed .vmem (.dma (rSem ir)) (.remote (Dev.tc n : Thread nD τ) (M₂.slice (Rect.unit off₂ sz inb₂) (fun _ => rfl)) (.dma (sSem is)) hsc)}
    {α : Type} {Q : α → sProp 𝕄} {k : PUnit → Prog (TpuEff nD τ sig (Elt F) Λ₀ .tc) α} :
    iprop(records m ρ K ∗ tileQ q c M₁ (Rect.unit off₁ sz inb₁) V ∗ tileAny n M₂ (Rect.unit off₂ sz inb₂) ∗ Fr
        ∗ owes (c : Thread nD τ) O₀ W ∗ dutyTok ER (sCell c is) 0 false ∗ dutyTok ER (rCell n ir) 0 false)
      ⊢ iprop(((cred (tallyAt (sCell c is) 0 N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (M₁.slice (Rect.unit off₁ sz inb₁) (fun _ => rfl))
                (.remote (Dev.tc n : Thread nD τ) (M₂.slice (Rect.unit off₂ sz inb₂) (fun _ => rfl)) (.dma (sSem is)) hsc)
                (.dma (rSem ir)) hsrc hdst hsem) k) Q) := by
  iintro ⟨#HR, H⟩
  ihave #Hr1 := (reached0_s m ρ K c is) $$ HR
  ihave #Hr2 := (reached0_r m ρ K n ir) $$ HR
  iapply (wp_exch m ρ K c n M₁ off₁ inb₁ M₂ off₂ inb₂ q V is ir 0 0 N (duties_s0 m ρ c is) (duties_r0 m ρ n ir) hN hk₁ hk₂ O hO Fr hpay₁ hpay₂)
  iframe HR Hr1 Hr2 H

theorem mayWait0 (c : Dev nD) (sm : SemLoc sig) (R : ℕ) : (iprop(emp) : sProp 𝕄) ⊢ MayWait (c : Thread nD τ) sm R 0 := by
  rw [MayWait_zero]; exact BI.Entails.refl _

theorem wp_wait_recv (K : Dev nD × Fin 65 → ℕ) (c : Dev nD) (i : Fin 32) (R N : ℕ) {O : CellTallies nD τ sig ℕ} {W : Waits sig ℕ} {P : sProp 𝕄}
    (hdut : (rd (F := F) m ρ).duties (rCell c i) R = {false}) (hexp : (rd (F := F) m ρ).expect (rCell c i) R = N)
    (hmw : P ⊢ MayWait (c : Thread nD τ) (.dma (rSem i)) R O)
    {sp sp' : Space} {s s' : Shape} {e e' : EltTy} {src : Memref sig .tc sp' s' e'} {κ' : Kind} {dst : Memref sig κ' sp s e}
    {hsrc : src.view.WordExact} {hdst : dst.view.WordExact} (hamt : dst.view.dmaCredit = N)
    {α : Type} {Q : α → sProp 𝕄} {k : PUnit → Prog (TpuEff nD τ sig (Elt F) Λ₀ .tc) α} :
    iprop(records m ρ K ∗ P ∗ cred (tallyAt (rCell c i) R N) ∗ owes (c : Thread nD τ) O W ∗ atPos ER (rCell c i) R ∅ 0)
      ⊢ iprop(((owes (c : Thread nD τ) O (insert (SemLoc.dma (rSem i), R) W)
              ∗ atPos ER (rCell c i) (R + 1) ∅ 0 ∗ reached ER (rCell c i) (R + 1) ∗ rcvPay (xstg m ρ) c i R)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (rSem i) src dst hsrc hdst) k) Q) := by
  subst hamt
  iintro ⟨#HR, HP, Hc, HO, Hat⟩ Hk
  ihave #HI := (inv_r m ρ K c i) $$ HR
  ihave Hm := (hmw) $$ HP
  iapply (Rounds.wp_wait_rest_token 𝒱₀ ER (rd m ρ) (c : Thread nD τ) none (κ := K (c, rK i))
      (wpE_waitDma2_eq 𝒱₀ (c : Thread nD τ) none Set.univ) (Set.mem_univ _) R (O := O) (W := W) (R := R) (m := 0) (T := ∅)
      (by rw [Nat.zero_add, hexp])) $$ [Hc HO Hm Hat]
  · iframe HI Hc HO Hm Hat
  iintro ⟨HO, Hat, Hr, Hpay⟩
  iapply Hk
  iframe HO Hat Hr
  iapply (Entails.of_eq (rest_r m ρ c i R hdut)) $$ Hpay

theorem wp_wait_send (K : Dev nD × Fin 65 → ℕ) (c : Dev nD) (i : Fin 32) (R N : ℕ) {O : CellTallies nD τ sig ℕ} {W : Waits sig ℕ} {P : sProp 𝕄}
    (hdut : (rd (F := F) m ρ).duties (sCell c i) R = {false}) (hexp : (rd (F := F) m ρ).expect (sCell c i) R = N)
    (hmw : P ⊢ MayWait (c : Thread nD τ) (.dma (sSem i)) R O)
    {sp sp' : Space} {s s' : Shape} {e e' : EltTy} {src : Memref sig .tc sp' s' e'} {κ' : Kind} {dst : Memref sig κ' sp s e}
    {hsrc : src.view.WordExact} {hdst : dst.view.WordExact} (hamt : dst.view.dmaCredit = N)
    {α : Type} {Q : α → sProp 𝕄} {k : PUnit → Prog (TpuEff nD τ sig (Elt F) Λ₀ .tc) α} :
    iprop(records m ρ K ∗ P ∗ cred (tallyAt (sCell c i) R N) ∗ owes (c : Thread nD τ) O W ∗ atPos ER (sCell c i) R ∅ 0)
      ⊢ iprop(((owes (c : Thread nD τ) O (insert (SemLoc.dma (sSem i), R) W)
              ∗ atPos ER (sCell c i) (R + 1) ∅ 0 ∗ reached ER (sCell c i) (R + 1) ∗ sndPay (xstg m ρ) c i R)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sSem i) src dst hsrc hdst) k) Q) := by
  subst hamt
  iintro ⟨#HR, HP, Hc, HO, Hat⟩ Hk
  ihave #HI := (inv_s m ρ K c i) $$ HR
  ihave Hm := (hmw) $$ HP
  iapply (Rounds.wp_wait_rest_token 𝒱₀ ER (rd m ρ) (c : Thread nD τ) none (κ := K (c, sK i))
      (wpE_waitDma2_eq 𝒱₀ (c : Thread nD τ) none Set.univ) (Set.mem_univ _) R (O := O) (W := W) (R := R) (m := 0) (T := ∅)
      (by rw [Nat.zero_add, hexp])) $$ [Hc HO Hm Hat]
  · iframe HI Hc HO Hm Hat
  iintro ⟨HO, Hat, Hr, Hpay⟩
  iapply Hk
  iframe HO Hat Hr
  iapply (Entails.of_eq (rest_s m ρ c i R hdut)) $$ Hpay

theorem close_cell (g : GSem nD τ sig) (κ : ℕ) (R : ℕ) (hR : ∀ r, R ≤ r → (rd (F := F) m ρ).duties g r = ∅) :
    iprop(cellInv ER (rd m ρ) κ g ∗ atPos ER g R ∅ 0) ⊢ (iprop(|={Set.univ}=> semVal g 0) : sProp 𝕄) :=
  Rounds.cell_close ER (rd m ρ) (Set.mem_univ κ) (fun h => h) hR

end Cert.KernelIdeal.AR

end
-- ==== Proof.Levels.lean ====
-- Every wait lies strictly below all that its waiter still owes, so no device waits on a device that waits on it.
import proofs.«900112_g7700000000000113_dist_ar_v7x_i4_i_m2048_n512_bf16_1_alg».proof.Proof.Ghost

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

theorem owedFrom_succ (c : Dev nD) (k : ℕ) (t : GSem nD τ sig × ℕ × ℕ) (h : (pays c)[k]? = some t) :
    owedFrom c k = owedFrom c (k + 1) + tallyAt t.1 t.2.1 t.2.2 := by
  obtain ⟨hk, ht⟩ := List.getElem?_eq_some_iff.mp h
  unfold owedFrom
  rw [List.drop_eq_getElem_cons hk, List.foldr_cons, ht]

theorem pays_length (c : Dev nD) : (pays c).length = 42 := rfl

theorem owedFrom_end (c : Dev nD) : owedFrom c 42 = 0 := by
  unfold owedFrom
  rw [List.drop_of_length_le (le_of_eq (pays_length c)), List.foldr_nil]

theorem foldr_tally_pos (l : List (GSem nD τ sig × ℕ × ℕ)) (g : GSem nD τ sig) (ι : ℕ)
    (h : 0 < (l.foldr (fun t acc => acc + tallyAt t.1 t.2.1 t.2.2) (0 : CellTallies nD τ sig ℕ)) g ι) :
    ∃ t ∈ l, t.1 = g ∧ t.2.1 = ι := by
  induction l with
  | nil => exact absurd h (Nat.lt_irrefl 0)
  | cons a l ih =>
    rw [List.foldr_cons, Pi.add_apply, Finsupp.add_apply, tallyAt_apply] at h
    by_cases hc : g = a.1 ∧ ι = a.2.1
    · exact ⟨a, List.mem_cons_self, hc.1.symm, hc.2.symm⟩
    · rw [if_neg hc, Nat.add_zero] at h
      obtain ⟨t, ht, h1, h2⟩ := ih h
      exact ⟨t, List.mem_cons_of_mem _ ht, h1, h2⟩

theorem owedFrom_pos {c : Dev nD} {k : ℕ} {g : GSem nD τ sig} {ι : ℕ} (h : 0 < owedFrom c k g ι) :
    ∃ t ∈ (pays c).drop k, t.1 = g ∧ t.2.1 = ι :=
  foldr_tally_pos _ g ι h

theorem L_of_ne (g : GSem nD τ sig) (h : g.1.2 ≠ .tc) : L g = ∅ := if_neg h
theorem L_tc (c : Dev nD) (sm : SemLoc sig) : L ((c : Thread nD τ), sm) = {0, 1} := if_pos rfl

theorem lv_bar (th : Thread nD τ) (s : Sem sig) (ι : ℕ) : lv (th, .reg s) ι = 1 := rfl

theorem lv_s (th : Thread nD τ) (i : Fin 32) (ι : ℕ) : lv (th, .dma (sSem i)) ι = 0 := by
  have hi := i.isLt
  unfold lv ckLoc sSem
  dsimp only
  rw [dif_pos ⟨by omega, by omega⟩]

def lvE (e : Fin 8) (ι : ℕ) : ℕ :=
  if e.val < 2 then (if ι = 0 then 2 else 5) else if e.val < 4 then 3 else if e.val < 6 then 4 else 5

theorem lv_r (th : Thread nD τ) (i : Fin 32) (ι : ℕ) : lv (th, .dma (rSem i)) ι = lvE (iE i) ι := by
  have hi := i.isLt
  unfold lv ckLoc rSem
  dsimp only
  rw [dif_neg (fun h => by omega), dif_pos ⟨by omega, by omega⟩]
  dsimp only
  have : (⟨34 + i.val - 34, by omega⟩ : Fin 32) = i := Fin.ext (by simp)
  rw [this]; rfl

theorem lv_rix (th : Thread nD τ) (rc cc : Fin 2) (e : Fin 8) (ι : ℕ) :
    lv (th, .dma (rSem (ix rc cc e))) ι = lvE e ι := by
  rw [lv_r, iE_ix]

theorem pays_mem (c : Dev nD) : ∀ t ∈ pays c, t.1.1.2 = .tc ∧ (t.2.1 = 0 ∨ t.2.1 = 1) := by
  simp only [pays, un, List.flatMap_cons, List.flatMap_nil, List.append_nil, List.cons_append, List.nil_append,
    List.forall_mem_cons]
  simp

theorem pays_lv0 (c : Dev nD) : ∀ t ∈ pays c, 1 ≤ lv t.1 t.2.1 := by
  simp only [pays, un, List.flatMap_cons, List.flatMap_nil, List.append_nil, List.cons_append, List.nil_append,
    List.forall_mem_cons, lv_bar, lv_rix]
  decide
theorem pays_lv2 (c : Dev nD) : ∀ t ∈ (pays c).drop 2, 2 ≤ lv t.1 t.2.1 := by
  simp only [pays, un, List.flatMap_cons, List.flatMap_nil, List.append_nil, List.cons_append, List.nil_append,
    List.drop_succ_cons, List.drop_zero, List.forall_mem_cons, lv_bar, lv_rix]
  decide
theorem pays_lv10 (c : Dev nD) : ∀ t ∈ (pays c).drop 10, 3 ≤ lv t.1 t.2.1 := by
  simp only [pays, un, List.flatMap_cons, List.flatMap_nil, List.append_nil, List.cons_append, List.nil_append,
    List.drop_succ_cons, List.drop_zero, List.forall_mem_cons, lv_bar, lv_rix]
  decide
theorem pays_lv18 (c : Dev nD) : ∀ t ∈ (pays c).drop 18, 4 ≤ lv t.1 t.2.1 := by
  simp only [pays, un, List.flatMap_cons, List.flatMap_nil, List.append_nil, List.cons_append, List.nil_append,
    List.drop_succ_cons, List.drop_zero, List.forall_mem_cons, lv_bar, lv_rix]
  decide
theorem pays_lv34 (c : Dev nD) : ∀ t ∈ (pays c).drop 34, 5 ≤ lv t.1 t.2.1 := by
  simp only [pays, un, List.flatMap_cons, List.flatMap_nil, List.append_nil, List.cons_append, List.nil_append,
    List.drop_succ_cons, List.drop_zero, List.forall_mem_cons, lv_bar, lv_rix]
  decide

theorem mayWait_drop (c : Dev nD) (sm : SemLoc sig) (ι : ℕ) (k : ℕ) (hι : ι = 0 ∨ ι = 1)
    (h : ∀ t ∈ (pays c).drop k, lv ((c : Thread nD τ), sm) ι < lv t.1 t.2.1) :
    (levAts L lv : sProp 𝕄) ⊢ MayWait (c : Thread nD τ) sm ι (owedFrom c k) := by
  refine MayOwe.of_cut (L := L) (lev := lv) (lv ((c : Thread nD τ), sm) ι)
    (fun p hp => ?_) (fun g ι' hg => ?_) (fun p hp => ?_) (fun g ι' hg => ?_)
  · rw [Finset.mem_singleton.mp hp, L_tc]
    rcases hι with rfl | rfl <;> simp
  · obtain ⟨t, ht, rfl, rfl⟩ := owedFrom_pos hg
    obtain ⟨h1, h2⟩ := pays_mem c t (List.mem_of_mem_drop ht)
    unfold L; rw [if_pos h1]
    rcases h2 with h2 | h2 <;> rw [h2] <;> simp
  · rw [Finset.mem_singleton.mp hp]
  · obtain ⟨t, ht, rfl, rfl⟩ := owedFrom_pos hg
    exact h t ht

theorem mayWait_bar (c : Dev nD) (k : ℕ) (hk : 2 ≤ k) :
    (levAts L lv : sProp 𝕄) ⊢ MayWait (c : Thread nD τ) (.reg barS) 0 (owedFrom c k) :=
  mayWait_drop c _ 0 k (Or.inl rfl) fun t ht => by
    rw [lv_bar]; exact pays_lv2 c t (List.drop_subset_drop_left _ hk ht)

theorem mayWait_send (c : Dev nD) (i : Fin 32) (ι : ℕ) (hι : ι = 0 ∨ ι = 1) (k : ℕ) (hk : 2 ≤ k) :
    (levAts L lv : sProp 𝕄) ⊢ MayWait (c : Thread nD τ) (.dma (sSem i)) ι (owedFrom c k) :=
  mayWait_drop c _ ι k hι fun t ht => by
    rw [lv_s]; exact lt_of_lt_of_le (by decide) (pays_lv2 c t (List.drop_subset_drop_left _ hk ht))

theorem mayWait_step1 (c : Dev nD) (rc cc : Fin 2) (e : Fin 8) (he : e.val < 2) (k : ℕ) (hk : 10 ≤ k) :
    (levAts L lv : sProp 𝕄) ⊢ MayWait (c : Thread nD τ) (.dma (rSem (ix rc cc e))) 0 (owedFrom c k) :=
  mayWait_drop c _ 0 k (Or.inl rfl) fun t ht => by
    rw [lv_rix, lvE, if_pos he, if_pos rfl]; exact pays_lv10 c t (List.drop_subset_drop_left _ hk ht)

theorem mayWait_step2 (c : Dev nD) (rc cc : Fin 2) (e : Fin 8) (he : 2 ≤ e.val ∧ e.val < 4) (k : ℕ) (hk : 18 ≤ k) :
    (levAts L lv : sProp 𝕄) ⊢ MayWait (c : Thread nD τ) (.dma (rSem (ix rc cc e))) 0 (owedFrom c k) :=
  mayWait_drop c _ 0 k (Or.inl rfl) fun t ht => by
    rw [lv_rix, lvE, if_neg (by omega), if_pos he.2]; exact pays_lv18 c t (List.drop_subset_drop_left _ hk ht)

theorem mayWait_step3 (c : Dev nD) (rc cc : Fin 2) (e : Fin 8) (he : 4 ≤ e.val ∧ e.val < 6) (k : ℕ) (hk : 34 ≤ k) :
    (levAts L lv : sProp 𝕄) ⊢ MayWait (c : Thread nD τ) (.dma (rSem (ix rc cc e))) 0 (owedFrom c k) :=
  mayWait_drop c _ 0 k (Or.inl rfl) fun t ht => by
    rw [lv_rix, lvE, if_neg (by omega), if_neg (by omega), if_pos he.2]
    exact pays_lv34 c t (List.drop_subset_drop_left _ hk ht)

theorem mayWait_stage (c : Dev nD) (q : DmaSem sig) (hq : q.val < 2) (O : CellTallies nD τ sig ℕ) (hO : O = O₀ c ∨ O = 0) :
    (levAts L lv : sProp 𝕄) ⊢ MayWait (c : Thread nD τ) (.dma q) 0 O := by
  rcases hO with rfl | rfl
  · refine mayWait_drop c _ 0 0 (Or.inl rfl) fun t ht => ?_
    have h0 : lv ((c : Thread nD τ), .dma q) 0 = 0 := by
      unfold lv ckLoc
      dsimp only
      rw [dif_neg (fun h => by omega), dif_neg (fun h => by omega)]
    rw [h0]; exact pays_lv0 c t (List.mem_of_mem_drop ht)
  · rw [MayWait_zero]; iintro -; iempintro

end Cert.KernelIdeal.AR

end
-- ==== Proof.Regroup.lean ====
-- The starting resources regrouped by unit (row group, strip pair).
import proofs.«900112_g7700000000000113_dist_ar_v7x_i4_i_m2048_n512_bf16_1_alg».proof.Proof.Ghost

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

def unitSlot : (Fin 2 × Fin 2) × Fin 8 ≃ Fin 32 where
  toFun x := ix x.1.1 x.1.2 x.2
  invFun i := ((iRc i, iCc i), iE i)
  left_inv x := by rcases x with ⟨⟨rc, cc⟩, e⟩; simp only [iRc_ix, iCc_ix, iE_ix]
  right_inv i := by revert i; decide

theorem bigSep_ix (Φ : Fin 32 → sProp 𝕄) :
    bigSep Finset.univ Φ = bigSep Finset.univ fun u : Fin 2 × Fin 2 => bigSep Finset.univ fun e : Fin 8 => Φ (ix u.1 u.2 e) :=
  (bigSep_univ_equiv unitSlot Φ).trans (bigSep_univ_prod fun x => Φ (unitSlot x))

theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem bigSep_units' (Φ : Fin 2 × Fin 2 → sProp 𝕄) :
    bigSep Finset.univ Φ = iprop(Φ (0, 0) ∗ Φ (0, 1) ∗ Φ (1, 0) ∗ Φ (1, 1)) :=
  bigSep_univ_eq_bigSepL [(0, 0), (0, 1), (1, 0), (1, 1)] (by decide) (by decide) Φ

theorem ix_mod8 (rc cc : Fin 2) (e : Fin 8) : (ix rc cc e).val % 8 = e.val := by revert rc cc e; decide

def cellNo : Unit ⊕ (Fin 32 ⊕ Fin 32) ≃ Fin 65 where
  toFun
    | .inl _ => ⟨0, by omega⟩
    | .inr (.inl i) => ⟨i.val + 1, by omega⟩
    | .inr (.inr i) => ⟨i.val + 33, by omega⟩
  invFun k :=
    if h : k.val = 0 then .inl ()
    else if h' : k.val < 33 then .inr (.inl ⟨k.val - 1, by omega⟩)
    else .inr (.inr ⟨k.val - 33, by omega⟩)
  left_inv x := by revert x; decide
  right_inv k := by revert k; decide

theorem bigSep_cells (Ψ : Fin 65 → sProp 𝕄) :
    bigSep Finset.univ Ψ = iprop(Ψ (cellNo (.inl ())) ∗ (bigSep Finset.univ fun i : Fin 32 => Ψ (cellNo (.inr (.inl i))))
      ∗ bigSep Finset.univ fun i : Fin 32 => Ψ (cellNo (.inr (.inr i)))) := by
  rw [bigSep_univ_equiv cellNo Ψ, bigSep_univ_sum, bigSep_univ_sum, Finset.univ_unique (α := Unit), bigSep_singleton]
  rfl

theorem kcell_bar (c : Dev nD) : kcell (c, cellNo (.inl ())) = barCell c := by
  have h0 : (cellNo (.inl ())).val = 0 := rfl
  unfold kcell csem
  rw [dif_pos h0]

theorem kcell_snd (c : Dev nD) (i : Fin 32) : kcell (c, cellNo (.inr (.inl i))) = sCell c i := by
  have hi := i.isLt
  have h0 : ¬ (cellNo (.inr (.inl i))).val = 0 := by show ¬ (i.val + 1 = 0); omega
  have h1 : (cellNo (.inr (.inl i))).val < 33 := by show i.val + 1 < 33; omega
  unfold kcell csem
  rw [dif_neg h0, dif_pos h1]
  show ((c : Thread nD τ), SemLoc.dma (sSem ⟨i.val + 1 - 1, _⟩)) = _
  congr 3

theorem kcell_rcv (c : Dev nD) (i : Fin 32) : kcell (c, cellNo (.inr (.inr i))) = rCell c i := by
  have hi := i.isLt
  have h0 : ¬ (cellNo (.inr (.inr i))).val = 0 := by show ¬ (i.val + 33 = 0); omega
  have h1 : ¬ (cellNo (.inr (.inr i))).val < 33 := by show ¬ (i.val + 33 < 33); omega
  unfold kcell csem
  rw [dif_neg h0, dif_neg h1]
  show ((c : Thread nD τ), SemLoc.dma (rSem ⟨i.val + 33 - 33, _⟩)) = _
  congr 3

theorem bigSep_sep8 {I : Type} (s : Finset I) (Φ₁ Φ₂ Φ₃ Φ₄ Φ₅ Φ₆ Φ₇ Φ₈ : I → sProp 𝕄) :
    bigSep s (fun i => iprop(Φ₁ i ∗ Φ₂ i ∗ Φ₃ i ∗ Φ₄ i ∗ Φ₅ i ∗ Φ₆ i ∗ Φ₇ i ∗ Φ₈ i))
      = iprop(bigSep s Φ₁ ∗ bigSep s Φ₂ ∗ bigSep s Φ₃ ∗ bigSep s Φ₄ ∗ bigSep s Φ₅ ∗ bigSep s Φ₆ ∗ bigSep s Φ₇ ∗ bigSep s Φ₈) := by
  rw [bigSep_sep', bigSep_sep', bigSep_sep', bigSep_sep', bigSep_sep', bigSep_sep', bigSep_sep']

def unitGhost (c : Dev nD) (u : Fin 2 × Fin 2) : sProp 𝕄 :=
  iprop((bigSep Finset.univ fun e : Fin 8 => atPos ER (sCell c (ix u.1 u.2 e)) 0 ∅ 0)
    ∗ (bigSep Finset.univ fun e : Fin 8 => atPos ER (rCell c (ix u.1 u.2 e)) 0 ∅ 0)
    ∗ (bigSep Finset.univ fun e : Fin 8 => dutyTok ER (sCell c (ix u.1 u.2 e)) 0 false)
    ∗ (dutyTok ER (sCell c (ix u.1 u.2 0)) 1 false ∗ dutyTok ER (sCell c (ix u.1 u.2 1)) 1 false)
    ∗ payToks1 c u ∗ payToks2 c u
    ∗ (bigSep Finset.univ fun e : Fin 8 => cred (tallyAt (rCell c (ix u.1 u.2 e)) 0 (if e.val < 2 then N1 else N2)))
    ∗ (cred (tallyAt (rCell c (ix u.1 u.2 0)) 1 N2) ∗ cred (tallyAt (rCell c (ix u.1 u.2 1)) 1 N2)))

theorem pos_cells (c : Dev nD) :
    (bigSep Finset.univ fun k : Fin 65 => atPos ER (kcell (c, k)) 0 ∅ 0 : sProp 𝕄)
      = iprop(atPos ER (barCell c) 0 ∅ 0
          ∗ (bigSep Finset.univ fun u : Fin 2 × Fin 2 => bigSep Finset.univ fun e : Fin 8 => atPos ER (sCell c (ix u.1 u.2 e)) 0 ∅ 0)
          ∗ bigSep Finset.univ fun u : Fin 2 × Fin 2 => bigSep Finset.univ fun e : Fin 8 => atPos ER (rCell c (ix u.1 u.2 e)) 0 ∅ 0) := by
  rw [bigSep_cells, kcell_bar]
  simp only [kcell_snd, kcell_rcv]
  rw [bigSep_ix (fun i => (atPos ER (sCell c i) 0 ∅ 0 : sProp 𝕄)), bigSep_ix (fun i => (atPos ER (rCell c i) 0 ∅ 0 : sProp 𝕄))]

theorem start_units (c : Dev nD) :
    iprop(linear (F := F) c ∗ creds (F := F) c)
      ⊢ iprop(atPos ER (barCell c) 0 ∅ 0 ∗ dutyTok ER (barCell (p1 c)) 0 false ∗ dutyTok ER (barCell (p2 c)) 0 true
          ∗ cred (tallyAt (barCell c) 0 2) ∗ bigSep Finset.univ (unitGhost (F := F) c)) := by
  have htok : (bigSep Finset.univ fun i : Fin 32 => dutyTok ER (sCell c i) 0 false : sProp 𝕄)
      = bigSep Finset.univ fun u : Fin 2 × Fin 2 => bigSep Finset.univ fun e : Fin 8 => dutyTok ER (sCell c (ix u.1 u.2 e)) 0 false :=
    bigSep_ix _
  have hcred : (bigSep Finset.univ fun i : Fin 32 => cred (tallyAt (rCell c i) 0 (if i.val % 8 < 2 then N1 else N2)) : sProp 𝕄)
      = bigSep Finset.univ fun u : Fin 2 × Fin 2 => bigSep Finset.univ fun e : Fin 8 =>
          cred (tallyAt (rCell c (ix u.1 u.2 e)) 0 (if e.val < 2 then N1 else N2)) := by
    rw [bigSep_ix]
    exact bigSep_congr fun u _ => bigSep_congr fun e _ => by rw [ix_mod8]
  have hR : bigSep Finset.univ (unitGhost (F := F) c) = iprop(
      (bigSep Finset.univ fun u : Fin 2 × Fin 2 => bigSep Finset.univ fun e : Fin 8 => atPos ER (sCell c (ix u.1 u.2 e)) 0 ∅ 0)
      ∗ (bigSep Finset.univ fun u : Fin 2 × Fin 2 => bigSep Finset.univ fun e : Fin 8 => atPos ER (rCell c (ix u.1 u.2 e)) 0 ∅ 0)
      ∗ (bigSep Finset.univ fun u : Fin 2 × Fin 2 => bigSep Finset.univ fun e : Fin 8 => dutyTok ER (sCell c (ix u.1 u.2 e)) 0 false)
      ∗ (bigSep Finset.univ fun u : Fin 2 × Fin 2 =>
          iprop(dutyTok ER (sCell c (ix u.1 u.2 0)) 1 false ∗ dutyTok ER (sCell c (ix u.1 u.2 1)) 1 false))
      ∗ (bigSep Finset.univ (payToks1 (F := F) c)) ∗ (bigSep Finset.univ (payToks2 (F := F) c))
      ∗ (bigSep Finset.univ fun u : Fin 2 × Fin 2 => bigSep Finset.univ fun e : Fin 8 =>
          cred (tallyAt (rCell c (ix u.1 u.2 e)) 0 (if e.val < 2 then N1 else N2)))
      ∗ (bigSep Finset.univ fun u : Fin 2 × Fin 2 =>
          iprop(cred (tallyAt (rCell c (ix u.1 u.2 0)) 1 N2) ∗ cred (tallyAt (rCell c (ix u.1 u.2 1)) 1 N2)))) :=
    bigSep_sep8 Finset.univ _ _ _ _ _ _ _ _
  unfold linear payToks sendToks creds
  rw [pos_cells, htok, hcred, hR]
  iintro ⟨⟨⟨Hb, Hs, Hr⟩, HT1, HT2, ⟨Hs0, Hs1⟩, Hp1, Hp2⟩, HC0, Hrc, Hrc1⟩
  iframe Hb HT1 HT2 HC0 Hs Hr Hs0 Hs1 Hp1 Hp2 Hrc Hrc1

theorem sems_units (c : Dev nD) :
    (bigSep Finset.univ fun u : Fin 2 × Fin 2 => bigSep Finset.univ fun e : Fin 8 =>
        iprop(semVal (sCell c (ix u.1 u.2 e)) 0 ∗ semVal (rCell c (ix u.1 u.2 e)) 0) : sProp 𝕄)
      ⊢ iprop((bigSep Finset.univ fun i : Fin 32 => semVal (sCell c i) 0) ∗ bigSep Finset.univ fun i : Fin 32 => semVal (rCell c i) 0) := by
  refine Entails.of_eq ?_
  rw [bigSep_ix (fun i => (semVal (sCell c i) 0 : sProp 𝕄)), bigSep_ix (fun i => (semVal (rCell c i) 0 : sProp 𝕄)),
    ← bigSep_sep']
  exact bigSep_congr fun u _ => bigSep_sep' _ _ _

end Cert.KernelIdeal.AR

end
-- ==== Proof.Blocks.lean ====
-- One phase of one unit at a symbolic device: what it consumes and what it hands on.
import proofs.«900112_g7700000000000113_dist_ar_v7x_i4_i_m2048_n512_bf16_1_alg».proof.Proof.Rules
import proofs.«900112_g7700000000000113_dist_ar_v7x_i4_i_m2048_n512_bf16_1_alg».proof.Proof.Levels
import proofs.«900112_g7700000000000113_dist_ar_v7x_i4_i_m2048_n512_bf16_1_alg».proof.Proof.Regroup

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

theorem owed_step (c : Dev nD) (k : ℕ) (g : GSem nD τ sig) (r n : ℕ) (h : (pays c)[k]? = some (g, r, n)) :
    owedFrom c k = owedFrom c (k + 1) + tallyAt g r n := owedFrom_succ c k (g, r, n) h

section B1
variable (K : Dev nD × Fin 65 → ℕ) (c : Dev nD) (rc cc : Fin 2)

theorem block1 (k : ℕ) (W : Waits sig ℕ)
    (h1 : (pays c)[k]? = some (rCell (p1 c) (ix rc cc 0), 0, N1)) (h2 : (pays c)[k + 1]? = some (rCell (p2 c) (ix rc cc 1), 0, N1))
    {oa ob : Fin 2 → ℕ} (hoa : oa = offX rc (ca cc) (fl (kA c))) (hob : ob = offX rc (cb cc) (fl (kB c)))
    {inba : ∀ a, oa a + S512x128.size a ≤ S2048x512.size a} {inbb : ∀ a, ob a + S512x128.size a ≤ S2048x512.size a}
    {n1 n2 : Dev nD} (hn1 : n1 = p1 c) (hn2 : n2 = p2 c)
    {hl1 : xM.view.LoadsAt (Rect.unit (s := S2048x512) oa S512x128.size inba)} {hl2 : xbsM.view.LoadsAt (RS4 rc (ca cc))}
    {hx1 : (xbsM.access (RS4 rc (ca cc))).Stores Finset.univ} {hm1 : (Finset.univ : Finset (RS4 rc (ca cc)).shape.Idx) = Finset.univ ∨ ∀ a, (RS4 rc (ca cc)).stride a = 1}
    {hl3 : xM.view.LoadsAt (Rect.unit (s := S2048x512) ob S512x128.size inbb)} {hl4 : xbsM.view.LoadsAt (RS4 rc (cb cc))}
    {hx2 : (xbsM.access (RS4 rc (cb cc))).Stores Finset.univ} {hm2 : (Finset.univ : Finset (RS4 rc (cb cc)).shape.Idx) = Finset.univ ∨ ∀ a, (RS4 rc (cb cc)).stride a = 1}
    {hsc1 : (s1aM.slice (RS2 rc cc) (fun _ => rfl) : Memref sig (Dev.tc n1 : Thread nD τ).2.kind .vmem _ _).view.ref.isScScratch = false}
    {hsrc1 : (xbsM.slice (RS4 rc (ca cc)) (fun _ => rfl)).view.WordExact} {hdst1 : (s1aM.slice (RS2 rc cc) (fun _ => rfl)).view.WordExact}
    {hsem1 : DmaTarget.Typed .vmem (.dma (rSem (ix rc cc 0))) (.remote (Dev.tc n1 : Thread nD τ) (s1aM.slice (RS2 rc cc) (fun _ => rfl)) (.dma (sSem (ix rc cc 0))) hsc1)}
    {hsc2 : (s1bM.slice (RS2 rc cc) (fun _ => rfl) : Memref sig (Dev.tc n2 : Thread nD τ).2.kind .vmem _ _).view.ref.isScScratch = false}
    {hsrc2 : (xbsM.slice (RS4 rc (cb cc)) (fun _ => rfl)).view.WordExact} {hdst2 : (s1bM.slice (RS2 rc cc) (fun _ => rfl)).view.WordExact}
    {hsem2 : DmaTarget.Typed .vmem (.dma (rSem (ix rc cc 1))) (.remote (Dev.tc n2 : Thread nD τ) (s1bM.slice (RS2 rc cc) (fun _ => rfl)) (.dma (sSem (ix rc cc 1))) hsc2)}
    {α : Type} {Q : α → sProp 𝕄} {kk : PUnit → Prog (TpuEff nD τ sig (Elt F) Λ₀ .tc) α} :
    iprop(records m ρ K ∗ xPts m ρ c ∗ owes (c : Thread nD τ) (owedFrom c k) W
        ∗ tileAny c xbsM (RS4 rc (ca cc)) ∗ tileAny c xbsM (RS4 rc (cb cc))
        ∗ dutyTok ER (sCell c (ix rc cc 0)) 0 false ∗ dutyTok ER (sCell c (ix rc cc 1)) 0 false
        ∗ dutyTok ER (rCell (p1 c) (ix rc cc 0)) 0 false ∗ dutyTok ER (rCell (p2 c) (ix rc cc 1)) 0 false
        ∗ tileAny (p1 c) s1aM (RS2 rc cc) ∗ tileAny (p2 c) s1bM (RS2 rc cc))
      ⊢ iprop(((xPts m ρ c ∗ owes (c : Thread nD τ) (owedFrom c (k + 2)) W
              ∗ cred (tallyAt (sCell c (ix rc cc 0)) 0 N1) ∗ cred (tallyAt (sCell c (ix rc cc 1)) 0 N1))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.load xM (Rect.unit (s := S2048x512) oa S512x128.size inba) hl1) fun v30 =>
             .op (.load xbsM (RS4 rc (ca cc)) hl2) fun _ =>
             .op (.store xbsM (RS4 rc (ca cc)) (k0_pay1 v30) Finset.univ hx1 hm1) fun _ =>
             .op (.load xM (Rect.unit (s := S2048x512) ob S512x128.size inbb) hl3) fun v38 =>
             .op (.load xbsM (RS4 rc (cb cc)) hl4) fun _ =>
             .op (.store xbsM (RS4 rc (cb cc)) (k0_pay1 v38) Finset.univ hx2 hm2) fun _ =>
             .op (.enqueueDma (xbsM.slice (RS4 rc (ca cc)) (fun _ => rfl))
                (.remote (Dev.tc n1 : Thread nD τ) (s1aM.slice (RS2 rc cc) (fun _ => rfl)) (.dma (sSem (ix rc cc 0))) hsc1)
                (.dma (rSem (ix rc cc 0))) hsrc1 hdst1 hsem1) fun _ =>
             .op (.enqueueDma (xbsM.slice (RS4 rc (cb cc)) (fun _ => rfl))
                (.remote (Dev.tc n2 : Thread nD τ) (s1bM.slice (RS2 rc cc) (fun _ => rfl)) (.dma (sSem (ix rc cc 1))) hsc2)
                (.dma (rSem (ix rc cc 1))) hsrc2 hdst2 hsem2) kk) Q) := by
  subst hoa hob hn1 hn2
  iintro ⟨#HR, Hx, HO, Ta, Tb, Ts0, Ts1, Tr0, Tr1, Da, Db⟩ Hk
  iapply (wp_load_x m ρ c rc (ca cc) (fl (kA c))) $$ Hx; iintro Hx
  iapply (wp_load_any c) $$ Ta; iintro %_v Ta
  iapply (wp_store_tile c) $$ Ta; iintro Ta
  iapply (wp_load_x m ρ c rc (cb cc) (fl (kB c))) $$ Hx; iintro Hx
  iapply (wp_load_any c) $$ Tb; iintro %_v' Tb
  iapply (wp_store_tile c) $$ Tb; iintro Tb
  iapply (wp_exch0 m ρ K c (p1 c) xbsM (offS4 rc (ca cc)) (inbS4 rc (ca cc)) s1aM (offS2 rc cc) (inbS2 rc cc) fullShare
      (xsA (xstg m ρ) c rc cc) (ix rc cc 0) (ix rc cc 0) N1 rfl
      (amount_s_big m ρ c rc cc 0 (by decide) false) (amount_r_big m ρ (p1 c) rc cc 0 (by decide) false)
      (owedFrom c (k + 1)) (owed_step c k _ _ _ h1) iprop(emp)
      (by rw [payload_s, sndPay_0_0])
      (by rw [payload_r, rcvPay_0_0, p1_p1]; exact (sep_emp (PROP := sProp 𝕄)).1)) $$ [HO Ta Ts0 Tr0 Da]
  · iframe HR; isplitl [Ta]; · iexact Ta
    iframe Da HO Ts0 Tr0
  iintro ⟨Hc0, HO⟩
  iapply (wp_exch0 m ρ K c (p2 c) xbsM (offS4 rc (cb cc)) (inbS4 rc (cb cc)) s1bM (offS2 rc cc) (inbS2 rc cc) fullShare
      (xsB (xstg m ρ) c rc cc) (ix rc cc 1) (ix rc cc 1) N1 rfl
      (amount_s_big m ρ c rc cc 1 (by decide) false) (amount_r_big m ρ (p2 c) rc cc 1 (by decide) false)
      (owedFrom c (k + 1 + 1)) (owed_step c (k + 1) _ _ _ h2) iprop(emp)
      (by rw [payload_s, sndPay_1_0])
      (by rw [payload_r, rcvPay_1_0, p2_p2]; exact (sep_emp (PROP := sProp 𝕄)).1)) $$ [HO Tb Ts1 Tr1 Db]
  · iframe HR; isplitl [Tb]; · iexact Tb
    iframe Db HO Ts1 Tr1
  iintro ⟨Hc1, HO⟩
  iapply Hk
  iframe Hx HO Hc0 Hc1

end B1

section B2
variable (K : Dev nD × Fin 65 → ℕ) (c : Dev nD) (rc cc : Fin 2)

theorem tile_quarters (M : Memref sig .tc .vmem S1024x256 .bf16) (h : Fin 2) (V : Vec F S512x128 .bf16) :
    (tile c M (RS2 rc cc) V : sProp 𝕄) ⊢ iprop(tile c M (RH rc cc h) (half h V) ∗ tile c M (RH rc cc (fl h)) (half (fl h) V)) := by
  refine (tile_halves c M rc cc V).1.trans ?_
  revert h
  intro h
  fin_cases h
  · exact BI.Entails.refl _
  · exact sep_comm.1

theorem block2 (k : ℕ) (hk : 10 ≤ k) (W : Waits sig ℕ)
    (h1 : (pays c)[k]? = some (rCell (p2 c) (ix rc cc 2), 0, N2)) (h2 : (pays c)[k + 1]? = some (rCell (p1 c) (ix rc cc 3), 0, N2))
    {srca dsta : Memref sig .tc .vmem S512x128 .bf16} {hsrca : srca.view.WordExact} {hdsta : dsta.view.WordExact}
    {srcb dstb : Memref sig .tc .vmem S512x128 .bf16} {hsrcb : srcb.view.WordExact} {hdstb : dstb.view.WordExact}
    {oa ob osa osb : Fin 2 → ℕ} (hoa : oa = offX rc (ca cc) (kA c)) (hob : ob = offX rc (cb cc) (kB c))
    (hosa : osa = offH rc cc (fl (k2A c))) (hosb : osb = offH rc cc (fl (k2B c)))
    {inba : ∀ a, oa a + S512x128.size a ≤ S2048x512.size a} {inbb : ∀ a, ob a + S512x128.size a ≤ S2048x512.size a}
    {inbsa : ∀ a, osa a + S256x128.size a ≤ S1024x256.size a} {inbsb : ∀ a, osb a + S256x128.size a ≤ S1024x256.size a}
    {n1 n2 : Dev nD} (hn1 : n1 = p2 c) (hn2 : n2 = p1 c)
    {hl1 : xM.view.LoadsAt (Rect.unit (s := S2048x512) oa S512x128.size inba)} {hl2 : s1aM.view.LoadsAt (RS2 rc cc)} {hl3 : r1aM.view.LoadsAt (RS2 rc cc)}
    {hx1 : (r1aM.access (RS2 rc cc)).Stores Finset.univ} {hm1 : (Finset.univ : Finset (RS2 rc cc).shape.Idx) = Finset.univ ∨ ∀ a, (RS2 rc cc).stride a = 1}
    {hl4 : xM.view.LoadsAt (Rect.unit (s := S2048x512) ob S512x128.size inbb)} {hl5 : s1bM.view.LoadsAt (RS2 rc cc)} {hl6 : r1bM.view.LoadsAt (RS2 rc cc)}
    {hx2 : (r1bM.access (RS2 rc cc)).Stores Finset.univ} {hm2 : (Finset.univ : Finset (RS2 rc cc).shape.Idx) = Finset.univ ∨ ∀ a, (RS2 rc cc).stride a = 1}
    {hsc1 : (s2aM.slice (RQ rc cc) (fun _ => rfl) : Memref sig (Dev.tc n1 : Thread nD τ).2.kind .vmem _ _).view.ref.isScScratch = false}
    {hsrc1 : (r1aM.slice (Rect.unit (s := S1024x256) osa S256x128.size inbsa) (fun _ => rfl)).view.WordExact} {hdst1 : (s2aM.slice (RQ rc cc) (fun _ => rfl)).view.WordExact}
    {hsem1 : DmaTarget.Typed .vmem (.dma (rSem (ix rc cc 2))) (.remote (Dev.tc n1 : Thread nD τ) (s2aM.slice (RQ rc cc) (fun _ => rfl)) (.dma (sSem (ix rc cc 2))) hsc1)}
    {hsc2 : (s2bM.slice (RQ rc cc) (fun _ => rfl) : Memref sig (Dev.tc n2 : Thread nD τ).2.kind .vmem _ _).view.ref.isScScratch = false}
    {hsrc2 : (r1bM.slice (Rect.unit (s := S1024x256) osb S256x128.size inbsb) (fun _ => rfl)).view.WordExact} {hdst2 : (s2bM.slice (RQ rc cc) (fun _ => rfl)).view.WordExact}
    {hsem2 : DmaTarget.Typed .vmem (.dma (rSem (ix rc cc 3))) (.remote (Dev.tc n2 : Thread nD τ) (s2bM.slice (RQ rc cc) (fun _ => rfl)) (.dma (sSem (ix rc cc 3))) hsc2)}
    {α : Type} {Q : α → sProp 𝕄} {kk : PUnit → Prog (TpuEff nD τ sig (Elt F) Λ₀ .tc) α} :
    iprop(records m ρ K ∗ levAts L lv ∗ xPts m ρ c ∗ owes (c : Thread nD τ) (owedFrom c k) W
        ∗ (atPos ER (rCell c (ix rc cc 0)) 0 ∅ 0 ∗ cred (tallyAt (rCell c (ix rc cc 0)) 0 N1))
        ∗ (atPos ER (rCell c (ix rc cc 1)) 0 ∅ 0 ∗ cred (tallyAt (rCell c (ix rc cc 1)) 0 N1))
        ∗ tileAny c r1aM (RS2 rc cc) ∗ tileAny c r1bM (RS2 rc cc)
        ∗ dutyTok ER (sCell c (ix rc cc 2)) 0 false ∗ dutyTok ER (sCell c (ix rc cc 3)) 0 false
        ∗ dutyTok ER (rCell (p2 c) (ix rc cc 2)) 0 false ∗ dutyTok ER (rCell (p1 c) (ix rc cc 3)) 0 false
        ∗ tileAny (p2 c) s2aM (RQ rc cc) ∗ tileAny (p1 c) s2bM (RQ rc cc))
      ⊢ iprop(((xPts m ρ c ∗ (∃ W', owes (c : Thread nD τ) (owedFrom c (k + 2)) W')
              ∗ (atPos ER (rCell c (ix rc cc 0)) 1 ∅ 0 ∗ reached ER (rCell c (ix rc cc 0)) 1)
              ∗ (atPos ER (rCell c (ix rc cc 1)) 1 ∅ 0 ∗ reached ER (rCell c (ix rc cc 1)) 1)
              ∗ tileAny c s1aM (RS2 rc cc) ∗ tileAny c s1bM (RS2 rc cc)
              ∗ tile c r1aM (RH rc cc (k2A c)) (half (k2A c) (redA (xstg m ρ) c rc cc))
              ∗ tile c r1bM (RH rc cc (k2B c)) (half (k2B c) (redB (xstg m ρ) c rc cc))
              ∗ cred (tallyAt (sCell c (ix rc cc 2)) 0 N2) ∗ cred (tallyAt (sCell c (ix rc cc 3)) 0 N2))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.waitDma2 (rSem (ix rc cc 0)) srca dsta hsrca hdsta) fun _ =>
             .op (.waitDma2 (rSem (ix rc cc 1)) srcb dstb hsrcb hdstb) fun _ =>
             .op (.load xM (Rect.unit (s := S2048x512) oa S512x128.size inba) hl1) fun v170 =>
             .op (.load s1aM (RS2 rc cc) hl2) fun v172 =>
             .op (.load r1aM (RS2 rc cc) hl3) fun _ =>
             .op (.store r1aM (RS2 rc cc) (k0_pay9 v170 v172) Finset.univ hx1 hm1) fun _ =>
             .op (.load xM (Rect.unit (s := S2048x512) ob S512x128.size inbb) hl4) fun v181 =>
             .op (.load s1bM (RS2 rc cc) hl5) fun v183 =>
             .op (.load r1bM (RS2 rc cc) hl6) fun _ =>
             .op (.store r1bM (RS2 rc cc) (k0_pay9 v181 v183) Finset.univ hx2 hm2) fun _ =>
             .op (.enqueueDma (r1aM.slice (Rect.unit (s := S1024x256) osa S256x128.size inbsa) (fun _ => rfl))
                (.remote (Dev.tc n1 : Thread nD τ) (s2aM.slice (RQ rc cc) (fun _ => rfl)) (.dma (sSem (ix rc cc 2))) hsc1)
                (.dma (rSem (ix rc cc 2))) hsrc1 hdst1 hsem1) fun _ =>
             .op (.enqueueDma (r1bM.slice (Rect.unit (s := S1024x256) osb S256x128.size inbsb) (fun _ => rfl))
                (.remote (Dev.tc n2 : Thread nD τ) (s2bM.slice (RQ rc cc) (fun _ => rfl)) (.dma (sSem (ix rc cc 3))) hsc2)
                (.dma (rSem (ix rc cc 3))) hsrc2 hdst2 hsem2) kk) Q) := by
  subst hoa hob hosa hosb hn1 hn2
  iintro ⟨#HR, #Hlev, Hx, HO, ⟨Ha0, Hc0⟩, ⟨Ha1, Hc1⟩, Ra, Rb, Ts2, Ts3, Tr2, Tr3, Da, Db⟩ Hk
  iapply (wp_wait_recv m ρ K c (ix rc cc 0) 0 N1 (duties_r0 m ρ c _) (expect_r_big m ρ c rc cc 0 (by decide)) (mayWait_step1 c rc cc 0 (by decide) k hk) rfl) $$ [HO Ha0 Hc0]
  · iframe HR Hlev Hc0 HO Ha0
  iintro ⟨HO, Ha0, #Hr0, P0⟩
  iapply (wp_wait_recv m ρ K c (ix rc cc 1) 0 N1 (duties_r0 m ρ c _) (expect_r_big m ρ c rc cc 1 (by decide)) (mayWait_step1 c rc cc 1 (by decide) k hk) rfl) $$ [HO Ha1 Hc1]
  · iframe HR Hlev Hc1 HO Ha1
  iintro ⟨HO, Ha1, #Hr1, P1⟩
  ihave Q0 := (Entails.of_eq (rcvPay_0_0 (xstg m ρ) c rc cc)) $$ P0
  ihave Q1 := (Entails.of_eq (rcvPay_1_0 (xstg m ρ) c rc cc)) $$ P1
  iapply (wp_load_x m ρ c rc (ca cc) (kA c)) $$ Hx; iintro Hx
  iapply (wp_load_tile c (xsA (xstg m ρ) (p1 c) rc cc)) $$ Q0; iintro P0
  iapply (wp_load_any c) $$ Ra; iintro %_v Ra
  iapply (wp_store_tile c) $$ Ra; iintro Ra
  iapply (wp_load_x m ρ c rc (cb cc) (kB c)) $$ Hx; iintro Hx
  iapply (wp_load_tile c (xsB (xstg m ρ) (p2 c) rc cc)) $$ Q1; iintro P1
  iapply (wp_load_any c) $$ Rb; iintro %_v' Rb
  iapply (wp_store_tile c) $$ Rb; iintro Rb
  ihave Ra0 := (show (tile c r1aM (RS2 rc cc) (k0_pay9 (xt (xstg m ρ) c rc (ca cc) (kA c)) (xsA (xstg m ρ) (p1 c) rc cc)) : sProp 𝕄)
      ⊢ tile c r1aM (RS2 rc cc) (redA (xstg m ρ) c rc cc) from Entails.of_eq rfl) $$ Ra
  ihave Ra' := (tile_quarters c rc cc r1aM (k2A c) (redA (xstg m ρ) c rc cc)) $$ Ra0
  icases Ra' with ⟨Rak, Ras⟩
  ihave Rb0 := (show (tile c r1bM (RS2 rc cc) (k0_pay9 (xt (xstg m ρ) c rc (cb cc) (kB c)) (xsB (xstg m ρ) (p2 c) rc cc)) : sProp 𝕄)
      ⊢ tile c r1bM (RS2 rc cc) (redB (xstg m ρ) c rc cc) from Entails.of_eq rfl) $$ Rb
  ihave Rb' := (tile_quarters c rc cc r1bM (k2B c) (redB (xstg m ρ) c rc cc)) $$ Rb0
  icases Rb' with ⟨Rbk, Rbs⟩
  iapply (wp_exch0 m ρ K c (p2 c) r1aM (offH rc cc (fl (k2A c))) (inbH rc cc (fl (k2A c))) s2aM (offQ rc cc) (inbQ rc cc) fullShare
      (half (fl (k2A c)) (redA (xstg m ρ) c rc cc)) (ix rc cc 2) (ix rc cc 2) N2 rfl
      (amount_s_small0 m ρ c rc cc 2 (by decide) false) (amount_r_small0 m ρ (p2 c) rc cc 2 (by decide) false)
      (owedFrom c (k + 1)) (owed_step c k _ _ _ h1) iprop(emp)
      (by rw [payload_s, sndPay_2])
      (by rw [payload_r, rcvPay_2, p2_p2, k2A_p2]; exact (sep_emp (PROP := sProp 𝕄)).1)) $$ [HO Ras Ts2 Tr2 Da]
  · iframe HR Ras Da HO Ts2 Tr2
  iintro ⟨Hcs2, HO⟩
  iapply (wp_exch0 m ρ K c (p1 c) r1bM (offH rc cc (fl (k2B c))) (inbH rc cc (fl (k2B c))) s2bM (offQ rc cc) (inbQ rc cc) fullShare
      (half (fl (k2B c)) (redB (xstg m ρ) c rc cc)) (ix rc cc 3) (ix rc cc 3) N2 rfl
      (amount_s_small0 m ρ c rc cc 3 (by decide) false) (amount_r_small0 m ρ (p1 c) rc cc 3 (by decide) false)
      (owedFrom c (k + 1 + 1)) (owed_step c (k + 1) _ _ _ h2) iprop(emp)
      (by rw [payload_s, sndPay_3])
      (by rw [payload_r, rcvPay_3, p1_p1, k2B_p1]; exact (sep_emp (PROP := sProp 𝕄)).1)) $$ [HO Rbs Ts3 Tr3 Db]
  · iframe HR Rbs Db HO Ts3 Tr3
  iintro ⟨Hcs3, HO⟩
  iapply Hk
  isplitl [Hx]; · iexact Hx
  isplitl [HO]; · iexists _; iexact HO
  isplitl [Ha0]
  · iframe Ha0 Hr0
  isplitl [Ha1]
  · iframe Ha1 Hr1
  isplitl [P0]; · iapply (tile_any c) $$ P0
  isplitl [P1]; · iapply (tile_any c) $$ P1
  iframe Rak Rbk Hcs2 Hcs3

end B2

section B3
variable (K : Dev nD × Fin 65 → ℕ) (c : Dev nD) (rc cc : Fin 2)

theorem block3 (k : ℕ) (hk : 18 ≤ k) (W : Waits sig ℕ)
    (h1 : (pays c)[k]? = some (rCell (p2 c) (ix rc cc 4), 0, N2)) (h2 : (pays c)[k + 1]? = some (rCell (p1 c) (ix rc cc 5), 0, N2))
    (h3 : (pays c)[k + 2]? = some (rCell (p1 c) (ix rc cc 6), 0, N2)) (h4 : (pays c)[k + 3]? = some (rCell (p2 c) (ix rc cc 7), 0, N2))
    {srca dsta : Memref sig .tc .vmem S256x128 .bf16} {hsrca : srca.view.WordExact} {hdsta : dsta.view.WordExact}
    {srcb dstb : Memref sig .tc .vmem S256x128 .bf16} {hsrcb : srcb.view.WordExact} {hdstb : dstb.view.WordExact}
    {ora orb ooa oob opa opb : Fin 2 → ℕ} (hora : ora = offH rc cc (k2A c)) (horb : orb = offH rc cc (k2B c))
    (hooa : ooa = offO rc (ca cc) (qA c)) (hoob : oob = offO rc (cb cc) (qB c)) (hopa : opa = offO rc (ca cc) (qA c)) (hopb : opb = offO rc (cb cc) (qB c))
    {inbra : ∀ a, ora a + S256x128.size a ≤ S1024x256.size a} {inbrb : ∀ a, orb a + S256x128.size a ≤ S1024x256.size a}
    {inboa : ∀ a, ooa a + S256x128.size a ≤ S2048x512.size a} {inbob : ∀ a, oob a + S256x128.size a ≤ S2048x512.size a}
    {inbpa : ∀ a, opa a + S256x128.size a ≤ S2048x512.size a} {inbpb : ∀ a, opb a + S256x128.size a ≤ S2048x512.size a}
    {n4 n5 n6 n7 : Dev nD} (hn4 : n4 = p2 c) (hn5 : n5 = p1 c) (hn6 : n6 = p1 c) (hn7 : n7 = p2 c)
    {hl1 : r1aM.view.LoadsAt (Rect.unit (s := S1024x256) ora S256x128.size inbra)} {hl2 : s2aM.view.LoadsAt (RQ rc cc)} {hl3 : oM.view.LoadsAt (Rect.unit (s := S2048x512) ooa S256x128.size inboa)}
    {hx1 : (oM.access (Rect.unit (s := S2048x512) ooa S256x128.size inboa)).Stores Finset.univ} {hm1 : (Finset.univ : Finset (Rect.unit (s := S2048x512) ooa S256x128.size inboa).shape.Idx) = Finset.univ ∨ ∀ a, (Rect.unit (s := S2048x512) ooa S256x128.size inboa).stride a = 1}
    {hl4 : r1bM.view.LoadsAt (Rect.unit (s := S1024x256) orb S256x128.size inbrb)} {hl5 : s2bM.view.LoadsAt (RQ rc cc)} {hl6 : oM.view.LoadsAt (Rect.unit (s := S2048x512) oob S256x128.size inbob)}
    {hx2 : (oM.access (Rect.unit (s := S2048x512) oob S256x128.size inbob)).Stores Finset.univ} {hm2 : (Finset.univ : Finset (Rect.unit (s := S2048x512) oob S256x128.size inbob).shape.Idx) = Finset.univ ∨ ∀ a, (Rect.unit (s := S2048x512) oob S256x128.size inbob).stride a = 1}
    {hsc1 : (oM.slice (Rect.unit (s := S2048x512) opa S256x128.size inbpa) (fun _ => rfl) : Memref sig (Dev.tc n4 : Thread nD τ).2.kind .vmem _ _).view.ref.isScScratch = false}
    {hsrc1 : (oM.slice (Rect.unit (s := S2048x512) opa S256x128.size inbpa) (fun _ => rfl)).view.WordExact} {hdst1 : (oM.slice (Rect.unit (s := S2048x512) opa S256x128.size inbpa) (fun _ => rfl)).view.WordExact}
    {hsem1 : DmaTarget.Typed .vmem (.dma (rSem (ix rc cc 4))) (.remote (Dev.tc n4 : Thread nD τ) (oM.slice (Rect.unit (s := S2048x512) opa S256x128.size inbpa) (fun _ => rfl)) (.dma (sSem (ix rc cc 4))) hsc1)}
    {hsc2 : (oM.slice (Rect.unit (s := S2048x512) opb S256x128.size inbpb) (fun _ => rfl) : Memref sig (Dev.tc n5 : Thread nD τ).2.kind .vmem _ _).view.ref.isScScratch = false}
    {hsrc2 : (oM.slice (Rect.unit (s := S2048x512) opb S256x128.size inbpb) (fun _ => rfl)).view.WordExact} {hdst2 : (oM.slice (Rect.unit (s := S2048x512) opb S256x128.size inbpb) (fun _ => rfl)).view.WordExact}
    {hsem2 : DmaTarget.Typed .vmem (.dma (rSem (ix rc cc 5))) (.remote (Dev.tc n5 : Thread nD τ) (oM.slice (Rect.unit (s := S2048x512) opb S256x128.size inbpb) (fun _ => rfl)) (.dma (sSem (ix rc cc 5))) hsc2)}
    {hsc3 : (oM.slice (Rect.unit (s := S2048x512) opa S256x128.size inbpa) (fun _ => rfl) : Memref sig (Dev.tc n6 : Thread nD τ).2.kind .vmem _ _).view.ref.isScScratch = false}
    {hsrc3 : (oM.slice (Rect.unit (s := S2048x512) opa S256x128.size inbpa) (fun _ => rfl)).view.WordExact} {hdst3 : (oM.slice (Rect.unit (s := S2048x512) opa S256x128.size inbpa) (fun _ => rfl)).view.WordExact}
    {hsem3 : DmaTarget.Typed .vmem (.dma (rSem (ix rc cc 6))) (.remote (Dev.tc n6 : Thread nD τ) (oM.slice (Rect.unit (s := S2048x512) opa S256x128.size inbpa) (fun _ => rfl)) (.dma (sSem (ix rc cc 6))) hsc3)}
    {hsc4 : (oM.slice (Rect.unit (s := S2048x512) opb S256x128.size inbpb) (fun _ => rfl) : Memref sig (Dev.tc n7 : Thread nD τ).2.kind .vmem _ _).view.ref.isScScratch = false}
    {hsrc4 : (oM.slice (Rect.unit (s := S2048x512) opb S256x128.size inbpb) (fun _ => rfl)).view.WordExact} {hdst4 : (oM.slice (Rect.unit (s := S2048x512) opb S256x128.size inbpb) (fun _ => rfl)).view.WordExact}
    {hsem4 : DmaTarget.Typed .vmem (.dma (rSem (ix rc cc 7))) (.remote (Dev.tc n7 : Thread nD τ) (oM.slice (Rect.unit (s := S2048x512) opb S256x128.size inbpb) (fun _ => rfl)) (.dma (sSem (ix rc cc 7))) hsc4)}
    {α : Type} {Q : α → sProp 𝕄} {kk : PUnit → Prog (TpuEff nD τ sig (Elt F) Λ₀ .tc) α} :
    iprop(records m ρ K ∗ levAts L lv ∗ reached ER (rCell c (ix rc cc 0)) 1 ∗ reached ER (rCell c (ix rc cc 1)) 1
        ∗ owes (c : Thread nD τ) (owedFrom c k) W
        ∗ (atPos ER (rCell c (ix rc cc 2)) 0 ∅ 0 ∗ cred (tallyAt (rCell c (ix rc cc 2)) 0 N2))
        ∗ (atPos ER (rCell c (ix rc cc 3)) 0 ∅ 0 ∗ cred (tallyAt (rCell c (ix rc cc 3)) 0 N2))
        ∗ tile c r1aM (RH rc cc (k2A c)) (half (k2A c) (redA (xstg m ρ) c rc cc))
        ∗ tile c r1bM (RH rc cc (k2B c)) (half (k2B c) (redB (xstg m ρ) c rc cc))
        ∗ tileAny c oM (RO rc (ca cc) (qA c)) ∗ tileAny c oM (RO rc (cb cc) (qB c))
        ∗ (dutyTok ER (sCell c (ix rc cc 4)) 0 false ∗ dutyTok ER (sCell c (ix rc cc 5)) 0 false
            ∗ dutyTok ER (sCell c (ix rc cc 6)) 0 false ∗ dutyTok ER (sCell c (ix rc cc 7)) 0 false)
        ∗ (dutyTok ER (rCell (p2 c) (ix rc cc 4)) 0 false ∗ dutyTok ER (rCell (p1 c) (ix rc cc 5)) 0 false
            ∗ dutyTok ER (rCell (p1 c) (ix rc cc 6)) 0 false ∗ dutyTok ER (rCell (p2 c) (ix rc cc 7)) 0 false)
        ∗ (tileAny (p2 c) oM (RO rc (ca cc) (qA c)) ∗ tileAny (p1 c) oM (RO rc (cb cc) (qB c))
            ∗ tileAny (p1 c) oM (RO rc (ca cc) (qA c)) ∗ tileAny (p2 c) oM (RO rc (cb cc) (qB c))))
      ⊢ iprop((((∃ W', owes (c : Thread nD τ) (owedFrom c (k + 4)) W')
              ∗ atPos ER (rCell c (ix rc cc 2)) 1 ∅ 0 ∗ atPos ER (rCell c (ix rc cc 3)) 1 ∅ 0
              ∗ tileAny c s2aM (RQ rc cc) ∗ tileAny c s2bM (RQ rc cc)
              ∗ tileAny c r1aM (RH rc cc (k2A c)) ∗ tileAny c r1bM (RH rc cc (k2B c))
              ∗ (cred (tallyAt (sCell c (ix rc cc 4)) 0 N2) ∗ cred (tallyAt (sCell c (ix rc cc 5)) 0 N2)
                  ∗ cred (tallyAt (sCell c (ix rc cc 6)) 0 N2) ∗ cred (tallyAt (sCell c (ix rc cc 7)) 0 N2)))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.waitDma2 (rSem (ix rc cc 2)) srca dsta hsrca hdsta) fun _ =>
             .op (.waitDma2 (rSem (ix rc cc 3)) srcb dstb hsrcb hdstb) fun _ =>
             .op (.load r1aM (Rect.unit (s := S1024x256) ora S256x128.size inbra) hl1) fun v378 =>
             .op (.load s2aM (RQ rc cc) hl2) fun v380 =>
             .op (.load oM (Rect.unit (s := S2048x512) ooa S256x128.size inboa) hl3) fun _ =>
             .op (.store oM (Rect.unit (s := S2048x512) ooa S256x128.size inboa) (k0_pay18 v378 v380) Finset.univ hx1 hm1) fun _ =>
             .op (.load r1bM (Rect.unit (s := S1024x256) orb S256x128.size inbrb) hl4) fun v389 =>
             .op (.load s2bM (RQ rc cc) hl5) fun v391 =>
             .op (.load oM (Rect.unit (s := S2048x512) oob S256x128.size inbob) hl6) fun _ =>
             .op (.store oM (Rect.unit (s := S2048x512) oob S256x128.size inbob) (k0_pay18 v389 v391) Finset.univ hx2 hm2) fun _ =>
             .op (.enqueueDma (oM.slice (Rect.unit (s := S2048x512) opa S256x128.size inbpa) (fun _ => rfl))
                (.remote (Dev.tc n4 : Thread nD τ) (oM.slice (Rect.unit (s := S2048x512) opa S256x128.size inbpa) (fun _ => rfl)) (.dma (sSem (ix rc cc 4))) hsc1)
                (.dma (rSem (ix rc cc 4))) hsrc1 hdst1 hsem1) fun _ =>
             .op (.enqueueDma (oM.slice (Rect.unit (s := S2048x512) opb S256x128.size inbpb) (fun _ => rfl))
                (.remote (Dev.tc n5 : Thread nD τ) (oM.slice (Rect.unit (s := S2048x512) opb S256x128.size inbpb) (fun _ => rfl)) (.dma (sSem (ix rc cc 5))) hsc2)
                (.dma (rSem (ix rc cc 5))) hsrc2 hdst2 hsem2) fun _ =>
             .op (.enqueueDma (oM.slice (Rect.unit (s := S2048x512) opa S256x128.size inbpa) (fun _ => rfl))
                (.remote (Dev.tc n6 : Thread nD τ) (oM.slice (Rect.unit (s := S2048x512) opa S256x128.size inbpa) (fun _ => rfl)) (.dma (sSem (ix rc cc 6))) hsc3)
                (.dma (rSem (ix rc cc 6))) hsrc3 hdst3 hsem3) fun _ =>
             .op (.enqueueDma (oM.slice (Rect.unit (s := S2048x512) opb S256x128.size inbpb) (fun _ => rfl))
                (.remote (Dev.tc n7 : Thread nD τ) (oM.slice (Rect.unit (s := S2048x512) opb S256x128.size inbpb) (fun _ => rfl)) (.dma (sSem (ix rc cc 7))) hsc4)
                (.dma (rSem (ix rc cc 7))) hsrc4 hdst4 hsem4) kk) Q) := by
  subst hora horb hooa hoob hopa hopb hn4 hn5 hn6 hn7
  iintro ⟨#HR, #Hlev, #Hr0, #Hr1, HO, ⟨Ha2, Hc2⟩, ⟨Ha3, Hc3⟩, Rak, Rbk, Oa, Ob, ⟨Ts4, Ts5, Ts6, Ts7⟩, ⟨Tr4, Tr5, Tr6, Tr7⟩, ⟨D4, D5, D6, D7⟩⟩ Hk
  iapply (wp_wait_recv m ρ K c (ix rc cc 2) 0 N2 (duties_r0 m ρ c _) (expect_r_small0 m ρ c rc cc 2 (by decide)) (mayWait_step2 c rc cc 2 (by decide) k hk) rfl) $$ [HO Ha2 Hc2]
  · iframe HR Hlev Hc2 HO Ha2
  iintro ⟨HO, Ha2, -, P2⟩
  iapply (wp_wait_recv m ρ K c (ix rc cc 3) 0 N2 (duties_r0 m ρ c _) (expect_r_small0 m ρ c rc cc 3 (by decide)) (mayWait_step2 c rc cc 3 (by decide) k hk) rfl) $$ [HO Ha3 Hc3]
  · iframe HR Hlev Hc3 HO Ha3
  iintro ⟨HO, Ha3, -, P3⟩
  ihave Q2 := (Entails.of_eq (rcvPay_2 (xstg m ρ) c rc cc 0)) $$ P2
  ihave Q3 := (Entails.of_eq (rcvPay_3 (xstg m ρ) c rc cc 0)) $$ P3
  iapply (wp_load_tile c (half (k2A c) (redA (xstg m ρ) c rc cc))) $$ Rak; iintro Rak
  iapply (wp_load_tile c (half (k2A c) (redA (xstg m ρ) (p2 c) rc cc))) $$ Q2; iintro P2
  iapply (wp_load_any c) $$ Oa; iintro %_v Oa
  iapply (wp_store_tile c) $$ Oa; iintro Oa
  iapply (wp_load_tile c (half (k2B c) (redB (xstg m ρ) c rc cc))) $$ Rbk; iintro Rbk
  iapply (wp_load_tile c (half (k2B c) (redB (xstg m ρ) (p1 c) rc cc))) $$ Q3; iintro P3
  iapply (wp_load_any c) $$ Ob; iintro %_v' Ob
  iapply (wp_store_tile c) $$ Ob; iintro Ob
  ihave Oa0 := (show (tile c oM (RO rc (ca cc) (qA c)) (k0_pay18 (half (k2A c) (redA (xstg m ρ) c rc cc)) (half (k2A c) (redA (xstg m ρ) (p2 c) rc cc))) : sProp 𝕄)
      ⊢ tile c oM (RO rc (ca cc) (qA c)) (outA (xstg m ρ) c rc cc) from Entails.of_eq rfl) $$ Oa
  ihave Oa' := (tile_shares c oM (RO rc (ca cc) (qA c)) (outA (xstg m ρ) c rc cc)).1 $$ Oa0
  icases Oa' with ⟨OaL, OaR⟩
  ihave Ob0 := (show (tile c oM (RO rc (cb cc) (qB c)) (k0_pay18 (half (k2B c) (redB (xstg m ρ) c rc cc)) (half (k2B c) (redB (xstg m ρ) (p1 c) rc cc))) : sProp 𝕄)
      ⊢ tile c oM (RO rc (cb cc) (qB c)) (outB (xstg m ρ) c rc cc) from Entails.of_eq rfl) $$ Ob
  ihave Ob' := (tile_shares c oM (RO rc (cb cc) (qB c)) (outB (xstg m ρ) c rc cc)).1 $$ Ob0
  icases Ob' with ⟨ObL, ObR⟩
  iapply (wp_exch0 m ρ K c (p2 c) oM (offO rc (ca cc) (qA c)) (inbO rc (ca cc) (qA c)) oM (offO rc (ca cc) (qA c)) (inbO rc (ca cc) (qA c)) fullShare.left
      (outA (xstg m ρ) c rc cc) (ix rc cc 4) (ix rc cc 4) N2 rfl
      (amount_s_small0 m ρ c rc cc 4 (by decide) false) (amount_r_small0 m ρ (p2 c) rc cc 4 (by decide) false)
      (owedFrom c (k + 1)) (owed_step c k _ _ _ h1) (reached ER (rCell c (ix rc cc 1)) 1)
      (by rw [payload_s, sndPay_4])
      (by rw [payload_r, rcvPay_4, p2_p2])) $$ [HO OaL Ts4 Tr4 D4]
  · iframe HR OaL D4 Hr1 HO Ts4 Tr4
  iintro ⟨Hcs4, HO⟩
  iapply (wp_exch0 m ρ K c (p1 c) oM (offO rc (cb cc) (qB c)) (inbO rc (cb cc) (qB c)) oM (offO rc (cb cc) (qB c)) (inbO rc (cb cc) (qB c)) fullShare.left
      (outB (xstg m ρ) c rc cc) (ix rc cc 5) (ix rc cc 5) N2 rfl
      (amount_s_small0 m ρ c rc cc 5 (by decide) false) (amount_r_small0 m ρ (p1 c) rc cc 5 (by decide) false)
      (owedFrom c (k + 1 + 1)) (owed_step c (k + 1) _ _ _ h2) (reached ER (rCell c (ix rc cc 0)) 1)
      (by rw [payload_s, sndPay_5])
      (by rw [payload_r, rcvPay_5, p1_p1])) $$ [HO ObL Ts5 Tr5 D5]
  · iframe HR ObL D5 Hr0 HO Ts5 Tr5
  iintro ⟨Hcs5, HO⟩
  iapply (wp_exch0 m ρ K c (p1 c) oM (offO rc (ca cc) (qA c)) (inbO rc (ca cc) (qA c)) oM (offO rc (ca cc) (qA c)) (inbO rc (ca cc) (qA c)) fullShare.right
      (outA (xstg m ρ) c rc cc) (ix rc cc 6) (ix rc cc 6) N2 rfl
      (amount_s_small0 m ρ c rc cc 6 (by decide) false) (amount_r_small0 m ρ (p1 c) rc cc 6 (by decide) false)
      (owedFrom c (k + 1 + 1 + 1)) (owed_step c (k + 1 + 1) _ _ _ h3) iprop(emp)
      (by rw [payload_s, sndPay_6])
      (by rw [payload_r, rcvPay_6, p1_p1]; exact (sep_emp (PROP := sProp 𝕄)).1)) $$ [HO OaR Ts6 Tr6 D6]
  · iframe HR OaR D6 HO Ts6 Tr6
  iintro ⟨Hcs6, HO⟩
  iapply (wp_exch0 m ρ K c (p2 c) oM (offO rc (cb cc) (qB c)) (inbO rc (cb cc) (qB c)) oM (offO rc (cb cc) (qB c)) (inbO rc (cb cc) (qB c)) fullShare.right
      (outB (xstg m ρ) c rc cc) (ix rc cc 7) (ix rc cc 7) N2 rfl
      (amount_s_small0 m ρ c rc cc 7 (by decide) false) (amount_r_small0 m ρ (p2 c) rc cc 7 (by decide) false)
      (owedFrom c (k + 1 + 1 + 1 + 1)) (owed_step c (k + 1 + 1 + 1) _ _ _ h4) iprop(emp)
      (by rw [payload_s, sndPay_7])
      (by rw [payload_r, rcvPay_7, p2_p2]; exact (sep_emp (PROP := sProp 𝕄)).1)) $$ [HO ObR Ts7 Tr7 D7]
  · iframe HR ObR D7 HO Ts7 Tr7
  iintro ⟨Hcs7, HO⟩
  iapply Hk
  isplitl [HO]; · iexists _; iexact HO
  isplitl [Ha2]; · iexact Ha2
  isplitl [Ha3]; · iexact Ha3
  isplitl [P2]; · iapply (tile_any c) $$ P2
  isplitl [P3]; · iapply (tile_any c) $$ P3
  isplitl [Rak]; · iapply (tile_any c) $$ Rak
  isplitl [Rbk]; · iapply (tile_any c) $$ Rbk
  iframe Hcs4 Hcs5 Hcs6 Hcs7

end B3

section B4
variable (K : Dev nD × Fin 65 → ℕ) (c : Dev nD) (rc cc : Fin 2)

theorem p3_p1 (c : Dev nD) : p3 (p1 c) = p2 c := by revert c; decide
theorem p3_p2 (c : Dev nD) : p3 (p2 c) = p1 c := by revert c; decide

theorem block4 (k : ℕ) (hk : 34 ≤ k) (W : Waits sig ℕ)
    (h1 : (pays c)[k]? = some (rCell (p1 c) (ix rc cc 0), 1, N2)) (h2 : (pays c)[k + 1]? = some (rCell (p2 c) (ix rc cc 1), 1, N2))
    {srca dsta : Memref sig .tc .vmem S256x128 .bf16} {hsrca : srca.view.WordExact} {hdsta : dsta.view.WordExact}
    {srcb dstb : Memref sig .tc .vmem S256x128 .bf16} {hsrcb : srcb.view.WordExact} {hdstb : dstb.view.WordExact}
    {srcc dstc : Memref sig .tc .vmem S512x128 .bf16} {hsrcc : srcc.view.WordExact} {hdstc : dstc.view.WordExact}
    {srcd dstd : Memref sig .tc .vmem S512x128 .bf16} {hsrcd : srcd.view.WordExact} {hdstd : dstd.view.WordExact}
    {ofa ofb : Fin 2 → ℕ} (hofa : ofa = offO rc (ca cc) (qA (p2 c))) (hofb : ofb = offO rc (cb cc) (qB (p1 c)))
    {inbfa : ∀ a, ofa a + S256x128.size a ≤ S2048x512.size a} {inbfb : ∀ a, ofb a + S256x128.size a ≤ S2048x512.size a}
    {n0 n1 : Dev nD} (hn0 : n0 = p1 c) (hn1 : n1 = p2 c)
    {hsc1 : (oM.slice (Rect.unit (s := S2048x512) ofa S256x128.size inbfa) (fun _ => rfl) : Memref sig (Dev.tc n0 : Thread nD τ).2.kind .vmem _ _).view.ref.isScScratch = false}
    {hsrc1 : (oM.slice (Rect.unit (s := S2048x512) ofa S256x128.size inbfa) (fun _ => rfl)).view.WordExact} {hdst1 : (oM.slice (Rect.unit (s := S2048x512) ofa S256x128.size inbfa) (fun _ => rfl)).view.WordExact}
    {hsem1 : DmaTarget.Typed .vmem (.dma (rSem (ix rc cc 0))) (.remote (Dev.tc n0 : Thread nD τ) (oM.slice (Rect.unit (s := S2048x512) ofa S256x128.size inbfa) (fun _ => rfl)) (.dma (sSem (ix rc cc 0))) hsc1)}
    {hsc2 : (oM.slice (Rect.unit (s := S2048x512) ofb S256x128.size inbfb) (fun _ => rfl) : Memref sig (Dev.tc n1 : Thread nD τ).2.kind .vmem _ _).view.ref.isScScratch = false}
    {hsrc2 : (oM.slice (Rect.unit (s := S2048x512) ofb S256x128.size inbfb) (fun _ => rfl)).view.WordExact} {hdst2 : (oM.slice (Rect.unit (s := S2048x512) ofb S256x128.size inbfb) (fun _ => rfl)).view.WordExact}
    {hsem2 : DmaTarget.Typed .vmem (.dma (rSem (ix rc cc 1))) (.remote (Dev.tc n1 : Thread nD τ) (oM.slice (Rect.unit (s := S2048x512) ofb S256x128.size inbfb) (fun _ => rfl)) (.dma (sSem (ix rc cc 1))) hsc2)}
    {α : Type} {Q : α → sProp 𝕄} {kk : PUnit → Prog (TpuEff nD τ sig (Elt F) Λ₀ .tc) α} :
    iprop(records m ρ K ∗ levAts L lv ∗ owes (c : Thread nD τ) (owedFrom c k) W
        ∗ (atPos ER (rCell c (ix rc cc 4)) 0 ∅ 0 ∗ cred (tallyAt (rCell c (ix rc cc 4)) 0 N2))
        ∗ (atPos ER (rCell c (ix rc cc 5)) 0 ∅ 0 ∗ cred (tallyAt (rCell c (ix rc cc 5)) 0 N2))
        ∗ (atPos ER (sCell c (ix rc cc 0)) 0 ∅ 0 ∗ cred (tallyAt (sCell c (ix rc cc 0)) 0 N1))
        ∗ (atPos ER (sCell c (ix rc cc 1)) 0 ∅ 0 ∗ cred (tallyAt (sCell c (ix rc cc 1)) 0 N1))
        ∗ (dutyTok ER (sCell c (ix rc cc 0)) 1 false ∗ dutyTok ER (sCell c (ix rc cc 1)) 1 false)
        ∗ (dutyTok ER (rCell (p1 c) (ix rc cc 0)) 1 false ∗ dutyTok ER (rCell (p2 c) (ix rc cc 1)) 1 false)
        ∗ (tileAny (p1 c) oM (RO rc (ca cc) (qA (p2 c))) ∗ tileAny (p2 c) oM (RO rc (cb cc) (qB (p1 c)))))
      ⊢ iprop((((∃ W', owes (c : Thread nD τ) (owedFrom c (k + 2)) W')
              ∗ atPos ER (rCell c (ix rc cc 4)) 1 ∅ 0 ∗ atPos ER (rCell c (ix rc cc 5)) 1 ∅ 0
              ∗ (atPos ER (sCell c (ix rc cc 0)) 1 ∅ 0 ∗ cred (tallyAt (sCell c (ix rc cc 0)) 1 N2))
              ∗ (atPos ER (sCell c (ix rc cc 1)) 1 ∅ 0 ∗ cred (tallyAt (sCell c (ix rc cc 1)) 1 N2))
              ∗ tileAny c xbsM (RS4 rc (ca cc)) ∗ tileAny c xbsM (RS4 rc (cb cc)))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.waitDma2 (rSem (ix rc cc 4)) srca dsta hsrca hdsta) fun _ =>
             .op (.waitDma2 (rSem (ix rc cc 5)) srcb dstb hsrcb hdstb) fun _ =>
             .op (.waitDma2 (sSem (ix rc cc 0)) srcc dstc hsrcc hdstc) fun _ =>
             .op (.waitDma2 (sSem (ix rc cc 1)) srcd dstd hsrcd hdstd) fun _ =>
             .op (.enqueueDma (oM.slice (Rect.unit (s := S2048x512) ofa S256x128.size inbfa) (fun _ => rfl))
                (.remote (Dev.tc n0 : Thread nD τ) (oM.slice (Rect.unit (s := S2048x512) ofa S256x128.size inbfa) (fun _ => rfl)) (.dma (sSem (ix rc cc 0))) hsc1)
                (.dma (rSem (ix rc cc 0))) hsrc1 hdst1 hsem1) fun _ =>
             .op (.enqueueDma (oM.slice (Rect.unit (s := S2048x512) ofb S256x128.size inbfb) (fun _ => rfl))
                (.remote (Dev.tc n1 : Thread nD τ) (oM.slice (Rect.unit (s := S2048x512) ofb S256x128.size inbfb) (fun _ => rfl)) (.dma (sSem (ix rc cc 1))) hsc2)
                (.dma (rSem (ix rc cc 1))) hsrc2 hdst2 hsem2) kk) Q) := by
  subst hofa hofb hn0 hn1
  iintro ⟨#HR, #Hlev, HO, ⟨Ha4, Hc4⟩, ⟨Ha5, Hc5⟩, ⟨As0, Cs0⟩, ⟨As1, Cs1⟩, ⟨Ts0, Ts1⟩, ⟨Tr0, Tr1⟩, ⟨D0, D1⟩⟩ Hk
  iapply (wp_wait_recv m ρ K c (ix rc cc 4) 0 N2 (duties_r0 m ρ c _) (expect_r_small0 m ρ c rc cc 4 (by decide)) (mayWait_step3 c rc cc 4 (by decide) k hk) rfl) $$ [HO Ha4 Hc4]
  · iframe HR Hlev Hc4 HO Ha4
  iintro ⟨HO, Ha4, -, P4⟩
  iapply (wp_wait_recv m ρ K c (ix rc cc 5) 0 N2 (duties_r0 m ρ c _) (expect_r_small0 m ρ c rc cc 5 (by decide)) (mayWait_step3 c rc cc 5 (by decide) k hk) rfl) $$ [HO Ha5 Hc5]
  · iframe HR Hlev Hc5 HO Ha5
  iintro ⟨HO, Ha5, -, P5⟩
  ihave Q4 := (Entails.of_eq (rcvPay_4 (xstg m ρ) c rc cc 0)) $$ P4
  ihave Q5 := (Entails.of_eq (rcvPay_5 (xstg m ρ) c rc cc 0)) $$ P5
  icases Q4 with ⟨P4, #Hrp2⟩
  icases Q5 with ⟨P5, #Hrp1⟩
  iapply (wp_wait_send m ρ K c (ix rc cc 0) 0 N1 (duties_s0 m ρ c _) (expect_s_big m ρ c rc cc 0 (by decide)) (mayWait_send c (ix rc cc 0) 0 (Or.inl rfl) k (by omega)) rfl) $$ [HO As0 Cs0]
  · iframe HR Hlev Cs0 HO As0
  iintro ⟨HO, As0, #Hrs0, X0⟩
  iapply (wp_wait_send m ρ K c (ix rc cc 1) 0 N1 (duties_s0 m ρ c _) (expect_s_big m ρ c rc cc 1 (by decide)) (mayWait_send c (ix rc cc 1) 0 (Or.inl rfl) k (by omega)) rfl) $$ [HO As1 Cs1]
  · iframe HR Hlev Cs1 HO As1
  iintro ⟨HO, As1, #Hrs1, X1⟩
  ihave Y0 := (Entails.of_eq (sndPay_0_0 (xstg m ρ) c rc cc)) $$ X0
  ihave Y1 := (Entails.of_eq (sndPay_1_0 (xstg m ρ) c rc cc)) $$ X1
  iapply (wp_exch m ρ K c (p1 c) oM (offO rc (ca cc) (qA (p2 c))) (inbO rc (ca cc) (qA (p2 c))) oM (offO rc (ca cc) (qA (p2 c))) (inbO rc (ca cc) (qA (p2 c))) fullShare
      (outA (xstg m ρ) (p2 c) rc cc) (ix rc cc 0) (ix rc cc 0) 1 1 N2 (duties_s1 m ρ c rc cc 0 (by decide)) (duties_r1 m ρ (p1 c) rc cc 0 (by decide)) rfl
      (amount_s_small1 m ρ c _ false) (amount_r_small1 m ρ (p1 c) _ false)
      (owedFrom c (k + 1)) (owed_step c k _ _ _ h1) iprop(emp)
      (by rw [payload_s, sndPay_0_1])
      (by rw [payload_r, rcvPay_0_1, p3_p1]; exact (sep_emp (PROP := sProp 𝕄)).1)) $$ [HO P4 Ts0 Tr0 D0]
  · iframe HR Hrs0 Hrp1 P4 D0 HO Ts0 Tr0
  iintro ⟨Hcs0, HO⟩
  iapply (wp_exch m ρ K c (p2 c) oM (offO rc (cb cc) (qB (p1 c))) (inbO rc (cb cc) (qB (p1 c))) oM (offO rc (cb cc) (qB (p1 c))) (inbO rc (cb cc) (qB (p1 c))) fullShare
      (outB (xstg m ρ) (p1 c) rc cc) (ix rc cc 1) (ix rc cc 1) 1 1 N2 (duties_s1 m ρ c rc cc 1 (by decide)) (duties_r1 m ρ (p2 c) rc cc 1 (by decide)) rfl
      (amount_s_small1 m ρ c _ false) (amount_r_small1 m ρ (p2 c) _ false)
      (owedFrom c (k + 1 + 1)) (owed_step c (k + 1) _ _ _ h2) iprop(emp)
      (by rw [payload_s, sndPay_1_1])
      (by rw [payload_r, rcvPay_1_1, p3_p2]; exact (sep_emp (PROP := sProp 𝕄)).1)) $$ [HO P5 Ts1 Tr1 D1]
  · iframe HR Hrs1 Hrp2 P5 D1 HO Ts1 Tr1
  iintro ⟨Hcs1, HO⟩
  iapply Hk
  isplitl [HO]; · iexists _; iexact HO
  isplitl [Ha4]; · iexact Ha4
  isplitl [Ha5]; · iexact Ha5
  isplitl [As0 Hcs0]
  · iframe As0 Hcs0
  isplitl [As1 Hcs1]
  · iframe As1 Hcs1
  isplitl [Y0]; · iapply (tile_any c) $$ Y0
  iapply (tile_any c) $$ Y1

end B4

section B5
variable (K : Dev nD × Fin 65 → ℕ) (c : Dev nD) (rc cc : Fin 2)

theorem block5 (W : Waits sig ℕ)
    {srca dsta : Memref sig .tc .vmem S256x128 .bf16} {hsrca : srca.view.WordExact} {hdsta : dsta.view.WordExact}
    {srcb dstb : Memref sig .tc .vmem S256x128 .bf16} {hsrcb : srcb.view.WordExact} {hdstb : dstb.view.WordExact}
    {srcc dstc : Memref sig .tc .vmem S256x128 .bf16} {hsrcc : srcc.view.WordExact} {hdstc : dstc.view.WordExact}
    {srcd dstd : Memref sig .tc .vmem S256x128 .bf16} {hsrcd : srcd.view.WordExact} {hdstd : dstd.view.WordExact}
    {α : Type} {Q : α → sProp 𝕄} {kk : PUnit → Prog (TpuEff nD τ sig (Elt F) Λ₀ .tc) α} :
    iprop(records m ρ K ∗ owes (c : Thread nD τ) 0 W
        ∗ (atPos ER (rCell c (ix rc cc 6)) 0 ∅ 0 ∗ cred (tallyAt (rCell c (ix rc cc 6)) 0 N2))
        ∗ (atPos ER (rCell c (ix rc cc 7)) 0 ∅ 0 ∗ cred (tallyAt (rCell c (ix rc cc 7)) 0 N2))
        ∗ (atPos ER (rCell c (ix rc cc 0)) 1 ∅ 0 ∗ cred (tallyAt (rCell c (ix rc cc 0)) 1 N2))
        ∗ (atPos ER (rCell c (ix rc cc 1)) 1 ∅ 0 ∗ cred (tallyAt (rCell c (ix rc cc 1)) 1 N2)))
      ⊢ iprop((((∃ W', owes (c : Thread nD τ) 0 W')
              ∗ atPos ER (rCell c (ix rc cc 6)) 1 ∅ 0 ∗ atPos ER (rCell c (ix rc cc 7)) 1 ∅ 0
              ∗ atPos ER (rCell c (ix rc cc 0)) 2 ∅ 0 ∗ atPos ER (rCell c (ix rc cc 1)) 2 ∅ 0
              ∗ tile c oM (RO rc (ca cc) (qA (p1 c))) (outA (xstg m ρ) (p1 c) rc cc)
              ∗ tile c oM (RO rc (cb cc) (qB (p2 c))) (outB (xstg m ρ) (p2 c) rc cc)
              ∗ tile c oM (RO rc (ca cc) (qA (p3 c))) (outA (xstg m ρ) (p3 c) rc cc)
              ∗ tile c oM (RO rc (cb cc) (qB (p3 c))) (outB (xstg m ρ) (p3 c) rc cc))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.waitDma2 (rSem (ix rc cc 6)) srca dsta hsrca hdsta) fun _ =>
             .op (.waitDma2 (rSem (ix rc cc 7)) srcb dstb hsrcb hdstb) fun _ =>
             .op (.waitDma2 (rSem (ix rc cc 0)) srcc dstc hsrcc hdstc) fun _ =>
             .op (.waitDma2 (rSem (ix rc cc 1)) srcd dstd hsrcd hdstd) kk) Q) := by
  iintro ⟨#HR, HO, ⟨A6, C6⟩, ⟨A7, C7⟩, ⟨A0, C0⟩, ⟨A1, C1⟩⟩ Hk
  iapply (wp_wait_recv m ρ K c (ix rc cc 6) 0 N2 (duties_r0 m ρ c _) (expect_r_small0 m ρ c rc cc 6 (by decide)) (mayWait0 c _ _) rfl) $$ [HO A6 C6]
  · iframe HR C6 HO A6
  iintro ⟨HO, A6, -, P6⟩
  iapply (wp_wait_recv m ρ K c (ix rc cc 7) 0 N2 (duties_r0 m ρ c _) (expect_r_small0 m ρ c rc cc 7 (by decide)) (mayWait0 c _ _) rfl) $$ [HO A7 C7]
  · iframe HR C7 HO A7
  iintro ⟨HO, A7, -, P7⟩
  iapply (wp_wait_recv m ρ K c (ix rc cc 0) 1 N2 (duties_r1 m ρ c rc cc 0 (by decide)) (expect_r_small1 m ρ c rc cc 0 (by decide)) (mayWait0 c _ _) rfl) $$ [HO A0 C0]
  · iframe HR C0 HO A0
  iintro ⟨HO, A0, -, P0⟩
  iapply (wp_wait_recv m ρ K c (ix rc cc 1) 1 N2 (duties_r1 m ρ c rc cc 1 (by decide)) (expect_r_small1 m ρ c rc cc 1 (by decide)) (mayWait0 c _ _) rfl) $$ [HO A1 C1]
  · iframe HR C1 HO A1
  iintro ⟨HO, A1, -, P1⟩
  ihave Q6 := (Entails.of_eq (rcvPay_6 (xstg m ρ) c rc cc 0)) $$ P6
  ihave Q7 := (Entails.of_eq (rcvPay_7 (xstg m ρ) c rc cc 0)) $$ P7
  ihave Q0 := (Entails.of_eq (rcvPay_0_1 (xstg m ρ) c rc cc)) $$ P0
  ihave Q1 := (Entails.of_eq (rcvPay_1_1 (xstg m ρ) c rc cc)) $$ P1
  iapply Hk
  isplitl [HO]; · iexists _; iexact HO
  iframe A6 A7 A0 A1 Q6 Q7 Q0 Q1

end B5

section B6
variable (K : Dev nD × Fin 65 → ℕ) (c : Dev nD) (rc cc : Fin 2)

theorem block6 (W : Waits sig ℕ)
    {srca dsta : Memref sig .tc .vmem S256x128 .bf16} {hsrca : srca.view.WordExact} {hdsta : dsta.view.WordExact}
    {srcb dstb : Memref sig .tc .vmem S256x128 .bf16} {hsrcb : srcb.view.WordExact} {hdstb : dstb.view.WordExact}
    {α : Type} {Q : α → sProp 𝕄} {kk : PUnit → Prog (TpuEff nD τ sig (Elt F) Λ₀ .tc) α} :
    iprop(records m ρ K ∗ owes (c : Thread nD τ) 0 W
        ∗ (atPos ER (sCell c (ix rc cc 2)) 0 ∅ 0 ∗ cred (tallyAt (sCell c (ix rc cc 2)) 0 N2))
        ∗ (atPos ER (sCell c (ix rc cc 3)) 0 ∅ 0 ∗ cred (tallyAt (sCell c (ix rc cc 3)) 0 N2)))
      ⊢ iprop((((∃ W', owes (c : Thread nD τ) 0 W')
              ∗ atPos ER (sCell c (ix rc cc 2)) 1 ∅ 0 ∗ atPos ER (sCell c (ix rc cc 3)) 1 ∅ 0
              ∗ tileAny c r1aM (RH rc cc (fl (k2A c))) ∗ tileAny c r1bM (RH rc cc (fl (k2B c))))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.waitDma2 (sSem (ix rc cc 2)) srca dsta hsrca hdsta) fun _ =>
             .op (.waitDma2 (sSem (ix rc cc 3)) srcb dstb hsrcb hdstb) kk) Q) := by
  iintro ⟨#HR, HO, ⟨A2, C2⟩, ⟨A3, C3⟩⟩ Hk
  iapply (wp_wait_send m ρ K c (ix rc cc 2) 0 N2 (duties_s0 m ρ c _) (expect_s_small0 m ρ c rc cc 2 (by decide)) (mayWait0 c _ _) rfl) $$ [HO A2 C2]
  · iframe HR C2 HO A2
  iintro ⟨HO, A2, -, P2⟩
  iapply (wp_wait_send m ρ K c (ix rc cc 3) 0 N2 (duties_s0 m ρ c _) (expect_s_small0 m ρ c rc cc 3 (by decide)) (mayWait0 c _ _) rfl) $$ [HO A3 C3]
  · iframe HR C3 HO A3
  iintro ⟨HO, A3, -, P3⟩
  ihave Q2 := (Entails.of_eq (sndPay_2 (xstg m ρ) c rc cc 0)) $$ P2
  ihave Q3 := (Entails.of_eq (sndPay_3 (xstg m ρ) c rc cc 0)) $$ P3
  iapply Hk
  isplitl [HO]; · iexists _; iexact HO
  isplitl [A2]; · iexact A2
  isplitl [A3]; · iexact A3
  isplitl [Q2]; · iapply (tile_any c) $$ Q2
  iapply (tile_any c) $$ Q3

theorem block7 (W : Waits sig ℕ)
    {srca dsta : Memref sig .tc .vmem S256x128 .bf16} {hsrca : srca.view.WordExact} {hdsta : dsta.view.WordExact}
    {srcb dstb : Memref sig .tc .vmem S256x128 .bf16} {hsrcb : srcb.view.WordExact} {hdstb : dstb.view.WordExact}
    {srcc dstc : Memref sig .tc .vmem S256x128 .bf16} {hsrcc : srcc.view.WordExact} {hdstc : dstc.view.WordExact}
    {srcd dstd : Memref sig .tc .vmem S256x128 .bf16} {hsrcd : srcd.view.WordExact} {hdstd : dstd.view.WordExact}
    {α : Type} {Q : α → sProp 𝕄} {kk : PUnit → Prog (TpuEff nD τ sig (Elt F) Λ₀ .tc) α} :
    iprop(records m ρ K ∗ owes (c : Thread nD τ) 0 W
        ∗ (atPos ER (sCell c (ix rc cc 4)) 0 ∅ 0 ∗ cred (tallyAt (sCell c (ix rc cc 4)) 0 N2))
        ∗ (atPos ER (sCell c (ix rc cc 5)) 0 ∅ 0 ∗ cred (tallyAt (sCell c (ix rc cc 5)) 0 N2))
        ∗ (atPos ER (sCell c (ix rc cc 6)) 0 ∅ 0 ∗ cred (tallyAt (sCell c (ix rc cc 6)) 0 N2))
        ∗ (atPos ER (sCell c (ix rc cc 7)) 0 ∅ 0 ∗ cred (tallyAt (sCell c (ix rc cc 7)) 0 N2)))
      ⊢ iprop((((∃ W', owes (c : Thread nD τ) 0 W')
              ∗ atPos ER (sCell c (ix rc cc 4)) 1 ∅ 0 ∗ atPos ER (sCell c (ix rc cc 5)) 1 ∅ 0
              ∗ atPos ER (sCell c (ix rc cc 6)) 1 ∅ 0 ∗ atPos ER (sCell c (ix rc cc 7)) 1 ∅ 0
              ∗ tile c oM (RO rc (ca cc) (qA c)) (outA (xstg m ρ) c rc cc)
              ∗ tile c oM (RO rc (cb cc) (qB c)) (outB (xstg m ρ) c rc cc))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.waitDma2 (sSem (ix rc cc 4)) srca dsta hsrca hdsta) fun _ =>
             .op (.waitDma2 (sSem (ix rc cc 5)) srcb dstb hsrcb hdstb) fun _ =>
             .op (.waitDma2 (sSem (ix rc cc 6)) srcc dstc hsrcc hdstc) fun _ =>
             .op (.waitDma2 (sSem (ix rc cc 7)) srcd dstd hsrcd hdstd) kk) Q) := by
  iintro ⟨#HR, HO, ⟨A4, C4⟩, ⟨A5, C5⟩, ⟨A6, C6⟩, ⟨A7, C7⟩⟩ Hk
  iapply (wp_wait_send m ρ K c (ix rc cc 4) 0 N2 (duties_s0 m ρ c _) (expect_s_small0 m ρ c rc cc 4 (by decide)) (mayWait0 c _ _) rfl) $$ [HO A4 C4]
  · iframe HR C4 HO A4
  iintro ⟨HO, A4, -, P4⟩
  iapply (wp_wait_send m ρ K c (ix rc cc 5) 0 N2 (duties_s0 m ρ c _) (expect_s_small0 m ρ c rc cc 5 (by decide)) (mayWait0 c _ _) rfl) $$ [HO A5 C5]
  · iframe HR C5 HO A5
  iintro ⟨HO, A5, -, P5⟩
  iapply (wp_wait_send m ρ K c (ix rc cc 6) 0 N2 (duties_s0 m ρ c _) (expect_s_small0 m ρ c rc cc 6 (by decide)) (mayWait0 c _ _) rfl) $$ [HO A6 C6]
  · iframe HR C6 HO A6
  iintro ⟨HO, A6, -, P6⟩
  iapply (wp_wait_send m ρ K c (ix rc cc 7) 0 N2 (duties_s0 m ρ c _) (expect_s_small0 m ρ c rc cc 7 (by decide)) (mayWait0 c _ _) rfl) $$ [HO A7 C7]
  · iframe HR C7 HO A7
  iintro ⟨HO, A7, -, P7⟩
  ihave Q4 := (Entails.of_eq (sndPay_4 (xstg m ρ) c rc cc 0)) $$ P4
  ihave Q5 := (Entails.of_eq (sndPay_5 (xstg m ρ) c rc cc 0)) $$ P5
  ihave Q6 := (Entails.of_eq (sndPay_6 (xstg m ρ) c rc cc 0)) $$ P6
  ihave Q7 := (Entails.of_eq (sndPay_7 (xstg m ρ) c rc cc 0)) $$ P7
  iapply Hk
  isplitl [HO]; · iexists _; iexact HO
  isplitl [A4]; · iexact A4
  isplitl [A5]; · iexact A5
  isplitl [A6]; · iexact A6
  isplitl [A7]; · iexact A7
  isplitl [Q4 Q6]
  · iapply (tile_shares c oM (RO rc (ca cc) (qA c)) (outA (xstg m ρ) c rc cc)).2
    iframe Q4 Q6
  · iapply (tile_shares c oM (RO rc (cb cc) (qB c)) (outB (xstg m ρ) c rc cc)).2
    iframe Q5 Q7

theorem block8 (W : Waits sig ℕ)
    {srca dsta : Memref sig .tc .vmem S256x128 .bf16} {hsrca : srca.view.WordExact} {hdsta : dsta.view.WordExact}
    {srcb dstb : Memref sig .tc .vmem S256x128 .bf16} {hsrcb : srcb.view.WordExact} {hdstb : dstb.view.WordExact}
    {α : Type} {Q : α → sProp 𝕄} {kk : PUnit → Prog (TpuEff nD τ sig (Elt F) Λ₀ .tc) α} :
    iprop(records m ρ K ∗ owes (c : Thread nD τ) 0 W
        ∗ (atPos ER (sCell c (ix rc cc 0)) 1 ∅ 0 ∗ cred (tallyAt (sCell c (ix rc cc 0)) 1 N2))
        ∗ (atPos ER (sCell c (ix rc cc 1)) 1 ∅ 0 ∗ cred (tallyAt (sCell c (ix rc cc 1)) 1 N2)))
      ⊢ iprop((((∃ W', owes (c : Thread nD τ) 0 W')
              ∗ atPos ER (sCell c (ix rc cc 0)) 2 ∅ 0 ∗ atPos ER (sCell c (ix rc cc 1)) 2 ∅ 0
              ∗ tile c oM (RO rc (ca cc) (qA (p2 c))) (outA (xstg m ρ) (p2 c) rc cc)
              ∗ tile c oM (RO rc (cb cc) (qB (p1 c))) (outB (xstg m ρ) (p1 c) rc cc))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.waitDma2 (sSem (ix rc cc 0)) srca dsta hsrca hdsta) fun _ =>
             .op (.waitDma2 (sSem (ix rc cc 1)) srcb dstb hsrcb hdstb) kk) Q) := by
  iintro ⟨#HR, HO, ⟨A0, C0⟩, ⟨A1, C1⟩⟩ Hk
  iapply (wp_wait_send m ρ K c (ix rc cc 0) 1 N2 (duties_s1 m ρ c rc cc 0 (by decide)) (expect_s_small1 m ρ c rc cc 0 (by decide)) (mayWait0 c _ _) rfl) $$ [HO A0 C0]
  · iframe HR C0 HO A0
  iintro ⟨HO, A0, -, P0⟩
  iapply (wp_wait_send m ρ K c (ix rc cc 1) 1 N2 (duties_s1 m ρ c rc cc 1 (by decide)) (expect_s_small1 m ρ c rc cc 1 (by decide)) (mayWait0 c _ _) rfl) $$ [HO A1 C1]
  · iframe HR C1 HO A1
  iintro ⟨HO, A1, -, P1⟩
  ihave Q0 := (Entails.of_eq (sndPay_0_1 (xstg m ρ) c rc cc)) $$ P0
  ihave Q1 := (Entails.of_eq (sndPay_1_1 (xstg m ρ) c rc cc)) $$ P1
  iapply Hk
  isplitl [HO]; · iexists _; iexact HO
  iframe A0 A1 Q0 Q1

end B6

section B9
variable (K : Dev nD × Fin 65 → ℕ) (c : Dev nD) (rc cc : Fin 2)

theorem close_unit :
    iprop(records m ρ K
        ∗ (atPos ER (sCell c (ix rc cc 0)) 2 ∅ 0 ∗ atPos ER (sCell c (ix rc cc 1)) 2 ∅ 0 ∗ atPos ER (sCell c (ix rc cc 2)) 1 ∅ 0
            ∗ atPos ER (sCell c (ix rc cc 3)) 1 ∅ 0 ∗ atPos ER (sCell c (ix rc cc 4)) 1 ∅ 0 ∗ atPos ER (sCell c (ix rc cc 5)) 1 ∅ 0
            ∗ atPos ER (sCell c (ix rc cc 6)) 1 ∅ 0 ∗ atPos ER (sCell c (ix rc cc 7)) 1 ∅ 0)
        ∗ (atPos ER (rCell c (ix rc cc 0)) 2 ∅ 0 ∗ atPos ER (rCell c (ix rc cc 1)) 2 ∅ 0 ∗ atPos ER (rCell c (ix rc cc 2)) 1 ∅ 0
            ∗ atPos ER (rCell c (ix rc cc 3)) 1 ∅ 0 ∗ atPos ER (rCell c (ix rc cc 4)) 1 ∅ 0 ∗ atPos ER (rCell c (ix rc cc 5)) 1 ∅ 0
            ∗ atPos ER (rCell c (ix rc cc 6)) 1 ∅ 0 ∗ atPos ER (rCell c (ix rc cc 7)) 1 ∅ 0))
      ⊢ (iprop(|={Set.univ}=> bigSep Finset.univ fun e : Fin 8 =>
            iprop(semVal (sCell c (ix rc cc e)) 0 ∗ semVal (rCell c (ix rc cc e)) 0)) : sProp 𝕄) := by
  rw [bigSep_fin8]
  iintro ⟨#HR, ⟨S0, S1, S2, S3, S4, S5, S6, S7⟩, ⟨R0, R1, R2, R3, R4, R5, R6, R7⟩⟩
  imod (close_cell m ρ (sCell c (ix rc cc 0)) (K (c, sK (ix rc cc 0))) 2 (duties_s_later2 m ρ c _)) $$ [S0] with ZS0
  · isplitr; · iapply (inv_s m ρ K c (ix rc cc 0)); iexact HR
    iexact S0
  imod (close_cell m ρ (sCell c (ix rc cc 1)) (K (c, sK (ix rc cc 1))) 2 (duties_s_later2 m ρ c _)) $$ [S1] with ZS1
  · isplitr; · iapply (inv_s m ρ K c (ix rc cc 1)); iexact HR
    iexact S1
  imod (close_cell m ρ (sCell c (ix rc cc 2)) (K (c, sK (ix rc cc 2))) 1 (duties_s_later1 m ρ c rc cc 2 (by decide))) $$ [S2] with ZS2
  · isplitr; · iapply (inv_s m ρ K c (ix rc cc 2)); iexact HR
    iexact S2
  imod (close_cell m ρ (sCell c (ix rc cc 3)) (K (c, sK (ix rc cc 3))) 1 (duties_s_later1 m ρ c rc cc 3 (by decide))) $$ [S3] with ZS3
  · isplitr; · iapply (inv_s m ρ K c (ix rc cc 3)); iexact HR
    iexact S3
  imod (close_cell m ρ (sCell c (ix rc cc 4)) (K (c, sK (ix rc cc 4))) 1 (duties_s_later1 m ρ c rc cc 4 (by decide))) $$ [S4] with ZS4
  · isplitr; · iapply (inv_s m ρ K c (ix rc cc 4)); iexact HR
    iexact S4
  imod (close_cell m ρ (sCell c (ix rc cc 5)) (K (c, sK (ix rc cc 5))) 1 (duties_s_later1 m ρ c rc cc 5 (by decide))) $$ [S5] with ZS5
  · isplitr; · iapply (inv_s m ρ K c (ix rc cc 5)); iexact HR
    iexact S5
  imod (close_cell m ρ (sCell c (ix rc cc 6)) (K (c, sK (ix rc cc 6))) 1 (duties_s_later1 m ρ c rc cc 6 (by decide))) $$ [S6] with ZS6
  · isplitr; · iapply (inv_s m ρ K c (ix rc cc 6)); iexact HR
    iexact S6
  imod (close_cell m ρ (sCell c (ix rc cc 7)) (K (c, sK (ix rc cc 7))) 1 (duties_s_later1 m ρ c rc cc 7 (by decide))) $$ [S7] with ZS7
  · isplitr; · iapply (inv_s m ρ K c (ix rc cc 7)); iexact HR
    iexact S7
  imod (close_cell m ρ (rCell c (ix rc cc 0)) (K (c, rK (ix rc cc 0))) 2 (duties_r_later2 m ρ c _)) $$ [R0] with ZR0
  · isplitr; · iapply (inv_r m ρ K c (ix rc cc 0)); iexact HR
    iexact R0
  imod (close_cell m ρ (rCell c (ix rc cc 1)) (K (c, rK (ix rc cc 1))) 2 (duties_r_later2 m ρ c _)) $$ [R1] with ZR1
  · isplitr; · iapply (inv_r m ρ K c (ix rc cc 1)); iexact HR
    iexact R1
  imod (close_cell m ρ (rCell c (ix rc cc 2)) (K (c, rK (ix rc cc 2))) 1 (duties_r_later1 m ρ c rc cc 2 (by decide))) $$ [R2] with ZR2
  · isplitr; · iapply (inv_r m ρ K c (ix rc cc 2)); iexact HR
    iexact R2
  imod (close_cell m ρ (rCell c (ix rc cc 3)) (K (c, rK (ix rc cc 3))) 1 (duties_r_later1 m ρ c rc cc 3 (by decide))) $$ [R3] with ZR3
  · isplitr; · iapply (inv_r m ρ K c (ix rc cc 3)); iexact HR
    iexact R3
  imod (close_cell m ρ (rCell c (ix rc cc 4)) (K (c, rK (ix rc cc 4))) 1 (duties_r_later1 m ρ c rc cc 4 (by decide))) $$ [R4] with ZR4
  · isplitr; · iapply (inv_r m ρ K c (ix rc cc 4)); iexact HR
    iexact R4
  imod (close_cell m ρ (rCell c (ix rc cc 5)) (K (c, rK (ix rc cc 5))) 1 (duties_r_later1 m ρ c rc cc 5 (by decide))) $$ [R5] with ZR5
  · isplitr; · iapply (inv_r m ρ K c (ix rc cc 5)); iexact HR
    iexact R5
  imod (close_cell m ρ (rCell c (ix rc cc 6)) (K (c, rK (ix rc cc 6))) 1 (duties_r_later1 m ρ c rc cc 6 (by decide))) $$ [R6] with ZR6
  · isplitr; · iapply (inv_r m ρ K c (ix rc cc 6)); iexact HR
    iexact R6
  imod (close_cell m ρ (rCell c (ix rc cc 7)) (K (c, rK (ix rc cc 7))) 1 (duties_r_later1 m ρ c rc cc 7 (by decide))) $$ [R7] with ZR7
  · isplitr; · iapply (inv_r m ρ K c (ix rc cc 7)); iexact HR
    iexact R7
  imodintro
  iframe ZS0 ZR0 ZS1 ZR1 ZS2 ZR2 ZS3 ZR3 ZS4 ZR4 ZS5 ZR5 ZS6 ZR6 ZS7 ZR7

end B9

end Cert.KernelIdeal.AR

end
-- ==== Proof.DevOff.lean ====
-- The printed partner chains and offsets in closed form, decided over the four devices.
import proofs.«900112_g7700000000000113_dist_ar_v7x_i4_i_m2048_n512_bf16_1_alg».proof.Proof.Ghost

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

theorem dev1_eq (c : Dev nD) : (⟨k0_dev1 c, k0_dev1_lt c⟩ : Dev nD) = p1 c := by revert c; decide +kernel
theorem dev2_eq (c : Dev nD) : (⟨k0_dev2 c, k0_dev2_lt c⟩ : Dev nD) = p2 c := by revert c; decide +kernel
theorem dev3_eq (c : Dev nD) : (⟨k0_dev3 c, k0_dev3_lt c⟩ : Dev nD) = p1 c := by revert c; decide +kernel
theorem dev4_eq (c : Dev nD) : (⟨k0_dev4 c, k0_dev4_lt c⟩ : Dev nD) = p2 c := by revert c; decide +kernel
theorem dev5_eq (c : Dev nD) : (⟨k0_dev5 c, k0_dev5_lt c⟩ : Dev nD) = p1 c := by revert c; decide +kernel
theorem dev6_eq (c : Dev nD) : (⟨k0_dev6 c, k0_dev6_lt c⟩ : Dev nD) = p2 c := by revert c; decide +kernel
theorem dev7_eq (c : Dev nD) : (⟨k0_dev7 c, k0_dev7_lt c⟩ : Dev nD) = p1 c := by revert c; decide +kernel
theorem dev8_eq (c : Dev nD) : (⟨k0_dev8 c, k0_dev8_lt c⟩ : Dev nD) = p2 c := by revert c; decide +kernel
theorem dev9_eq (c : Dev nD) : (⟨k0_dev9 c, k0_dev9_lt c⟩ : Dev nD) = p1 c := by revert c; decide +kernel
theorem dev10_eq (c : Dev nD) : (⟨k0_dev10 c, k0_dev10_lt c⟩ : Dev nD) = p2 c := by revert c; decide +kernel
theorem dev11_eq (c : Dev nD) : (⟨k0_dev11 c, k0_dev11_lt c⟩ : Dev nD) = p2 c := by revert c; decide +kernel
theorem dev12_eq (c : Dev nD) : (⟨k0_dev12 c, k0_dev12_lt c⟩ : Dev nD) = p1 c := by revert c; decide +kernel
theorem dev13_eq (c : Dev nD) : (⟨k0_dev13 c, k0_dev13_lt c⟩ : Dev nD) = p2 c := by revert c; decide +kernel
theorem dev14_eq (c : Dev nD) : (⟨k0_dev14 c, k0_dev14_lt c⟩ : Dev nD) = p1 c := by revert c; decide +kernel
theorem dev15_eq (c : Dev nD) : (⟨k0_dev15 c, k0_dev15_lt c⟩ : Dev nD) = p2 c := by revert c; decide +kernel
theorem dev16_eq (c : Dev nD) : (⟨k0_dev16 c, k0_dev16_lt c⟩ : Dev nD) = p1 c := by revert c; decide +kernel
theorem dev17_eq (c : Dev nD) : (⟨k0_dev17 c, k0_dev17_lt c⟩ : Dev nD) = p2 c := by revert c; decide +kernel
theorem dev18_eq (c : Dev nD) : (⟨k0_dev18 c, k0_dev18_lt c⟩ : Dev nD) = p1 c := by revert c; decide +kernel
theorem dev19_eq (c : Dev nD) : (⟨k0_dev19 c, k0_dev19_lt c⟩ : Dev nD) = p2 c := by revert c; decide +kernel
theorem dev20_eq (c : Dev nD) : (⟨k0_dev20 c, k0_dev20_lt c⟩ : Dev nD) = p1 c := by revert c; decide +kernel
theorem dev21_eq (c : Dev nD) : (⟨k0_dev21 c, k0_dev21_lt c⟩ : Dev nD) = p1 c := by revert c; decide +kernel
theorem dev22_eq (c : Dev nD) : (⟨k0_dev22 c, k0_dev22_lt c⟩ : Dev nD) = p2 c := by revert c; decide +kernel
theorem dev23_eq (c : Dev nD) : (⟨k0_dev23 c, k0_dev23_lt c⟩ : Dev nD) = p2 c := by revert c; decide +kernel
theorem dev24_eq (c : Dev nD) : (⟨k0_dev24 c, k0_dev24_lt c⟩ : Dev nD) = p1 c := by revert c; decide +kernel
theorem dev25_eq (c : Dev nD) : (⟨k0_dev25 c, k0_dev25_lt c⟩ : Dev nD) = p1 c := by revert c; decide +kernel
theorem dev26_eq (c : Dev nD) : (⟨k0_dev26 c, k0_dev26_lt c⟩ : Dev nD) = p2 c := by revert c; decide +kernel
theorem dev27_eq (c : Dev nD) : (⟨k0_dev27 c, k0_dev27_lt c⟩ : Dev nD) = p2 c := by revert c; decide +kernel
theorem dev28_eq (c : Dev nD) : (⟨k0_dev28 c, k0_dev28_lt c⟩ : Dev nD) = p1 c := by revert c; decide +kernel
theorem dev29_eq (c : Dev nD) : (⟨k0_dev29 c, k0_dev29_lt c⟩ : Dev nD) = p1 c := by revert c; decide +kernel
theorem dev30_eq (c : Dev nD) : (⟨k0_dev30 c, k0_dev30_lt c⟩ : Dev nD) = p2 c := by revert c; decide +kernel
theorem dev31_eq (c : Dev nD) : (⟨k0_dev31 c, k0_dev31_lt c⟩ : Dev nD) = p2 c := by revert c; decide +kernel
theorem dev32_eq (c : Dev nD) : (⟨k0_dev32 c, k0_dev32_lt c⟩ : Dev nD) = p1 c := by revert c; decide +kernel
theorem dev33_eq (c : Dev nD) : (⟨k0_dev33 c, k0_dev33_lt c⟩ : Dev nD) = p1 c := by revert c; decide +kernel
theorem dev34_eq (c : Dev nD) : (⟨k0_dev34 c, k0_dev34_lt c⟩ : Dev nD) = p2 c := by revert c; decide +kernel
theorem dev35_eq (c : Dev nD) : (⟨k0_dev35 c, k0_dev35_lt c⟩ : Dev nD) = p1 c := by revert c; decide +kernel
theorem dev36_eq (c : Dev nD) : (⟨k0_dev36 c, k0_dev36_lt c⟩ : Dev nD) = p2 c := by revert c; decide +kernel
theorem dev37_eq (c : Dev nD) : (⟨k0_dev37 c, k0_dev37_lt c⟩ : Dev nD) = p1 c := by revert c; decide +kernel
theorem dev38_eq (c : Dev nD) : (⟨k0_dev38 c, k0_dev38_lt c⟩ : Dev nD) = p2 c := by revert c; decide +kernel
theorem dev39_eq (c : Dev nD) : (⟨k0_dev39 c, k0_dev39_lt c⟩ : Dev nD) = p1 c := by revert c; decide +kernel
theorem dev40_eq (c : Dev nD) : (⟨k0_dev40 c, k0_dev40_lt c⟩ : Dev nD) = p2 c := by revert c; decide +kernel
theorem dev41_eq (c : Dev nD) : (⟨k0_dev41 c, k0_dev41_lt c⟩ : Dev nD) = p1 c := by revert c; decide +kernel
theorem dev42_eq (c : Dev nD) : (⟨k0_dev42 c, k0_dev42_lt c⟩ : Dev nD) = p2 c := by revert c; decide +kernel

theorem off1_0_512_0 (c : Dev nD) : k0_off1 c 0#32 512#32 0#32 = offX 0 (ca 0) (fl (kA c)) := by revert c; decide +kernel
theorem off1_1024_512_0 (c : Dev nD) : k0_off1 c 1024#32 512#32 0#32 = offX 1 (ca 0) (fl (kA c)) := by revert c; decide +kernel
theorem off1_0_0_512 (c : Dev nD) : k0_off1 c 0#32 0#32 512#32 = offX 0 (ca 0) (kA c) := by revert c; decide +kernel
theorem off1_1024_0_512 (c : Dev nD) : k0_off1 c 1024#32 0#32 512#32 = offX 1 (ca 0) (kA c) := by revert c; decide +kernel

theorem off2_0_512_0 (c : Dev nD) : k0_off2 c 0#32 512#32 0#32 = offX 0 (cb 0) (fl (kB c)) := by revert c; decide +kernel
theorem off2_1024_512_0 (c : Dev nD) : k0_off2 c 1024#32 512#32 0#32 = offX 1 (cb 0) (fl (kB c)) := by revert c; decide +kernel
theorem off2_0_0_512 (c : Dev nD) : k0_off2 c 0#32 0#32 512#32 = offX 0 (cb 0) (kB c) := by revert c; decide +kernel
theorem off2_1024_0_512 (c : Dev nD) : k0_off2 c 1024#32 0#32 512#32 = offX 1 (cb 0) (kB c) := by revert c; decide +kernel

theorem off3_0_512_0 (c : Dev nD) : k0_off3 c 0#32 512#32 0#32 = offX 0 (ca 1) (fl (kA c)) := by revert c; decide +kernel
theorem off3_1024_512_0 (c : Dev nD) : k0_off3 c 1024#32 512#32 0#32 = offX 1 (ca 1) (fl (kA c)) := by revert c; decide +kernel
theorem off3_0_0_512 (c : Dev nD) : k0_off3 c 0#32 0#32 512#32 = offX 0 (ca 1) (kA c) := by revert c; decide +kernel
theorem off3_1024_0_512 (c : Dev nD) : k0_off3 c 1024#32 0#32 512#32 = offX 1 (ca 1) (kA c) := by revert c; decide +kernel

theorem off4_0_512_0 (c : Dev nD) : k0_off4 c 0#32 512#32 0#32 = offX 0 (cb 1) (fl (kB c)) := by revert c; decide +kernel
theorem off4_1024_512_0 (c : Dev nD) : k0_off4 c 1024#32 512#32 0#32 = offX 1 (cb 1) (fl (kB c)) := by revert c; decide +kernel
theorem off4_0_0_512 (c : Dev nD) : k0_off4 c 0#32 0#32 512#32 = offX 0 (cb 1) (kB c) := by revert c; decide +kernel
theorem off4_1024_0_512 (c : Dev nD) : k0_off4 c 1024#32 0#32 512#32 = offX 1 (cb 1) (kB c) := by revert c; decide +kernel

theorem off5_0 (c : Dev nD) : k0_off5 c 0#32 = offH 0 0 (fl (k2A c)) := by revert c; decide +kernel
theorem off5_512 (c : Dev nD) : k0_off5 c 512#32 = offH 1 0 (fl (k2A c)) := by revert c; decide +kernel
theorem off6_0 (c : Dev nD) : k0_off6 c 0#32 = offH 0 0 (fl (k2B c)) := by revert c; decide +kernel
theorem off6_512 (c : Dev nD) : k0_off6 c 512#32 = offH 1 0 (fl (k2B c)) := by revert c; decide +kernel
theorem off7_0 (c : Dev nD) : k0_off7 c 0#32 = offH 0 1 (fl (k2A c)) := by revert c; decide +kernel
theorem off7_512 (c : Dev nD) : k0_off7 c 512#32 = offH 1 1 (fl (k2A c)) := by revert c; decide +kernel
theorem off8_0 (c : Dev nD) : k0_off8 c 0#32 = offH 0 1 (fl (k2B c)) := by revert c; decide +kernel
theorem off8_512 (c : Dev nD) : k0_off8 c 512#32 = offH 1 1 (fl (k2B c)) := by revert c; decide +kernel
theorem off9_0 (c : Dev nD) : k0_off9 c 0#32 = offH 0 0 (k2A c) := by revert c; decide +kernel
theorem off9_512 (c : Dev nD) : k0_off9 c 512#32 = offH 1 0 (k2A c) := by revert c; decide +kernel
theorem off11_0 (c : Dev nD) : k0_off11 c 0#32 = offH 0 0 (k2B c) := by revert c; decide +kernel
theorem off11_512 (c : Dev nD) : k0_off11 c 512#32 = offH 1 0 (k2B c) := by revert c; decide +kernel
theorem off15_0 (c : Dev nD) : k0_off15 c 0#32 = offH 0 1 (k2A c) := by revert c; decide +kernel
theorem off15_512 (c : Dev nD) : k0_off15 c 512#32 = offH 1 1 (k2A c) := by revert c; decide +kernel
theorem off17_0 (c : Dev nD) : k0_off17 c 0#32 = offH 0 1 (k2B c) := by revert c; decide +kernel
theorem off17_512 (c : Dev nD) : k0_off17 c 512#32 = offH 1 1 (k2B c) := by revert c; decide +kernel

theorem off10_0 (c : Dev nD) : k0_off10 c 0#32 = offO 0 (ca 0) (qA c) := by revert c; decide +kernel
theorem off10_1024 (c : Dev nD) : k0_off10 c 1024#32 = offO 1 (ca 0) (qA c) := by revert c; decide +kernel
theorem off12_0 (c : Dev nD) : k0_off12 c 0#32 = offO 0 (cb 0) (qB c) := by revert c; decide +kernel
theorem off12_1024 (c : Dev nD) : k0_off12 c 1024#32 = offO 1 (cb 0) (qB c) := by revert c; decide +kernel
theorem off16_0 (c : Dev nD) : k0_off16 c 0#32 = offO 0 (ca 1) (qA c) := by revert c; decide +kernel
theorem off16_1024 (c : Dev nD) : k0_off16 c 1024#32 = offO 1 (ca 1) (qA c) := by revert c; decide +kernel
theorem off18_0 (c : Dev nD) : k0_off18 c 0#32 = offO 0 (cb 1) (qB c) := by revert c; decide +kernel
theorem off18_1024 (c : Dev nD) : k0_off18 c 1024#32 = offO 1 (cb 1) (qB c) := by revert c; decide +kernel

theorem off13_0_0_256 (c : Dev nD) : k0_off13 c 0#32 0#32 256#32 = offO 0 (ca 0) (qA c) := by revert c; decide +kernel
theorem off13_1024_0_256 (c : Dev nD) : k0_off13 c 1024#32 0#32 256#32 = offO 1 (ca 0) (qA c) := by revert c; decide +kernel
theorem off13_0_256_0 (c : Dev nD) : k0_off13 c 0#32 256#32 0#32 = offO 0 (ca 0) (qA (p2 c)) := by revert c; decide +kernel
theorem off13_1024_256_0 (c : Dev nD) : k0_off13 c 1024#32 256#32 0#32 = offO 1 (ca 0) (qA (p2 c)) := by revert c; decide +kernel

theorem off14_0_0_256 (c : Dev nD) : k0_off14 c 0#32 0#32 256#32 = offO 0 (cb 0) (qB c) := by revert c; decide +kernel
theorem off14_1024_0_256 (c : Dev nD) : k0_off14 c 1024#32 0#32 256#32 = offO 1 (cb 0) (qB c) := by revert c; decide +kernel
theorem off14_0_256_0 (c : Dev nD) : k0_off14 c 0#32 256#32 0#32 = offO 0 (cb 0) (qB (p1 c)) := by revert c; decide +kernel
theorem off14_1024_256_0 (c : Dev nD) : k0_off14 c 1024#32 256#32 0#32 = offO 1 (cb 0) (qB (p1 c)) := by revert c; decide +kernel

theorem off19_0_0_256 (c : Dev nD) : k0_off19 c 0#32 0#32 256#32 = offO 0 (ca 1) (qA c) := by revert c; decide +kernel
theorem off19_1024_0_256 (c : Dev nD) : k0_off19 c 1024#32 0#32 256#32 = offO 1 (ca 1) (qA c) := by revert c; decide +kernel
theorem off19_0_256_0 (c : Dev nD) : k0_off19 c 0#32 256#32 0#32 = offO 0 (ca 1) (qA (p2 c)) := by revert c; decide +kernel
theorem off19_1024_256_0 (c : Dev nD) : k0_off19 c 1024#32 256#32 0#32 = offO 1 (ca 1) (qA (p2 c)) := by revert c; decide +kernel

theorem off20_0_0_256 (c : Dev nD) : k0_off20 c 0#32 0#32 256#32 = offO 0 (cb 1) (qB c) := by revert c; decide +kernel
theorem off20_1024_0_256 (c : Dev nD) : k0_off20 c 1024#32 0#32 256#32 = offO 1 (cb 1) (qB c) := by revert c; decide +kernel
theorem off20_0_256_0 (c : Dev nD) : k0_off20 c 0#32 256#32 0#32 = offO 0 (cb 1) (qB (p1 c)) := by revert c; decide +kernel
theorem off20_1024_256_0 (c : Dev nD) : k0_off20 c 1024#32 256#32 0#32 = offO 1 (cb 1) (qB (p1 c)) := by revert c; decide +kernel

theorem sSem_eq (n : ℕ) (hn : n < 32) (h : ∀ a, (![n] : Fin 1 → ℕ) a + S1.size a ≤ S32.size a) :
    ((cc0_scratch7.slice (Rect.unit (s := S32) ![n] S1.size h)).squeeze S_ squeezes_S1_S_).sem = sSem ⟨n, hn⟩ := by
  have key : ∀ j : (Rect.unit (s := S32) ![n] S1.size h).shape.Idx,
      2 + ((Rect.unit (s := S32) ![n] S1.size h).off 0 + (Rect.unit (s := S32) ![n] S1.size h).stride 0 * (j 0).val) = 2 + n := by
    intro j
    have hj : (j 0).val < 1 := (j 0).isLt
    show 2 + (n + 1 * (j 0).val) = 2 + n
    omega
  apply Fin.ext
  simp only [SemArray.sem, SemArray.squeeze, SemArray.slice, SemArray.consecutive, sSem]
  rw [Shape.rowMajor_val_one, Rect.emb_apply]
  exact key _
theorem rSem_eq (n : ℕ) (hn : n < 32) (h : ∀ a, (![n] : Fin 1 → ℕ) a + S1.size a ≤ S32.size a) :
    ((cc0_scratch8.slice (Rect.unit (s := S32) ![n] S1.size h)).squeeze S_ squeezes_S1_S_).sem = rSem ⟨n, hn⟩ := by
  have key : ∀ j : (Rect.unit (s := S32) ![n] S1.size h).shape.Idx,
      34 + ((Rect.unit (s := S32) ![n] S1.size h).off 0 + (Rect.unit (s := S32) ![n] S1.size h).stride 0 * (j 0).val) = 34 + n := by
    intro j
    have hj : (j 0).val < 1 := (j 0).isLt
    show 34 + (n + 1 * (j 0).val) = 34 + n
    omega
  apply Fin.ext
  simp only [SemArray.sem, SemArray.squeeze, SemArray.slice, SemArray.consecutive, rSem]
  rw [Shape.rowMajor_val_one, Rect.emb_apply]
  exact key _

end Cert.KernelIdeal.AR

end
-- ==== Proof.Body.lean ====
-- The body at a symbolic device: the phases in program order, unit by unit.
import proofs.«900112_g7700000000000113_dist_ar_v7x_i4_i_m2048_n512_bf16_1_alg».proof.Proof.Blocks
import proofs.«900112_g7700000000000113_dist_ar_v7x_i4_i_m2048_n512_bf16_1_alg».proof.Proof.DevOff

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl

def bodyPre (K : Dev nD × Fin 65 → ℕ) (c : Dev nD) : sProp 𝕄 :=
  iprop((ghost m ρ K c ∗ creds c ∗ levAts L lv ∗ scratch c)
    ∗ (dats m ρ 0 c).owesAt 0 t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt 0 t₀.succ ∗ stg c cc0_stg0_0 (xstg m ρ c) ∗ stg c cc0_stg1_0 (outAt (xstg m ρ)))

theorem unitGhost_open (c : Dev nD) (rc cc : Fin 2) :
    (unitGhost (F := F) c (rc, cc) : sProp 𝕄)
      ⊢ iprop((atPos ER (sCell c (ix rc cc 0)) 0 ∅ 0 ∗ atPos ER (sCell c (ix rc cc 1)) 0 ∅ 0 ∗ atPos ER (sCell c (ix rc cc 2)) 0 ∅ 0 ∗ atPos ER (sCell c (ix rc cc 3)) 0 ∅ 0
            ∗ atPos ER (sCell c (ix rc cc 4)) 0 ∅ 0 ∗ atPos ER (sCell c (ix rc cc 5)) 0 ∅ 0 ∗ atPos ER (sCell c (ix rc cc 6)) 0 ∅ 0 ∗ atPos ER (sCell c (ix rc cc 7)) 0 ∅ 0)
          ∗ (atPos ER (rCell c (ix rc cc 0)) 0 ∅ 0 ∗ atPos ER (rCell c (ix rc cc 1)) 0 ∅ 0 ∗ atPos ER (rCell c (ix rc cc 2)) 0 ∅ 0 ∗ atPos ER (rCell c (ix rc cc 3)) 0 ∅ 0
            ∗ atPos ER (rCell c (ix rc cc 4)) 0 ∅ 0 ∗ atPos ER (rCell c (ix rc cc 5)) 0 ∅ 0 ∗ atPos ER (rCell c (ix rc cc 6)) 0 ∅ 0 ∗ atPos ER (rCell c (ix rc cc 7)) 0 ∅ 0)
          ∗ (dutyTok ER (sCell c (ix rc cc 0)) 0 false ∗ dutyTok ER (sCell c (ix rc cc 1)) 0 false ∗ dutyTok ER (sCell c (ix rc cc 2)) 0 false ∗ dutyTok ER (sCell c (ix rc cc 3)) 0 false
            ∗ dutyTok ER (sCell c (ix rc cc 4)) 0 false ∗ dutyTok ER (sCell c (ix rc cc 5)) 0 false ∗ dutyTok ER (sCell c (ix rc cc 6)) 0 false ∗ dutyTok ER (sCell c (ix rc cc 7)) 0 false)
          ∗ (dutyTok ER (sCell c (ix rc cc 0)) 1 false ∗ dutyTok ER (sCell c (ix rc cc 1)) 1 false)
          ∗ (dutyTok ER (rCell (p1 c) (ix rc cc 0)) 0 false ∗ dutyTok ER (rCell (p1 c) (ix rc cc 3)) 0 false
            ∗ dutyTok ER (rCell (p1 c) (ix rc cc 5)) 0 false ∗ dutyTok ER (rCell (p1 c) (ix rc cc 6)) 0 false ∗ dutyTok ER (rCell (p1 c) (ix rc cc 0)) 1 false)
          ∗ (dutyTok ER (rCell (p2 c) (ix rc cc 1)) 0 false ∗ dutyTok ER (rCell (p2 c) (ix rc cc 2)) 0 false
            ∗ dutyTok ER (rCell (p2 c) (ix rc cc 4)) 0 false ∗ dutyTok ER (rCell (p2 c) (ix rc cc 7)) 0 false ∗ dutyTok ER (rCell (p2 c) (ix rc cc 1)) 1 false)
          ∗ (cred (tallyAt (rCell c (ix rc cc 0)) 0 N1) ∗ cred (tallyAt (rCell c (ix rc cc 1)) 0 N1) ∗ cred (tallyAt (rCell c (ix rc cc 2)) 0 N2) ∗ cred (tallyAt (rCell c (ix rc cc 3)) 0 N2)
            ∗ cred (tallyAt (rCell c (ix rc cc 4)) 0 N2) ∗ cred (tallyAt (rCell c (ix rc cc 5)) 0 N2) ∗ cred (tallyAt (rCell c (ix rc cc 6)) 0 N2) ∗ cred (tallyAt (rCell c (ix rc cc 7)) 0 N2))
          ∗ (cred (tallyAt (rCell c (ix rc cc 0)) 1 N2) ∗ cred (tallyAt (rCell c (ix rc cc 1)) 1 N2))) := by
  unfold unitGhost payToks1 payToks2
  rw [bigSep_fin8, bigSep_fin8, bigSep_fin8, bigSep_fin8]
  exact BI.Entails.refl _

def unitScratch (c : Dev nD) (rc cc : Fin 2) : sProp 𝕄 :=
  iprop(tileAny c xbsM (RS4 rc (ca cc)) ∗ tileAny c xbsM (RS4 rc (cb cc)) ∗ tileAny c s1aM (RS2 rc cc) ∗ tileAny c s1bM (RS2 rc cc)
    ∗ tileAny c s2aM (RQ rc cc) ∗ tileAny c s2bM (RQ rc cc) ∗ tileAny c r1aM (RS2 rc cc) ∗ tileAny c r1bM (RS2 rc cc))

theorem scratch_units (c : Dev nD) :
    (scratchTiles (F := F) c : sProp 𝕄) ⊣⊢ iprop(unitScratch c 0 0 ∗ unitScratch c 0 1 ∗ unitScratch c 1 0 ∗ unitScratch c 1 1) := by
  unfold scratchTiles unitScratch
  rw [bigSep_units, bigSep_units, bigSep_units, bigSep_units, bigSep_units, bigSep_units, bigSep_units]
  constructor
  · iintro ⟨⟨⟨A0, B0⟩, ⟨A1, B1⟩, ⟨A2, B2⟩, ⟨A3, B3⟩⟩, ⟨C0, C1, C2, C3⟩, ⟨D0, D1, D2, D3⟩, ⟨E0, E1, E2, E3⟩, ⟨G0, G1, G2, G3⟩, ⟨H0, H1, H2, H3⟩, ⟨I0, I1, I2, I3⟩⟩
    iframe A0 B0 C0 D0 E0 G0 H0 I0 A1 B1 C1 D1 E1 G1 H1 I1 A2 B2 C2 D2 E2 G2 H2 I2 A3 B3 C3 D3 E3 G3 H3 I3
  · iintro ⟨⟨A0, B0, C0, D0, E0, G0, H0, I0⟩, ⟨A1, B1, C1, D1, E1, G1, H1, I1⟩, ⟨A2, B2, C2, D2, E2, G2, H2, I2⟩, ⟨A3, B3, C3, D3, E3, G3, H3, I3⟩⟩
    iframe A0 B0 A1 B1 A2 B2 A3 B3 C0 C1 C2 C3 D0 D1 D2 D3 E0 E1 E2 E3 G0 G1 G2 G3 H0 H1 H2 H3 I0 I1 I2 I3

def unitOutAny (c : Dev nD) (rc cc : Fin 2) : sProp 𝕄 :=
  iprop((tileAny c oM (RO rc (ca cc) (qA c)) ∗ tileAny c oM (RO rc (ca cc) (qA (p2 c))) ∗ tileAny c oM (RO rc (ca cc) (qA (p1 c))) ∗ tileAny c oM (RO rc (ca cc) (qA (p3 c))))
    ∗ (tileAny c oM (RO rc (cb cc) (qB c)) ∗ tileAny c oM (RO rc (cb cc) (qB (p1 c))) ∗ tileAny c oM (RO rc (cb cc) (qB (p2 c))) ∗ tileAny c oM (RO rc (cb cc) (qB (p3 c)))))

theorem out_units (c : Dev nD) :
    (bigSep Finset.univ fun u : Fin 2 × Fin 2 => bigSep Finset.univ fun q : Fin 4 =>
        iprop(tileAny c oM (RO u.1 (ca u.2) q) ∗ tileAny c oM (RO u.1 (cb u.2) q)) : sProp 𝕄)
      ⊢ iprop(unitOutAny c 0 0 ∗ unitOutAny c 0 1 ∗ unitOutAny c 1 0 ∗ unitOutAny c 1 1) := by
  unfold unitOutAny
  rw [bigSep_units]
  simp only [bigSep_sep']
  rw [bigSep_quartersA c, bigSep_quartersB c, bigSep_quartersA c, bigSep_quartersB c, bigSep_quartersA c, bigSep_quartersB c,
    bigSep_quartersA c, bigSep_quartersB c]
  all_goals exact BI.Entails.refl _

def giveP1 (c : Dev nD) (rc cc : Fin 2) : sProp 𝕄 :=
  iprop(tileAny c s1aM (RS2 rc cc) ∗ tileAny c s2bM (RQ rc cc) ∗ tileAny c oM (RO rc (cb cc) (qB (p1 c)))
    ∗ tileAny c oM (RO rc (ca cc) (qA (p1 c))) ∗ tileAny c oM (RO rc (ca cc) (qA (p3 c))))

def giveP2 (c : Dev nD) (rc cc : Fin 2) : sProp 𝕄 :=
  iprop(tileAny c s1bM (RS2 rc cc) ∗ tileAny c s2aM (RQ rc cc) ∗ tileAny c oM (RO rc (ca cc) (qA (p2 c)))
    ∗ tileAny c oM (RO rc (cb cc) (qB (p2 c))) ∗ tileAny c oM (RO rc (cb cc) (qB (p3 c))))

theorem give_p1 (c : Dev nD) :
    iprop(giveP1 (F := F) c 0 0 ∗ giveP1 (F := F) c 0 1 ∗ giveP1 (F := F) c 1 0 ∗ giveP1 (F := F) c 1 1) ⊢ (barPay (F := F) (p1 c) false : sProp 𝕄) := by
  unfold barPay giveP1
  rw [if_neg Bool.false_ne_true, bigSep_units]
  unfold barTilesF
  rw [p1_p1, p2_p1]
  all_goals exact BI.Entails.refl _

theorem give_p2 (c : Dev nD) :
    iprop(giveP2 (F := F) c 0 0 ∗ giveP2 (F := F) c 0 1 ∗ giveP2 (F := F) c 1 0 ∗ giveP2 (F := F) c 1 1) ⊢ (barPay (F := F) (p2 c) true : sProp 𝕄) := by
  unfold barPay giveP2
  rw [if_pos rfl, bigSep_units]
  unfold barTilesT
  rw [p2_p2, p1_p2]
  all_goals exact BI.Entails.refl _

def gotP1 (c : Dev nD) (rc cc : Fin 2) : sProp 𝕄 :=
  iprop(tileAny (p1 c) s1aM (RS2 rc cc) ∗ tileAny (p1 c) s2bM (RQ rc cc) ∗ tileAny (p1 c) oM (RO rc (cb cc) (qB c))
    ∗ tileAny (p1 c) oM (RO rc (ca cc) (qA c)) ∗ tileAny (p1 c) oM (RO rc (ca cc) (qA (p2 c))))
def gotP2 (c : Dev nD) (rc cc : Fin 2) : sProp 𝕄 :=
  iprop(tileAny (p2 c) s1bM (RS2 rc cc) ∗ tileAny (p2 c) s2aM (RQ rc cc) ∗ tileAny (p2 c) oM (RO rc (ca cc) (qA c))
    ∗ tileAny (p2 c) oM (RO rc (cb cc) (qB c)) ∗ tileAny (p2 c) oM (RO rc (cb cc) (qB (p1 c))))

theorem got_bar (c : Dev nD) :
    iprop(barPay (F := F) c false ∗ barPay (F := F) c true)
      ⊢ (iprop((gotP1 (F := F) c 0 0 ∗ gotP1 (F := F) c 0 1 ∗ gotP1 (F := F) c 1 0 ∗ gotP1 (F := F) c 1 1)
          ∗ (gotP2 (F := F) c 0 0 ∗ gotP2 (F := F) c 0 1 ∗ gotP2 (F := F) c 1 0 ∗ gotP2 (F := F) c 1 1)) : sProp 𝕄) := by
  unfold barPay gotP1 gotP2
  rw [if_neg Bool.false_ne_true, if_pos rfl, bigSep_units, bigSep_units]
  unfold barTilesF barTilesT
  all_goals exact BI.Entails.refl _

def unitOut (X : Dev nD → (cc0_stg0_0 : Ref sig .tc).ty.Contents (Elt F)) (c : Dev nD) (rc cc : Fin 2) : sProp 𝕄 :=
  iprop((tile c oM (RO rc (ca cc) (qA c)) (outA X c rc cc) ∗ tile c oM (RO rc (ca cc) (qA (p2 c))) (outA X (p2 c) rc cc)
      ∗ tile c oM (RO rc (ca cc) (qA (p1 c))) (outA X (p1 c) rc cc) ∗ tile c oM (RO rc (ca cc) (qA (p3 c))) (outA X (p3 c) rc cc))
    ∗ (tile c oM (RO rc (cb cc) (qB c)) (outB X c rc cc) ∗ tile c oM (RO rc (cb cc) (qB (p1 c))) (outB X (p1 c) rc cc)
      ∗ tile c oM (RO rc (cb cc) (qB (p2 c))) (outB X (p2 c) rc cc) ∗ tile c oM (RO rc (cb cc) (qB (p3 c))) (outB X (p3 c) rc cc)))

theorem out_units_join (X : Dev nD → (cc0_stg0_0 : Ref sig .tc).ty.Contents (Elt F)) (c : Dev nD) :
    iprop(unitOut X c 0 0 ∗ unitOut X c 0 1 ∗ unitOut X c 1 0 ∗ unitOut X c 1 1)
      ⊢ ((((c : Thread nD τ).loc cc0_stg1_0) ↦{fullShare} outAt X) : sProp 𝕄) := by
  refine BIBase.Entails.trans ?_ (out_join c X)
  unfold unitOut
  rw [bigSep_units]
  simp only [bigSep_sep']
  rw [bigSep_quartersA c, bigSep_quartersB c, bigSep_quartersA c, bigSep_quartersB c, bigSep_quartersA c, bigSep_quartersB c,
    bigSep_quartersA c, bigSep_quartersB c]
  simp only [outTile_a, outTile_b]
  all_goals exact BI.Entails.refl _

theorem unitScratch_close (c : Dev nD) (rc cc : Fin 2) :
    iprop(tileAny c xbsM (RS4 rc (ca cc)) ∗ tileAny c xbsM (RS4 rc (cb cc)) ∗ tileAny c s1aM (RS2 rc cc) ∗ tileAny c s1bM (RS2 rc cc)
        ∗ tileAny c s2aM (RQ rc cc) ∗ tileAny c s2bM (RQ rc cc)
        ∗ (tileAny c r1aM (RH rc cc (k2A c)) ∗ tileAny c r1aM (RH rc cc (fl (k2A c))))
        ∗ (tileAny c r1bM (RH rc cc (k2B c)) ∗ tileAny c r1bM (RH rc cc (fl (k2B c)))))
      ⊢ (unitScratch (F := F) c rc cc : sProp 𝕄) := by
  unfold unitScratch
  have ha : iprop(tileAny c r1aM (RH rc cc (k2A c)) ∗ tileAny c r1aM (RH rc cc (fl (k2A c)))) ⊢ (tileAny c r1aM (RS2 rc cc) : sProp 𝕄) := by
    refine BIBase.Entails.trans ?_ (tileAny_halves c r1aM rc cc).2
    generalize k2A c = h
    fin_cases h
    · exact BI.Entails.refl _
    · exact sep_comm.1
  have hb : iprop(tileAny c r1bM (RH rc cc (k2B c)) ∗ tileAny c r1bM (RH rc cc (fl (k2B c)))) ⊢ (tileAny c r1bM (RS2 rc cc) : sProp 𝕄) := by
    refine BIBase.Entails.trans ?_ (tileAny_halves c r1bM rc cc).2
    generalize k2B c = h
    fin_cases h
    · exact BI.Entails.refl _
    · exact sep_comm.1
  iintro ⟨A, B, C, D, E, G, Ha, Hb⟩
  isplitl [A]; · iexact A
  isplitl [B]; · iexact B
  isplitl [C]; · iexact C
  isplitl [D]; · iexact D
  isplitl [E]; · iexact E
  isplitl [G]; · iexact G
  isplitl [Ha]; · iapply ha; iexact Ha
  iapply hb; iexact Hb

def unitZero (c : Dev nD) (rc cc : Fin 2) : sProp 𝕄 :=
  bigSep Finset.univ fun e : Fin 8 => iprop(semVal (sCell c (ix rc cc e)) 0 ∗ semVal (rCell c (ix rc cc e)) 0)

theorem sems_join (c : Dev nD) :
    iprop(unitZero (F := F) c 0 0 ∗ unitZero (F := F) c 0 1 ∗ unitZero (F := F) c 1 0 ∗ unitZero (F := F) c 1 1)
      ⊢ (iprop((bigSep Finset.univ fun i : Fin 32 => semVal (sCell c i) 0) ∗ bigSep Finset.univ fun i : Fin 32 => semVal (rCell c i) 0) : sProp 𝕄) := by
  refine BIBase.Entails.trans ?_ (sems_units (F := F) c)
  unfold unitZero
  rw [bigSep_units']
  all_goals exact BI.Entails.refl _

set_option maxRecDepth 65536 in
set_option maxHeartbeats 0 in

theorem sound_body (K : Dev nD × Fin 65 → ℕ) (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) cc0_scratch7 cc0_scratch8) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel
  simp only [semSignalWord, semWaitWord, Prog.lift, Prog.bind_op, Prog.bind_ret, Prog.pure_eq_ret, wp_deviceId]
  simp only [dev1_eq c, dev2_eq c]
  simp only [sSem_eq 0 (by decide), sSem_eq 1 (by decide), sSem_eq 2 (by decide), sSem_eq 3 (by decide), sSem_eq 4 (by decide), sSem_eq 5 (by decide), sSem_eq 6 (by decide), sSem_eq 7 (by decide), sSem_eq 8 (by decide), sSem_eq 9 (by decide), sSem_eq 10 (by decide), sSem_eq 11 (by decide), sSem_eq 12 (by decide), sSem_eq 13 (by decide), sSem_eq 14 (by decide), sSem_eq 15 (by decide), sSem_eq 16 (by decide), sSem_eq 17 (by decide), sSem_eq 18 (by decide), sSem_eq 19 (by decide), sSem_eq 20 (by decide), sSem_eq 21 (by decide), sSem_eq 22 (by decide), sSem_eq 23 (by decide), sSem_eq 24 (by decide), sSem_eq 25 (by decide), sSem_eq 26 (by decide), sSem_eq 27 (by decide), sSem_eq 28 (by decide), sSem_eq 29 (by decide), sSem_eq 30 (by decide), sSem_eq 31 (by decide), rSem_eq 0 (by decide), rSem_eq 1 (by decide), rSem_eq 2 (by decide), rSem_eq 3 (by decide), rSem_eq 4 (by decide), rSem_eq 5 (by decide), rSem_eq 6 (by decide), rSem_eq 7 (by decide), rSem_eq 8 (by decide), rSem_eq 9 (by decide), rSem_eq 10 (by decide), rSem_eq 11 (by decide), rSem_eq 12 (by decide), rSem_eq 13 (by decide), rSem_eq 14 (by decide), rSem_eq 15 (by decide), rSem_eq 16 (by decide), rSem_eq 17 (by decide), rSem_eq 18 (by decide), rSem_eq 19 (by decide), rSem_eq 20 (by decide), rSem_eq 21 (by decide), rSem_eq 22 (by decide), rSem_eq 23 (by decide), rSem_eq 24 (by decide), rSem_eq 25 (by decide), rSem_eq 26 (by decide), rSem_eq 27 (by decide), rSem_eq 28 (by decide), rSem_eq 29 (by decide), rSem_eq 30 (by decide), rSem_eq 31 (by decide)]
  unfold bodyPre ghost
  iintro ⟨⟨⟨⟨#HR, Hlin⟩, Hcr, #Hlev, Hscr⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  ihave HO := (show (owes (c : Thread nD τ) ((dats m ρ 0 c).owed t₀.castSucc) W : sProp 𝕄) ⊢ owes (c : Thread nD τ) (owedFrom c 0) W from Entails.of_eq rfl) $$ HO

  ihave Hu := (start_units (F := F) c) $$ [Hlin Hcr]
  · iframe Hlin Hcr
  icases Hu with ⟨HaB, HtB1, HtB2, HcB, HU⟩
  ihave HU' := (Entails.of_eq (bigSep_units' (unitGhost (F := F) c))) $$ HU
  icases HU' with ⟨U0, U1, U2, U3⟩
  ihave V0 := (unitGhost_open (F := F) c 0 0) $$ U0
  icases V0 with ⟨⟨AS00, AS01, AS02, AS03, AS04, AS05, AS06, AS07⟩, ⟨AR00, AR01, AR02, AR03, AR04, AR05, AR06, AR07⟩, ⟨TS00, TS01, TS02, TS03, TS04, TS05, TS06, TS07⟩, ⟨TT00, TT01⟩, ⟨PA00, PA03, PA05, PA06, PA08⟩, ⟨PB01, PB02, PB04, PB07, PB09⟩, ⟨CR00, CR01, CR02, CR03, CR04, CR05, CR06, CR07⟩, ⟨CS00, CS01⟩⟩
  ihave V1 := (unitGhost_open (F := F) c 0 1) $$ U1
  icases V1 with ⟨⟨AS10, AS11, AS12, AS13, AS14, AS15, AS16, AS17⟩, ⟨AR10, AR11, AR12, AR13, AR14, AR15, AR16, AR17⟩, ⟨TS10, TS11, TS12, TS13, TS14, TS15, TS16, TS17⟩, ⟨TT10, TT11⟩, ⟨PA10, PA13, PA15, PA16, PA18⟩, ⟨PB11, PB12, PB14, PB17, PB19⟩, ⟨CR10, CR11, CR12, CR13, CR14, CR15, CR16, CR17⟩, ⟨CS10, CS11⟩⟩
  ihave V2 := (unitGhost_open (F := F) c 1 0) $$ U2
  icases V2 with ⟨⟨AS20, AS21, AS22, AS23, AS24, AS25, AS26, AS27⟩, ⟨AR20, AR21, AR22, AR23, AR24, AR25, AR26, AR27⟩, ⟨TS20, TS21, TS22, TS23, TS24, TS25, TS26, TS27⟩, ⟨TT20, TT21⟩, ⟨PA20, PA23, PA25, PA26, PA28⟩, ⟨PB21, PB22, PB24, PB27, PB29⟩, ⟨CR20, CR21, CR22, CR23, CR24, CR25, CR26, CR27⟩, ⟨CS20, CS21⟩⟩
  ihave V3 := (unitGhost_open (F := F) c 1 1) $$ U3
  icases V3 with ⟨⟨AS30, AS31, AS32, AS33, AS34, AS35, AS36, AS37⟩, ⟨AR30, AR31, AR32, AR33, AR34, AR35, AR36, AR37⟩, ⟨TS30, TS31, TS32, TS33, TS34, TS35, TS36, TS37⟩, ⟨TT30, TT31⟩, ⟨PA30, PA33, PA35, PA36, PA38⟩, ⟨PB31, PB32, PB34, PB37, PB39⟩, ⟨CR30, CR31, CR32, CR33, CR34, CR35, CR36, CR37⟩, ⟨CS30, CS31⟩⟩

  ihave Hs := (scratch_split (F := F) c) $$ Hscr
  ihave Hs' := (scratch_units (F := F) c).1 $$ Hs
  unfold unitScratch
  icases Hs' with ⟨⟨XA0, XB0, SA0, SB0, QA0, QB0, RA0, RB0⟩, ⟨XA1, XB1, SA1, SB1, QA1, QB1, RA1, RB1⟩, ⟨XA2, XB2, SA2, SB2, QA2, QB2, RA2, RB2⟩, ⟨XA3, XB3, SA3, SB3, QA3, QB3, RA3, RB3⟩⟩
  ihave Ho1 := (out_split (F := F) c g1) $$ Hout
  ihave Ho2 := (out_units (F := F) c) $$ Ho1
  unfold unitOutAny
  icases Ho2 with ⟨⟨⟨OA0o, OA02, OA01, OA03⟩, ⟨OB0o, OB01, OB02, OB03⟩⟩, ⟨⟨OA1o, OA12, OA11, OA13⟩, ⟨OB1o, OB11, OB12, OB13⟩⟩, ⟨⟨OA2o, OA22, OA21, OA23⟩, ⟨OB2o, OB21, OB22, OB23⟩⟩, ⟨⟨OA3o, OA32, OA31, OA33⟩, ⟨OB3o, OB31, OB32, OB33⟩⟩⟩
  ihave Hx := (show ((((c : Thread nD τ).loc cc0_stg0_0) ↦{fullShare} xstg m ρ c) : sProp 𝕄) ⊢ xPts m ρ c from Entails.of_eq rfl) $$ Hx

  iapply (Rounds.wp_signal 𝒱₀ ER (rd m ρ) (c : Thread nD τ) none (dst := (p1 c : Thread nD τ)) (κ := K (p1 c, bK))
      (d := false) (by rw [duties_bar]; exact Finset.mem_univ _) ((amount_bar m ρ (p1 c) false).trans (by decide)) 0 (owedFrom c 1)
      (owed_step c 0 _ _ _ rfl) (routes_all c (p1 c)))
    $$ [HO HtB1 SA0 QB0 OB01 OA01 OA03 SA1 QB1 OB11 OA11 OA13 SA2 QB2 OB21 OA21 OA23 SA3 QB3 OB31 OA31 OA33]
  · isplitr; · iapply (inv_b m ρ K (p1 c)); iexact HR
    isplitl [HO]; · iexact HO
    isplitl [HtB1]; · iexact HtB1
    isplitr []
    · rw [payload_bar]
      iapply (give_p1 (F := F) c)
      unfold giveP1
      iframe SA0 QB0 OB01 OA01 OA03 SA1 QB1 OB11 OA11 OA13 SA2 QB2 OB21 OA21 OA23 SA3 QB3 OB31 OA31 OA33
    · iapply (reached0_b m ρ K (p1 c)); iexact HR
  iintro HO

  iapply (Rounds.wp_signal 𝒱₀ ER (rd m ρ) (c : Thread nD τ) none (dst := (p2 c : Thread nD τ)) (κ := K (p2 c, bK))
      (d := true) (by rw [duties_bar]; exact Finset.mem_univ _) ((amount_bar m ρ (p2 c) true).trans (by decide)) 0 (owedFrom c 2)
      (owed_step c 1 _ _ _ rfl) (routes_all c (p2 c)))
    $$ [HO HtB2 SB0 QA0 OA02 OB02 OB03 SB1 QA1 OA12 OB12 OB13 SB2 QA2 OA22 OB22 OB23 SB3 QA3 OA32 OB32 OB33]
  · isplitr; · iapply (inv_b m ρ K (p2 c)); iexact HR
    isplitl [HO]; · iexact HO
    isplitl [HtB2]; · iexact HtB2
    isplitr []
    · rw [payload_bar]
      iapply (give_p2 (F := F) c)
      unfold giveP2
      iframe SB0 QA0 OA02 OB02 OB03 SB1 QA1 OA12 OB12 OB13 SB2 QA2 OA22 OB22 OB23 SB3 QA3 OA32 OB32 OB33
    · iapply (reached0_b m ρ K (p2 c)); iexact HR
  iintro HO

  iapply (Rounds.wp_wait_rest_token 𝒱₀ ER (rd m ρ) (c : Thread nD τ) none (κ := K (c, bK))
      (wpE_semWait_eq 𝒱₀ (c : Thread nD τ) none Set.univ) (Set.mem_univ _) 0 (O := owedFrom c 2) (W := W) (R := 0) (m := 0) (T := ∅)
      (by rw [expect_bar]; decide)) $$ [HcB HO HaB]
  · isplitr; · iapply (inv_b m ρ K c); iexact HR
    isplitl [HcB]; · iexact HcB
    isplitl [HO]; · iexact HO
    isplitr; · iapply (mayWait_bar c 2 (Nat.le_refl 2)); iexact Hlev
    iexact HaB
  iintro ⟨HO, HaB, -, Hpay⟩
  ihave Hp := (Entails.of_eq (rest_bar m ρ c)) $$ Hpay
  ihave Hg := (got_bar (F := F) c) $$ Hp
  unfold gotP1 gotP2
  icases Hg with ⟨⟨⟨GA0a, GA0b, GA0c, GA0d, GA0e⟩, ⟨GA1a, GA1b, GA1c, GA1d, GA1e⟩, ⟨GA2a, GA2b, GA2c, GA2d, GA2e⟩, ⟨GA3a, GA3b, GA3c, GA3d, GA3e⟩⟩, ⟨⟨GB0a, GB0b, GB0c, GB0d, GB0e⟩, ⟨GB1a, GB1b, GB1c, GB1d, GB1e⟩, ⟨GB2a, GB2b, GB2c, GB2d, GB2e⟩, ⟨GB3a, GB3b, GB3c, GB3d, GB3e⟩⟩⟩

  iapply (block1 m ρ K c 0 0 2 _ rfl rfl (off1_0_512_0 c) (off2_0_512_0 c) (dev3_eq c) (dev4_eq c)) $$ [Hx HO XA0 XB0 TS00 TS01 PA00 PB01 GA0a GB0a]
  · iframe HR Hx HO XA0 XB0 TS00 TS01 PA00 PB01 GA0a GB0a
  iintro ⟨Hx, HO, CX00, CX01⟩

  iapply (block1 m ρ K c 0 1 4 _ rfl rfl (off3_0_512_0 c) (off4_0_512_0 c) (dev5_eq c) (dev6_eq c)) $$ [Hx HO XA1 XB1 TS10 TS11 PA10 PB11 GA1a GB1a]
  · iframe HR Hx HO XA1 XB1 TS10 TS11 PA10 PB11 GA1a GB1a
  iintro ⟨Hx, HO, CX10, CX11⟩

  iapply (block1 m ρ K c 1 0 6 _ rfl rfl (off1_1024_512_0 c) (off2_1024_512_0 c) (dev7_eq c) (dev8_eq c)) $$ [Hx HO XA2 XB2 TS20 TS21 PA20 PB21 GA2a GB2a]
  · iframe HR Hx HO XA2 XB2 TS20 TS21 PA20 PB21 GA2a GB2a
  iintro ⟨Hx, HO, CX20, CX21⟩

  iapply (block1 m ρ K c 1 1 8 _ rfl rfl (off3_1024_512_0 c) (off4_1024_512_0 c) (dev9_eq c) (dev10_eq c)) $$ [Hx HO XA3 XB3 TS30 TS31 PA30 PB31 GA3a GB3a]
  · iframe HR Hx HO XA3 XB3 TS30 TS31 PA30 PB31 GA3a GB3a
  iintro ⟨Hx, HO, CX30, CX31⟩

  iapply (block2 m ρ K c 0 0 10 (Nat.le_refl 10) _ rfl rfl (off1_0_0_512 c) (off2_0_0_512 c) (off5_0 c) (off6_0 c) (dev11_eq c) (dev12_eq c)) $$ [Hx HO AR00 CR00 AR01 CR01 RA0 RB0 TS02 TS03 PB02 PA03 GB0b GA0b]
  · iframe HR Hlev Hx HO AR00 CR00 AR01 CR01 RA0 RB0 TS02 TS03 PB02 PA03 GB0b GA0b
  iintro ⟨Hx, ⟨%W1, HO⟩, ⟨AR00, #RR00⟩, ⟨AR01, #RR01⟩, SA0, SB0, RK0a, RK0b, CX02, CX03⟩

  iapply (block2 m ρ K c 0 1 12 (by decide) _ rfl rfl (off3_0_0_512 c) (off4_0_0_512 c) (off7_0 c) (off8_0 c) (dev13_eq c) (dev14_eq c)) $$ [Hx HO AR10 CR10 AR11 CR11 RA1 RB1 TS12 TS13 PB12 PA13 GB1b GA1b]
  · iframe HR Hlev Hx HO AR10 CR10 AR11 CR11 RA1 RB1 TS12 TS13 PB12 PA13 GB1b GA1b
  iintro ⟨Hx, ⟨%W2, HO⟩, ⟨AR10, #RR10⟩, ⟨AR11, #RR11⟩, SA1, SB1, RK1a, RK1b, CX12, CX13⟩

  iapply (block2 m ρ K c 1 0 14 (by decide) _ rfl rfl (off1_1024_0_512 c) (off2_1024_0_512 c) (off5_512 c) (off6_512 c) (dev15_eq c) (dev16_eq c)) $$ [Hx HO AR20 CR20 AR21 CR21 RA2 RB2 TS22 TS23 PB22 PA23 GB2b GA2b]
  · iframe HR Hlev Hx HO AR20 CR20 AR21 CR21 RA2 RB2 TS22 TS23 PB22 PA23 GB2b GA2b
  iintro ⟨Hx, ⟨%W3, HO⟩, ⟨AR20, #RR20⟩, ⟨AR21, #RR21⟩, SA2, SB2, RK2a, RK2b, CX22, CX23⟩

  iapply (block2 m ρ K c 1 1 16 (by decide) _ rfl rfl (off3_1024_0_512 c) (off4_1024_0_512 c) (off7_512 c) (off8_512 c) (dev17_eq c) (dev18_eq c)) $$ [Hx HO AR30 CR30 AR31 CR31 RA3 RB3 TS32 TS33 PB32 PA33 GB3b GA3b]
  · iframe HR Hlev Hx HO AR30 CR30 AR31 CR31 RA3 RB3 TS32 TS33 PB32 PA33 GB3b GA3b
  iintro ⟨Hx, ⟨%W4, HO⟩, ⟨AR30, #RR30⟩, ⟨AR31, #RR31⟩, SA3, SB3, RK3a, RK3b, CX32, CX33⟩

  iapply (block3 m ρ K c 0 0 18 (Nat.le_refl 18) _ rfl rfl rfl rfl (off9_0 c) (off11_0 c) (off10_0 c) (off12_0 c) (off13_0_0_256 c) (off14_0_0_256 c)
      (dev19_eq c) (dev20_eq c) (dev21_eq c) (dev22_eq c))
    $$ [HO AR02 CR02 AR03 CR03 RK0a RK0b OA0o OB0o TS04 TS05 TS06 TS07 PB04 PA05 PA06 PB07 GB0c GA0c GA0d GB0d]
  · iframe HR Hlev RR00 RR01 HO AR02 CR02 AR03 CR03 RK0a RK0b OA0o OB0o TS04 TS05 TS06 TS07 PB04 PA05 PA06 PB07 GB0c GA0c GA0d GB0d
  iintro ⟨⟨%W5, HO⟩, AR02, AR03, QA0, QB0, RK0a, RK0b, ⟨CX04, CX05, CX06, CX07⟩⟩

  iapply (block3 m ρ K c 0 1 22 (by decide) _ rfl rfl rfl rfl (off15_0 c) (off17_0 c) (off16_0 c) (off18_0 c) (off19_0_0_256 c) (off20_0_0_256 c)
      (dev23_eq c) (dev24_eq c) (dev25_eq c) (dev26_eq c))
    $$ [HO AR12 CR12 AR13 CR13 RK1a RK1b OA1o OB1o TS14 TS15 TS16 TS17 PB14 PA15 PA16 PB17 GB1c GA1c GA1d GB1d]
  · iframe HR Hlev RR10 RR11 HO AR12 CR12 AR13 CR13 RK1a RK1b OA1o OB1o TS14 TS15 TS16 TS17 PB14 PA15 PA16 PB17 GB1c GA1c GA1d GB1d
  iintro ⟨⟨%W6, HO⟩, AR12, AR13, QA1, QB1, RK1a, RK1b, ⟨CX14, CX15, CX16, CX17⟩⟩

  iapply (block3 m ρ K c 1 0 26 (by decide) _ rfl rfl rfl rfl (off9_512 c) (off11_512 c) (off10_1024 c) (off12_1024 c) (off13_1024_0_256 c) (off14_1024_0_256 c)
      (dev27_eq c) (dev28_eq c) (dev29_eq c) (dev30_eq c))
    $$ [HO AR22 CR22 AR23 CR23 RK2a RK2b OA2o OB2o TS24 TS25 TS26 TS27 PB24 PA25 PA26 PB27 GB2c GA2c GA2d GB2d]
  · iframe HR Hlev RR20 RR21 HO AR22 CR22 AR23 CR23 RK2a RK2b OA2o OB2o TS24 TS25 TS26 TS27 PB24 PA25 PA26 PB27 GB2c GA2c GA2d GB2d
  iintro ⟨⟨%W7, HO⟩, AR22, AR23, QA2, QB2, RK2a, RK2b, ⟨CX24, CX25, CX26, CX27⟩⟩

  iapply (block3 m ρ K c 1 1 30 (by decide) _ rfl rfl rfl rfl (off15_512 c) (off17_512 c) (off16_1024 c) (off18_1024 c) (off19_1024_0_256 c) (off20_1024_0_256 c)
      (dev31_eq c) (dev32_eq c) (dev33_eq c) (dev34_eq c))
    $$ [HO AR32 CR32 AR33 CR33 RK3a RK3b OA3o OB3o TS34 TS35 TS36 TS37 PB34 PA35 PA36 PB37 GB3c GA3c GA3d GB3d]
  · iframe HR Hlev RR30 RR31 HO AR32 CR32 AR33 CR33 RK3a RK3b OA3o OB3o TS34 TS35 TS36 TS37 PB34 PA35 PA36 PB37 GB3c GA3c GA3d GB3d
  iintro ⟨⟨%W8, HO⟩, AR32, AR33, QA3, QB3, RK3a, RK3b, ⟨CX34, CX35, CX36, CX37⟩⟩

  iapply (block4 m ρ K c 0 0 34 (Nat.le_refl 34) _ rfl rfl (off13_0_256_0 c) (off14_0_256_0 c) (dev35_eq c) (dev36_eq c))
    $$ [HO AR04 CR04 AR05 CR05 AS00 CX00 AS01 CX01 TT00 TT01 PA08 PB09 GA0e GB0e]
  · iframe HR Hlev HO AR04 CR04 AR05 CR05 AS00 CX00 AS01 CX01 TT00 TT01 PA08 PB09 GA0e GB0e
  iintro ⟨⟨%W9, HO⟩, AR04, AR05, ⟨AS00, CY00⟩, ⟨AS01, CY01⟩, XA0, XB0⟩

  iapply (block4 m ρ K c 0 1 36 (by decide) _ rfl rfl (off19_0_256_0 c) (off20_0_256_0 c) (dev37_eq c) (dev38_eq c))
    $$ [HO AR14 CR14 AR15 CR15 AS10 CX10 AS11 CX11 TT10 TT11 PA18 PB19 GA1e GB1e]
  · iframe HR Hlev HO AR14 CR14 AR15 CR15 AS10 CX10 AS11 CX11 TT10 TT11 PA18 PB19 GA1e GB1e
  iintro ⟨⟨%W10, HO⟩, AR14, AR15, ⟨AS10, CY10⟩, ⟨AS11, CY11⟩, XA1, XB1⟩

  iapply (block4 m ρ K c 1 0 38 (by decide) _ rfl rfl (off13_1024_256_0 c) (off14_1024_256_0 c) (dev39_eq c) (dev40_eq c))
    $$ [HO AR24 CR24 AR25 CR25 AS20 CX20 AS21 CX21 TT20 TT21 PA28 PB29 GA2e GB2e]
  · iframe HR Hlev HO AR24 CR24 AR25 CR25 AS20 CX20 AS21 CX21 TT20 TT21 PA28 PB29 GA2e GB2e
  iintro ⟨⟨%W11, HO⟩, AR24, AR25, ⟨AS20, CY20⟩, ⟨AS21, CY21⟩, XA2, XB2⟩

  iapply (block4 m ρ K c 1 1 40 (by decide) _ rfl rfl (off19_1024_256_0 c) (off20_1024_256_0 c) (dev41_eq c) (dev42_eq c))
    $$ [HO AR34 CR34 AR35 CR35 AS30 CX30 AS31 CX31 TT30 TT31 PA38 PB39 GA3e GB3e]
  · iframe HR Hlev HO AR34 CR34 AR35 CR35 AS30 CX30 AS31 CX31 TT30 TT31 PA38 PB39 GA3e GB3e
  iintro ⟨⟨%W12, HO⟩, AR34, AR35, ⟨AS30, CY30⟩, ⟨AS31, CY31⟩, XA3, XB3⟩

  ihave HO := (show (owes (c : Thread nD τ) (owedFrom c (40 + 2)) W12 : sProp 𝕄) ⊢ owes (c : Thread nD τ) 0 W12 from
    Entails.of_eq (by rw [show (40 + 2 : ℕ) = 42 from rfl, owedFrom_end])) $$ HO

  iapply (block5 m ρ K c 0 0 _) $$ [HO AR06 CR06 AR07 CR07 AR00 CS00 AR01 CS01]
  · iframe HR HO AR06 CR06 AR07 CR07 AR00 CS00 AR01 CS01
  iintro ⟨⟨%W13, HO⟩, AR06, AR07, AR00, AR01, OA01, OB02, OA03, OB03⟩

  iapply (block5 m ρ K c 0 1 _) $$ [HO AR16 CR16 AR17 CR17 AR10 CS10 AR11 CS11]
  · iframe HR HO AR16 CR16 AR17 CR17 AR10 CS10 AR11 CS11
  iintro ⟨⟨%W14, HO⟩, AR16, AR17, AR10, AR11, OA11, OB12, OA13, OB13⟩

  iapply (block5 m ρ K c 1 0 _) $$ [HO AR26 CR26 AR27 CR27 AR20 CS20 AR21 CS21]
  · iframe HR HO AR26 CR26 AR27 CR27 AR20 CS20 AR21 CS21
  iintro ⟨⟨%W15, HO⟩, AR26, AR27, AR20, AR21, OA21, OB22, OA23, OB23⟩

  iapply (block5 m ρ K c 1 1 _) $$ [HO AR36 CR36 AR37 CR37 AR30 CS30 AR31 CS31]
  · iframe HR HO AR36 CR36 AR37 CR37 AR30 CS30 AR31 CS31
  iintro ⟨⟨%W16, HO⟩, AR36, AR37, AR30, AR31, OA31, OB32, OA33, OB33⟩

  iapply (block6 m ρ K c 0 0 _) $$ [HO AS02 CX02 AS03 CX03]
  · iframe HR HO AS02 CX02 AS03 CX03
  iintro ⟨⟨%W17, HO⟩, AS02, AS03, RS0a, RS0b⟩
  iapply (block6 m ρ K c 0 1 _) $$ [HO AS12 CX12 AS13 CX13]
  · iframe HR HO AS12 CX12 AS13 CX13
  iintro ⟨⟨%W18, HO⟩, AS12, AS13, RS1a, RS1b⟩
  iapply (block6 m ρ K c 1 0 _) $$ [HO AS22 CX22 AS23 CX23]
  · iframe HR HO AS22 CX22 AS23 CX23
  iintro ⟨⟨%W19, HO⟩, AS22, AS23, RS2a, RS2b⟩
  iapply (block6 m ρ K c 1 1 _) $$ [HO AS32 CX32 AS33 CX33]
  · iframe HR HO AS32 CX32 AS33 CX33
  iintro ⟨⟨%W20, HO⟩, AS32, AS33, RS3a, RS3b⟩

  iapply (block7 m ρ K c 0 0 _) $$ [HO AS04 CX04 AS05 CX05 AS06 CX06 AS07 CX07]
  · iframe HR HO AS04 CX04 AS05 CX05 AS06 CX06 AS07 CX07
  iintro ⟨⟨%W21, HO⟩, AS04, AS05, AS06, AS07, OA0o, OB0o⟩
  iapply (block7 m ρ K c 0 1 _) $$ [HO AS14 CX14 AS15 CX15 AS16 CX16 AS17 CX17]
  · iframe HR HO AS14 CX14 AS15 CX15 AS16 CX16 AS17 CX17
  iintro ⟨⟨%W22, HO⟩, AS14, AS15, AS16, AS17, OA1o, OB1o⟩
  iapply (block7 m ρ K c 1 0 _) $$ [HO AS24 CX24 AS25 CX25 AS26 CX26 AS27 CX27]
  · iframe HR HO AS24 CX24 AS25 CX25 AS26 CX26 AS27 CX27
  iintro ⟨⟨%W23, HO⟩, AS24, AS25, AS26, AS27, OA2o, OB2o⟩
  iapply (block7 m ρ K c 1 1 _) $$ [HO AS34 CX34 AS35 CX35 AS36 CX36 AS37 CX37]
  · iframe HR HO AS34 CX34 AS35 CX35 AS36 CX36 AS37 CX37
  iintro ⟨⟨%W24, HO⟩, AS34, AS35, AS36, AS37, OA3o, OB3o⟩

  iapply (block8 m ρ K c 0 0 _) $$ [HO AS00 CY00 AS01 CY01]
  · iframe HR HO AS00 CY00 AS01 CY01
  iintro ⟨⟨%W25, HO⟩, AS00, AS01, OA02, OB01⟩
  iapply (block8 m ρ K c 0 1 _) $$ [HO AS10 CY10 AS11 CY11]
  · iframe HR HO AS10 CY10 AS11 CY11
  iintro ⟨⟨%W26, HO⟩, AS10, AS11, OA12, OB11⟩
  iapply (block8 m ρ K c 1 0 _) $$ [HO AS20 CY20 AS21 CY21]
  · iframe HR HO AS20 CY20 AS21 CY21
  iintro ⟨⟨%W27, HO⟩, AS20, AS21, OA22, OB21⟩
  iapply (block8 m ρ K c 1 1 _) $$ [HO AS30 CY30 AS31 CY31]
  · iframe HR HO AS30 CY30 AS31 CY31
  iintro ⟨⟨%W28, HO⟩, AS30, AS31, OA32, OB31⟩

  imod (close_unit m ρ K c 0 0) $$ [AS00 AS01 AS02 AS03 AS04 AS05 AS06 AS07 AR00 AR01 AR02 AR03 AR04 AR05 AR06 AR07] with Z0
  · iframe HR AS00 AS01 AS02 AS03 AS04 AS05 AS06 AS07 AR00 AR01 AR02 AR03 AR04 AR05 AR06 AR07
  imod (close_unit m ρ K c 0 1) $$ [AS10 AS11 AS12 AS13 AS14 AS15 AS16 AS17 AR10 AR11 AR12 AR13 AR14 AR15 AR16 AR17] with Z1
  · iframe HR AS10 AS11 AS12 AS13 AS14 AS15 AS16 AS17 AR10 AR11 AR12 AR13 AR14 AR15 AR16 AR17
  imod (close_unit m ρ K c 1 0) $$ [AS20 AS21 AS22 AS23 AS24 AS25 AS26 AS27 AR20 AR21 AR22 AR23 AR24 AR25 AR26 AR27] with Z2
  · iframe HR AS20 AS21 AS22 AS23 AS24 AS25 AS26 AS27 AR20 AR21 AR22 AR23 AR24 AR25 AR26 AR27
  imod (close_unit m ρ K c 1 1) $$ [AS30 AS31 AS32 AS33 AS34 AS35 AS36 AS37 AR30 AR31 AR32 AR33 AR34 AR35 AR36 AR37] with Z3
  · iframe HR AS30 AS31 AS32 AS33 AS34 AS35 AS36 AS37 AR30 AR31 AR32 AR33 AR34 AR35 AR36 AR37

  rw [wp_ret]
  imodintro
  iapply Hk
  unfold bodyPost Φ₁ Dat.owesAt Pipeline.owesWithin
  rw [show (dats m ρ 0 c).owed t₀.succ = 0 from rfl]
  isplitl [XA0 XB0 SA0 SB0 QA0 QB0 RK0a RS0a RK0b RS0b XA1 XB1 SA1 SB1 QA1 QB1 RK1a RS1a RK1b RS1b XA2 XB2 SA2 SB2 QA2 QB2 RK2a RS2a RK2b RS2b XA3 XB3 SA3 SB3 QA3 QB3 RK3a RS3a RK3b RS3b Z0 Z1 Z2 Z3]
  · isplitl [XA0 XB0 SA0 SB0 QA0 QB0 RK0a RS0a RK0b RS0b XA1 XB1 SA1 SB1 QA1 QB1 RK1a RS1a RK1b RS1b XA2 XB2 SA2 SB2 QA2 QB2 RK2a RS2a RK2b RS2b XA3 XB3 SA3 SB3 QA3 QB3 RK3a RS3a RK3b RS3b]
    · iapply (scratch_join (F := F) c)
      iapply (scratch_units (F := F) c).2
      isplitl [XA0 XB0 SA0 SB0 QA0 QB0 RK0a RS0a RK0b RS0b]
      · iapply (unitScratch_close (F := F) c 0 0)
        iframe XA0 XB0 SA0 SB0 QA0 QB0 RK0a RS0a RK0b RS0b
      isplitl [XA1 XB1 SA1 SB1 QA1 QB1 RK1a RS1a RK1b RS1b]
      · iapply (unitScratch_close (F := F) c 0 1)
        iframe XA1 XB1 SA1 SB1 QA1 QB1 RK1a RS1a RK1b RS1b
      isplitl [XA2 XB2 SA2 SB2 QA2 QB2 RK2a RS2a RK2b RS2b]
      · iapply (unitScratch_close (F := F) c 1 0)
        iframe XA2 XB2 SA2 SB2 QA2 QB2 RK2a RS2a RK2b RS2b
      · iapply (unitScratch_close (F := F) c 1 1)
        iframe XA3 XB3 SA3 SB3 QA3 QB3 RK3a RS3a RK3b RS3b
    · iapply (sems_join (F := F) c)
      unfold unitZero
      iframe Z0 Z1 Z2 Z3
  isplitl [HO]
  · iexists W28
    isplitr; · ipureintro; exact fun _ _ => Or.inl trivial
    iexact HO
  isplitl [Hx]
  · iexists _; isplitr; · (ipureintro; rfl)
    unfold xPts; iexact Hx
  iexists _; isplitr; · (ipureintro; rfl)
  iapply (out_units_join (xstg m ρ) c)
  unfold unitOut
  iframe OA0o OA02 OA01 OA03 OB0o OB01 OB02 OB03 OA1o OA12 OA11 OA13 OB1o OB11 OB12 OB13 OA2o OA22 OA21 OA23 OB2o OB21 OB22 OB23 OA3o OA32 OA31 OA33 OB3o OB31 OB32 OB33

set_option maxRecDepth 65536 in
def bodyPre' (c : Dev nD) : sProp 𝕄 :=
  iprop(Φ₀ m ρ c ∗ (dats m ρ 0 c).owesAt 0 t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 65536 in

theorem body_obligation (c : Dev nD) : BodyObligation (dats (F := F) m ρ 0 c) (defs₀ (F := F)) 𝒱₀ 0 Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _) cc0_scratch7 cc0_scratch8) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · iframe Hg Hcr Hlev Hscr
    isplitl [Ho]; · iexact Ho
    isplitl [Hx] <;> iassumption
  · iintro H; iexact H

end Cert.KernelIdeal.AR

end
-- ==== Proof.Launch.lean ====
-- The launch: the cells' resources dealt to the devices, the body run on each, the final arrays read back.
import proofs.«900112_g7700000000000113_dist_ar_v7x_i4_i_m2048_n512_bf16_1_alg».proof.Proof.Tables
import proofs.«900112_g7700000000000113_dist_ar_v7x_i4_i_m2048_n512_bf16_1_alg».proof.Proof.Levels

noncomputable section

namespace Cert.KernelIdeal.AR

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

private abbrev osem : Fin 32 ⊕ Fin 32 → SemLoc sig := fun k => match k with
  | .inl i => .dma (sSem i)
  | .inr i => .dma (rSem i)

private theorem sSem_injective : Function.Injective sSem := fun i j h => by
  have h' : 2 + i.val = 2 + j.val := congrArg (fun q : DmaSem sig => q.val) h
  exact Fin.ext (by omega)
private theorem rSem_injective : Function.Injective rSem := fun i j h => by
  have h' : 34 + i.val = 34 + j.val := congrArg (fun q : DmaSem sig => q.val) h
  exact Fin.ext (by omega)
private theorem sSem_ne_rSem (i j : Fin 32) : sSem i ≠ rSem j := fun h => by
  have h' : 2 + i.val = 34 + j.val := congrArg (fun q : DmaSem sig => q.val) h
  have := i.isLt; omega

private theorem osem_injective : Function.Injective osem := by
  rintro (i | i) (j | j) h
  · exact congrArg Sum.inl (sSem_injective (SemLoc.dma.inj h))
  · exact absurd (SemLoc.dma.inj h) (sSem_ne_rSem i j)
  · exact absurd (SemLoc.dma.inj h).symm (sSem_ne_rSem j i)
  · exact congrArg Sum.inr (rSem_injective (SemLoc.dma.inj h))

private theorem ownSemFacts : Pipeline.OwnSemFacts cfg0.spec osem where
  isScoped k := by rcases k with i | i <;> revert i <;> decide
  inj := osem_injective
  disj k w s := by rcases k with i | i <;> revert i w s <;> decide

private theorem share_eq (c : Dev nD) (w : Fin cfg0.W) : (dats m ρ 0 c).share w = fullShare := by unfold Dat.share; split <;> rfl

private def cnum : SemLoc sig → ℕ
  | .reg _ => 0
  | .dma q => q.val

private theorem cnum_csem (k : Fin 65) : cnum (csem k) = if k.val = 0 then 0 else k.val + 1 := by
  unfold csem
  by_cases h : k.val = 0
  · rw [dif_pos h, if_pos h]; rfl
  · rw [dif_neg h, if_neg h]
    by_cases h' : k.val < 33
    · rw [dif_pos h']; show 2 + (k.val - 1) = k.val + 1; omega
    · rw [dif_neg h']; show 34 + (k.val - 33) = k.val + 1; omega

private theorem csem_injective : Function.Injective csem := fun k k' h => by
  have := congrArg cnum h
  rw [cnum_csem, cnum_csem] at this
  apply Fin.ext
  split_ifs at this <;> omega

private theorem kcell_injective : Function.Injective (kcell : Dev nD × Fin 65 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]

private def arCells : Finset (GSem nD τ sig) := Finset.univ.map ⟨kcell, kcell_injective⟩

private abbrev TokIx : Type := Bool ⊕ ((Fin 32 ⊕ Fin 32) × Fin 2)

private def tokOf (cj : Dev nD × TokIx) : GSem nD τ sig × ℕ × Bool := match cj.2 with
  | .inl d => (barCell cj.1, 0, d)
  | .inr (k, r) => (((cj.1 : Thread nD τ), osem k), r.val, false)

private theorem tokOf_injective : Function.Injective (tokOf : Dev nD × TokIx → GSem nD τ sig × ℕ × Bool) := by
  rintro ⟨c, j⟩ ⟨c', j'⟩ h
  have h1 : c = c' := by
    have := congrArg (fun x : GSem nD τ sig × ℕ × Bool => x.1.1.1) h
    rcases j with d | ⟨k, r⟩ <;> rcases j' with d' | ⟨k', r'⟩ <;> exact this
  subst h1
  rcases j with d | ⟨k, r⟩ <;> rcases j' with d' | ⟨k', r'⟩
  · have hd : d = d' := congrArg (fun x : GSem nD τ sig × ℕ × Bool => x.2.2) h
    rw [hd]
  · have hs : SemLoc.reg barS = osem k' := congrArg (fun x : GSem nD τ sig × ℕ × Bool => x.1.2) h
    rcases k' with i | i <;> cases hs
  · have hs : osem k = SemLoc.reg barS := congrArg (fun x : GSem nD τ sig × ℕ × Bool => x.1.2) h
    rcases k with i | i <;> cases hs
  · have hk : osem k = osem k' := congrArg (fun x : GSem nD τ sig × ℕ × Bool => x.1.2) h
    have hr : r.val = r'.val := congrArg (fun x : GSem nD τ sig × ℕ × Bool => x.2.1) h
    rw [osem_injective hk, Fin.ext hr]

private def arToks : Finset (GSem nD τ sig × ℕ × Bool) := Finset.univ.map ⟨tokOf, tokOf_injective⟩

private def u₀ : UU :=
  (initOf (Pipeline.cells cfgs cellOf_inj) (Pipeline.launchToks cfgs cellOf_inj), initOf arCells arToks)

private def toks (c : Dev nD) : sProp 𝕄 :=
  iprop((dutyTok ER (barCell c) 0 false ∗ dutyTok ER (barCell c) 0 true)
    ∗ (bigSep Finset.univ fun i : Fin 32 => iprop(dutyTok ER (sCell c i) 0 false ∗ dutyTok ER (sCell c i) 1 false))
    ∗ bigSep Finset.univ fun i : Fin 32 => iprop(dutyTok ER (rCell c i) 0 false ∗ dutyTok ER (rCell c i) 1 false))

private def G (c : Dev nD) : sProp 𝕄 :=
  iprop((bigSep Finset.univ fun k : Fin 65 => roundState ER (rd m ρ) (kcell (c, k)) 0)
    ∗ (bigSep Finset.univ fun k : Fin 65 => iprop(atPos ER (kcell (c, k)) 0 ∅ 0 ∗ reached ER (kcell (c, k)) 0)) ∗ toks c)

private def G' (c : Dev nD) : sProp 𝕄 := iprop(∃ K, ghost m ρ K c)

private theorem bigSep_bool (Φ : Bool → sProp 𝕄) : bigSep Finset.univ Φ = iprop(Φ false ∗ Φ true) :=
  bigSep_univ_eq_bigSepL [false, true] (by decide) (by decide) Φ

private theorem toks_eq (c : Dev nD) :
    (bigSep Finset.univ fun j : TokIx => (dutyTok ER (tokOf (c, j)).1 (tokOf (c, j)).2.1 (tokOf (c, j)).2.2 : sProp 𝕄)) = toks c := by
  rw [bigSep_univ_sum, bigSep_bool, bigSep_univ_prod, bigSep_univ_sum]
  simp only [bigSep_fin_two]
  rfl

private theorem fund_ar : BI.own (ER (initOf arCells arToks)) ⊢ (|==> bigSep Finset.univ (G m ρ) : sProp 𝕄) := by
  have hX (Φ : GSem nD τ sig → sProp 𝕄) : bigSep arCells Φ = bigSep Finset.univ fun c : Dev nD => bigSep Finset.univ fun k : Fin 65 => Φ (kcell (c, k)) := by
    unfold arCells; rw [bigSep_map, bigSep_univ_prod]; rfl
  have hT : bigSep arToks (fun x => (dutyTok ER x.1 x.2.1 x.2.2 : sProp 𝕄)) = bigSep Finset.univ fun c : Dev nD => toks c := by
    unfold arToks; rw [bigSep_map, bigSep_univ_prod]
    exact bigSep_congr fun c _ => toks_eq c
  iintro HX
  imod (Rounds.fund ER (rd m ρ) arCells arToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

private def cIdx : Unit ⊕ (Fin 32 ⊕ Fin 32) → Fin 65
  | .inl _ => 0
  | .inr (.inl i) => ⟨i.val + 1, by omega⟩
  | .inr (.inr i) => ⟨i.val + 33, by omega⟩

private theorem cIdx_injective : Function.Injective cIdx := by
  rintro (u | i | i) (u' | j | j) h
  · rfl
  · exact absurd (congrArg Fin.val h) (by show ¬ (0 = j.val + 1); omega)
  · exact absurd (congrArg Fin.val h) (by show ¬ (0 = j.val + 33); omega)
  · exact absurd (congrArg Fin.val h) (by show ¬ (i.val + 1 = 0); omega)
  · have h' : i.val + 1 = j.val + 1 := congrArg Fin.val h
    rw [Fin.ext (show i.val = j.val by omega)]
  · have h' : i.val + 1 = j.val + 33 := congrArg Fin.val h
    have := i.isLt; omega
  · exact absurd (congrArg Fin.val h) (by show ¬ (i.val + 33 = 0); omega)
  · have h' : i.val + 33 = j.val + 1 := congrArg Fin.val h
    have := j.isLt; omega
  · have h' : i.val + 33 = j.val + 33 := congrArg Fin.val h
    rw [Fin.ext (show i.val = j.val by omega)]

private def cE : Unit ⊕ (Fin 32 ⊕ Fin 32) ≃ Fin 65 :=
  Equiv.ofBijective cIdx ((Fintype.bijective_iff_injective_and_card cIdx).mpr ⟨cIdx_injective, by simp⟩)

private theorem csem_cIdx (k : Fin 32 ⊕ Fin 32) : csem (cIdx (.inr k)) = osem k := by
  rcases k with i | i
  · have h0 : ¬ ((cIdx (.inr (.inl i))).val = 0) := by show ¬ (i.val + 1 = 0); omega
    have h1 : (cIdx (.inr (.inl i))).val < 33 := by show i.val + 1 < 33; omega
    unfold csem; rw [dif_neg h0, dif_pos h1]
    exact congrArg (fun j => SemLoc.dma (sSem j)) (Fin.ext (show i.val + 1 - 1 = i.val by omega))
  · have h0 : ¬ ((cIdx (.inr (.inr i))).val = 0) := by show ¬ (i.val + 33 = 0); omega
    have h1 : ¬ ((cIdx (.inr (.inr i))).val < 33) := by show ¬ (i.val + 33 < 33); omega
    unfold csem; rw [dif_neg h0, dif_neg h1]
    exact congrArg (fun j => SemLoc.dma (rSem j)) (Fin.ext (show i.val + 33 - 33 = i.val by omega))

private theorem bigSep_cells (Ψ : SemLoc sig → sProp 𝕄) :
    (bigSep Finset.univ fun k : Fin 65 => Ψ (csem k))
      = iprop(Ψ (.reg barS) ∗ bigSep Finset.univ fun k : Fin 32 ⊕ Fin 32 => Ψ (osem k)) := by
  rw [bigSep_univ_equiv cE (fun k : Fin 65 => Ψ (csem k)), bigSep_univ_sum, bigSep_univ_of_subsingleton (),
    bigSep_congr (fun (k : Fin 32 ⊕ Fin 32) _ => show Ψ (csem (cE (.inr k))) = Ψ (osem k) from by
      rw [show cE (.inr k) = cIdx (.inr k) from rfl, csem_cIdx])]
  rfl

private theorem unscopedSems0_eq (c : Dev nD) : (unscopedSems0 c : sProp 𝕄) = semVal (barCell c) 0 := by
  unfold unscopedSems0; rw [bigSep_eq_bigSepL_of_eq [SemLoc.reg barS] (by decide) (by decide)]; rfl

private theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Fin 65 => semVal (kcell (c, k)) 0 : sProp 𝕄) := by
  have h : (bigSep Finset.univ fun k : Fin 65 => (semVal (kcell (c, k)) 0 : sProp 𝕄))
      = iprop(semVal (barCell c) 0 ∗ bigSep Finset.univ fun k : Fin 32 ⊕ Fin 32 => semVal ((c : Thread nD τ), osem k) 0) :=
    bigSep_cells (fun sm => semVal ((c : Thread nD τ), sm) 0)
  rw [h, unscopedSems0_eq]
  unfold Pipeline.ownSems0
  iintro ⟨HO, HB⟩
  isplitl [HB] <;> iassumption

private theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k : Fin 65 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 65 => semVal (kcell (c, k)) 0) ∗ bigSep Finset.univ fun k : Fin 65 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  iframe Hinv Hat Htok

private instance launch_records_persistent (K : Dev nD × Fin 65 → ℕ) : BI.Persistent (records m ρ K) := by unfold records; infer_instance

private theorem ghost_intro (K : Dev nD × Fin 65 → ℕ) (c : Dev nD) : iprop(records m ρ K ∗ linear c) ⊢ G' m ρ c := by
  unfold G' ghost
  iintro H
  iexists K
  iexact H

private def ixE : (Fin 2 × Fin 2) × Fin 8 ≃ Fin 32 where
  toFun x := ix x.1.1 x.1.2 x.2
  invFun i := ((iRc i, iCc i), iE i)
  left_inv x := by rcases x with ⟨⟨rc, cc⟩, e⟩; simp only [iRc_ix, iCc_ix, iE_ix]
  right_inv i := by revert i; decide

private theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

private theorem bigSep_slots (Φ : Fin 32 → sProp 𝕄) :
    bigSep Finset.univ Φ = bigSep Finset.univ fun u : Fin 2 × Fin 2 =>
      iprop(Φ (ix u.1 u.2 0) ∗ Φ (ix u.1 u.2 1) ∗ Φ (ix u.1 u.2 2) ∗ Φ (ix u.1 u.2 3) ∗ Φ (ix u.1 u.2 4) ∗ Φ (ix u.1 u.2 5) ∗ Φ (ix u.1 u.2 6) ∗ Φ (ix u.1 u.2 7)) := by
  rw [bigSep_univ_equiv ixE Φ, bigSep_univ_prod]
  exact bigSep_congr fun u _ => bigSep_fin8 fun e => Φ (ixE (u, e))

private def rcvToks1 (c : Dev nD) (u : Fin 2 × Fin 2) : sProp 𝕄 :=
  iprop(dutyTok ER (rCell c (ix u.1 u.2 0)) 0 false ∗ dutyTok ER (rCell c (ix u.1 u.2 3)) 0 false
    ∗ dutyTok ER (rCell c (ix u.1 u.2 5)) 0 false ∗ dutyTok ER (rCell c (ix u.1 u.2 6)) 0 false
    ∗ dutyTok ER (rCell c (ix u.1 u.2 0)) 1 false)
private def rcvToks2 (c : Dev nD) (u : Fin 2 × Fin 2) : sProp 𝕄 :=
  iprop(dutyTok ER (rCell c (ix u.1 u.2 1)) 0 false ∗ dutyTok ER (rCell c (ix u.1 u.2 2)) 0 false
    ∗ dutyTok ER (rCell c (ix u.1 u.2 4)) 0 false ∗ dutyTok ER (rCell c (ix u.1 u.2 7)) 0 false
    ∗ dutyTok ER (rCell c (ix u.1 u.2 1)) 1 false)

private theorem payToks1_eq (c : Dev nD) : payToks1 (F := F) c = rcvToks1 (p1 c) := rfl
private theorem payToks2_eq (c : Dev nD) : payToks2 (F := F) c = rcvToks2 (p2 c) := rfl

private theorem deal_unit (A B : Fin 8 → sProp 𝕄) :
    iprop((A 0 ∗ A 1 ∗ A 2 ∗ A 3 ∗ A 4 ∗ A 5 ∗ A 6 ∗ A 7) ∗ (B 0 ∗ B 1 ∗ B 2 ∗ B 3 ∗ B 4 ∗ B 5 ∗ B 6 ∗ B 7))
      ⊢ iprop((A 0 ∗ A 3 ∗ A 5 ∗ A 6 ∗ B 0) ∗ (A 1 ∗ A 2 ∗ A 4 ∗ A 7 ∗ B 1)) := by
  iintro ⟨⟨A0, A1, A2, A3, A4, A5, A6, A7⟩, ⟨B0, B1, -⟩⟩
  iframe A0 A3 A5 A6 B0 A1 A2 A4 A7 B1

private theorem keep_two (B : Fin 8 → sProp 𝕄) : iprop(B 0 ∗ B 1 ∗ B 2 ∗ B 3 ∗ B 4 ∗ B 5 ∗ B 6 ∗ B 7) ⊢ iprop(B 0 ∗ B 1) := by
  iintro ⟨B0, B1, -⟩
  isplitl [B0] <;> iassumption

private theorem toks_split (c : Dev nD) :
    (toks c : sProp 𝕄) ⊢ iprop(dutyTok ER (barCell c) 0 false ∗ dutyTok ER (barCell c) 0 true ∗ sendToks c
      ∗ (bigSep Finset.univ (rcvToks1 (F := F) c)) ∗ bigSep Finset.univ (rcvToks2 (F := F) c)) := by
  unfold toks sendToks
  iintro ⟨⟨Hbf, Hbt⟩, Hs, Hr⟩
  ihave Hs' := (Entails.of_eq (bigSep_sep' Finset.univ (fun i : Fin 32 => (dutyTok ER (sCell c i) 0 false : sProp 𝕄)) (fun i => dutyTok ER (sCell c i) 1 false))) $$ Hs
  icases Hs' with ⟨Hs0, Hs1⟩
  ihave Hs1' := ((Entails.of_eq (bigSep_slots (fun i : Fin 32 => (dutyTok ER (sCell c i) 1 false : sProp 𝕄)))).trans
    (bigSep_mono fun u _ => keep_two (fun e : Fin 8 => (dutyTok ER (sCell c (ix u.1 u.2 e)) 1 false : sProp 𝕄)))) $$ Hs1
  ihave Hr' := (Entails.of_eq (bigSep_sep' Finset.univ (fun i : Fin 32 => (dutyTok ER (rCell c i) 0 false : sProp 𝕄)) (fun i => dutyTok ER (rCell c i) 1 false))) $$ Hr
  icases Hr' with ⟨Hr0, Hr1⟩
  ihave Hr0' := (Entails.of_eq (bigSep_slots (fun i : Fin 32 => (dutyTok ER (rCell c i) 0 false : sProp 𝕄)))) $$ Hr0
  ihave Hr1' := (Entails.of_eq (bigSep_slots (fun i : Fin 32 => (dutyTok ER (rCell c i) 1 false : sProp 𝕄)))) $$ Hr1
  ihave Hrr := ((Entails.of_eq (bigSep_sep' Finset.univ
      (fun u : Fin 2 × Fin 2 => iprop((dutyTok ER (rCell c (ix u.1 u.2 0)) 0 false : sProp 𝕄) ∗ dutyTok ER (rCell c (ix u.1 u.2 1)) 0 false ∗ dutyTok ER (rCell c (ix u.1 u.2 2)) 0 false
        ∗ dutyTok ER (rCell c (ix u.1 u.2 3)) 0 false ∗ dutyTok ER (rCell c (ix u.1 u.2 4)) 0 false ∗ dutyTok ER (rCell c (ix u.1 u.2 5)) 0 false
        ∗ dutyTok ER (rCell c (ix u.1 u.2 6)) 0 false ∗ dutyTok ER (rCell c (ix u.1 u.2 7)) 0 false))
      (fun u : Fin 2 × Fin 2 => iprop((dutyTok ER (rCell c (ix u.1 u.2 0)) 1 false : sProp 𝕄) ∗ dutyTok ER (rCell c (ix u.1 u.2 1)) 1 false ∗ dutyTok ER (rCell c (ix u.1 u.2 2)) 1 false
        ∗ dutyTok ER (rCell c (ix u.1 u.2 3)) 1 false ∗ dutyTok ER (rCell c (ix u.1 u.2 4)) 1 false ∗ dutyTok ER (rCell c (ix u.1 u.2 5)) 1 false
        ∗ dutyTok ER (rCell c (ix u.1 u.2 6)) 1 false ∗ dutyTok ER (rCell c (ix u.1 u.2 7)) 1 false))).symm).trans
    ((bigSep_mono fun u _ => deal_unit (fun e : Fin 8 => (dutyTok ER (rCell c (ix u.1 u.2 e)) 0 false : sProp 𝕄)) (fun e : Fin 8 => dutyTok ER (rCell c (ix u.1 u.2 e)) 1 false)).trans
      (Entails.of_eq (bigSep_sep' Finset.univ (rcvToks1 (F := F) c) (rcvToks2 (F := F) c))))) $$ [Hr0' Hr1']
  · isplitl [Hr0'] <;> iassumption
  icases Hrr with ⟨H1, H2⟩
  isplitl [Hbf]; · iexact Hbf
  isplitl [Hbt]; · iexact Hbt
  isplitl [Hs0 Hs1']
  · isplitl [Hs0] <;> iassumption
  isplitl [H1] <;> iassumption

private theorem toks_around : (bigSep Finset.univ fun c : Dev nD => (toks c : sProp 𝕄)) ⊢ bigSep Finset.univ fun c : Dev nD => payToks c := by
  refine (bigSep_mono fun c _ => toks_split (F := F) c).trans ?_
  unfold payToks
  simp only [payToks1_eq, payToks2_eq]
  rw [bigSep_sep', bigSep_sep', bigSep_sep', bigSep_sep', bigSep_sep', bigSep_sep', bigSep_sep', bigSep_sep',
    bigSep_univ_equiv e1 (fun c : Dev nD => (dutyTok ER (barCell c) 0 false : sProp 𝕄)),
    bigSep_univ_equiv e2 (fun c : Dev nD => (dutyTok ER (barCell c) 0 true : sProp 𝕄)),
    bigSep_univ_equiv e1 (fun c : Dev nD => (bigSep Finset.univ (rcvToks1 (F := F) c) : sProp 𝕄)),
    bigSep_univ_equiv e2 (fun c : Dev nD => (bigSep Finset.univ (rcvToks2 (F := F) c) : sProp 𝕄))]
  exact BI.Entails.refl _

private theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

private theorem regroup :
    (bigSep Finset.univ fun c : Dev nD => iprop((bigSep Finset.univ fun k => iprop(∃ κ : ℕ, cellInv ER (rd m ρ) κ (kcell (c, k))))
          ∗ (bigSep Finset.univ fun k : Fin 65 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 65 => iprop(∃ κ : ℕ, cellInv ER (rd m ρ) κ (kcell ck))),
    bigSep_congr (s := Finset.univ) (fun (c : Dev nD) _ => bigSep_sep' Finset.univ (fun k : Fin 65 => (atPos ER (kcell (c, k)) 0 ∅ 0 : sProp 𝕄)) (fun k => reached ER (kcell (c, k)) 0)),
    bigSep_sep', ← bigSep_univ_prod (fun ck : Dev nD × Fin 65 => (reached ER (kcell ck) 0 : sProp 𝕄))]
  iintro ⟨HI, ⟨Hat, #HR⟩, Htok⟩
  ihave HK := (BI.bigSep_exists_pi Finset.univ (fun (ck : Dev nD × Fin 65) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 65 => (atPos ER (kcell (c, k)) 0 ∅ 0 : sProp 𝕄)) payToks).symm).trans
      (bigSep_mono fun c _ => show _ ⊢ linear c from Entails.of_eq (by unfold linear; rfl)))
    iframe Hat Htk

private theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

private def dueU (c : Dev nD) (u : Fin 2 × Fin 2) : CellTallies nD τ sig ℕ :=
  tallyAt (rCell c (ix u.1 u.2 0)) 0 N1 + tallyAt (rCell c (ix u.1 u.2 1)) 0 N1
  + tallyAt (rCell c (ix u.1 u.2 2)) 0 N2 + tallyAt (rCell c (ix u.1 u.2 3)) 0 N2
  + tallyAt (rCell c (ix u.1 u.2 4)) 0 N2 + tallyAt (rCell c (ix u.1 u.2 5)) 0 N2
  + tallyAt (rCell c (ix u.1 u.2 6)) 0 N2 + tallyAt (rCell c (ix u.1 u.2 7)) 0 N2
  + tallyAt (rCell c (ix u.1 u.2 0)) 1 N2 + tallyAt (rCell c (ix u.1 u.2 1)) 1 N2

private def due (c : Dev nD) : CellTallies nD τ sig ℕ :=
  tallyAt (barCell c) 0 1 + tallyAt (barCell c) 0 1 + ∑ u : Fin 2 × Fin 2, dueU c u

private def oweU (d : Dev nD) (u : Fin 2 × Fin 2) : CellTallies nD τ sig ℕ :=
  tallyAt (rCell (p1 d) (ix u.1 u.2 0)) 0 N1 + tallyAt (rCell (p2 d) (ix u.1 u.2 1)) 0 N1
  + tallyAt (rCell (p2 d) (ix u.1 u.2 2)) 0 N2 + tallyAt (rCell (p1 d) (ix u.1 u.2 3)) 0 N2
  + tallyAt (rCell (p2 d) (ix u.1 u.2 4)) 0 N2 + tallyAt (rCell (p1 d) (ix u.1 u.2 5)) 0 N2
  + tallyAt (rCell (p1 d) (ix u.1 u.2 6)) 0 N2 + tallyAt (rCell (p2 d) (ix u.1 u.2 7)) 0 N2
  + tallyAt (rCell (p1 d) (ix u.1 u.2 0)) 1 N2 + tallyAt (rCell (p2 d) (ix u.1 u.2 1)) 1 N2

private theorem O₀_eq (d : Dev nD) :
    O₀ d = tallyAt (barCell (p1 d)) 0 1 + tallyAt (barCell (p2 d)) 0 1 + ∑ u : Fin 2 × Fin 2, oweU d u := by
  unfold O₀ owedFrom pays un oweU
  simp only [List.drop_zero, List.flatMap_cons, List.flatMap_nil, List.append_assoc, List.cons_append, List.nil_append,
    List.append_nil, List.foldr_cons, List.foldr_nil, Fintype.sum_prod_type, Fin.sum_univ_two, zero_add]
  abel

private theorem sum_p1 (f : Dev nD → CellTallies nD τ sig ℕ) : ∑ d, f (p1 d) = ∑ d, f d := Equiv.sum_comp e1 f
private theorem sum_p2 (f : Dev nD → CellTallies nD τ sig ℕ) : ∑ d, f (p2 d) = ∑ d, f d := Equiv.sum_comp e2 f

private theorem sum_oweU (u : Fin 2 × Fin 2) : ∑ d, oweU d u = ∑ d, dueU d u := by
  unfold oweU dueU
  simp only [Finset.sum_add_distrib]
  rw [sum_p1 (fun d => tallyAt (rCell d (ix u.1 u.2 0)) 0 N1), sum_p2 (fun d => tallyAt (rCell d (ix u.1 u.2 1)) 0 N1),
    sum_p2 (fun d => tallyAt (rCell d (ix u.1 u.2 2)) 0 N2), sum_p1 (fun d => tallyAt (rCell d (ix u.1 u.2 3)) 0 N2),
    sum_p2 (fun d => tallyAt (rCell d (ix u.1 u.2 4)) 0 N2), sum_p1 (fun d => tallyAt (rCell d (ix u.1 u.2 5)) 0 N2),
    sum_p1 (fun d => tallyAt (rCell d (ix u.1 u.2 6)) 0 N2), sum_p2 (fun d => tallyAt (rCell d (ix u.1 u.2 7)) 0 N2),
    sum_p1 (fun d => tallyAt (rCell d (ix u.1 u.2 0)) 1 N2), sum_p2 (fun d => tallyAt (rCell d (ix u.1 u.2 1)) 1 N2)]

private theorem sum_O₀ : (∑ d, O₀ d) = ∑ d, due d :=
  calc (∑ d, O₀ d)
      = ∑ d, (tallyAt (barCell (p1 d)) 0 1 + tallyAt (barCell (p2 d)) 0 1 + ∑ u : Fin 2 × Fin 2, oweU d u) :=
        Finset.sum_congr rfl fun d _ => O₀_eq d
    _ = (∑ d : Dev nD, (tallyAt (barCell (p1 d)) 0 1 : CellTallies nD τ sig ℕ)) + (∑ d : Dev nD, tallyAt (barCell (p2 d)) 0 1)
          + ∑ d : Dev nD, ∑ u : Fin 2 × Fin 2, oweU d u := by rw [Finset.sum_add_distrib, Finset.sum_add_distrib]
    _ = (∑ d : Dev nD, (tallyAt (barCell d) 0 1 : CellTallies nD τ sig ℕ)) + (∑ d : Dev nD, tallyAt (barCell d) 0 1)
          + ∑ u : Fin 2 × Fin 2, ∑ d : Dev nD, oweU d u := by
        rw [sum_p1 (fun d => tallyAt (barCell d) 0 1), sum_p2 (fun d => tallyAt (barCell d) 0 1), Finset.sum_comm]
    _ = (∑ d : Dev nD, (tallyAt (barCell d) 0 1 : CellTallies nD τ sig ℕ)) + (∑ d : Dev nD, tallyAt (barCell d) 0 1)
          + ∑ u : Fin 2 × Fin 2, ∑ d : Dev nD, dueU d u := by rw [Finset.sum_congr rfl fun u _ => sum_oweU u]
    _ = ∑ d, due d := by unfold due; rw [Finset.sum_add_distrib, Finset.sum_add_distrib, Finset.sum_comm]

private def OnDev (d : Dev nD) (T : CellTallies nD τ sig ℕ) : Prop := ∀ g, T g ≠ 0 → g.1 = (d : Thread nD τ)

private theorem OnDev.add {d : Dev nD} {A B : CellTallies nD τ sig ℕ} (ha : OnDev d A) (hb : OnDev d B) : OnDev d (A + B) := fun g h => by
  by_cases h1 : A g = 0
  · exact hb g (fun h2 => h (by rw [Pi.add_apply, h1, h2, add_zero]))
  · exact ha g h1

private theorem OnDev.tallyAt (d : Dev nD) (sm : SemLoc sig) (ι k : ℕ) : OnDev d (tallyAt ((d : Thread nD τ), sm) ι k) := fun g h => by
  by_contra hne
  exact h (tallyAt_ne_cell (fun he => hne (by rw [he])) ι k)

private theorem OnDev.sum {d : Dev nD} {α : Type} (s : Finset α) (T : α → CellTallies nD τ sig ℕ) (h : ∀ a ∈ s, OnDev d (T a)) :
    OnDev d (∑ a ∈ s, T a) := fun g hg => by
  rw [Finset.sum_apply] at hg
  obtain ⟨a, ha, hne⟩ := Finset.exists_ne_zero_of_sum_ne_zero hg
  exact h a ha g hne

private theorem due_on (d : Dev nD) : OnDev d (due d) := by
  unfold due
  refine ((OnDev.tallyAt d _ _ _).add (OnDev.tallyAt d _ _ _)).add (OnDev.sum _ _ fun u _ => ?_)
  unfold dueU
  repeat' apply OnDev.add
  all_goals exact OnDev.tallyAt d _ _ _

private theorem launchCred_eq (c : Dev nD) : (Pipeline.launchCred O₀ c : sProp 𝕄) = cred (due c) :=
  Pipeline.launchCred_of_sum O₀ due sum_O₀ (fun d g h => due_on d g h) c

private theorem cred_add_eq (a b : CellTallies nD τ sig ℕ) : (cred (a + b) : sProp 𝕄) = iprop(cred a ∗ cred b) :=
  BI.Entails.antisymm (cred_add _ _).1 (cred_add _ _).2

private theorem launch_ix_mod (rc cc : Fin 2) (e : Fin 8) : (ix rc cc e).val % 8 = e.val := by revert rc cc e; decide

private theorem amt_big (u : Fin 2 × Fin 2) (e : Fin 8) (he : e.val < 2) : (if (ix u.1 u.2 e).val % 8 < 2 then N1 else N2) = N1 := by
  rw [launch_ix_mod, if_pos he]
private theorem amt_small (u : Fin 2 × Fin 2) (e : Fin 8) (he : ¬ e.val < 2) : (if (ix u.1 u.2 e).val % 8 < 2 then N1 else N2) = N2 := by
  rw [launch_ix_mod, if_neg he]

private theorem cred_dueU (c : Dev nD) (u : Fin 2 × Fin 2) :
    (cred (dueU c u) : sProp 𝕄) ⊢ iprop(
      (cred (tallyAt (rCell c (ix u.1 u.2 0)) 0 (if (ix u.1 u.2 0).val % 8 < 2 then N1 else N2))
        ∗ cred (tallyAt (rCell c (ix u.1 u.2 1)) 0 (if (ix u.1 u.2 1).val % 8 < 2 then N1 else N2))
        ∗ cred (tallyAt (rCell c (ix u.1 u.2 2)) 0 (if (ix u.1 u.2 2).val % 8 < 2 then N1 else N2))
        ∗ cred (tallyAt (rCell c (ix u.1 u.2 3)) 0 (if (ix u.1 u.2 3).val % 8 < 2 then N1 else N2))
        ∗ cred (tallyAt (rCell c (ix u.1 u.2 4)) 0 (if (ix u.1 u.2 4).val % 8 < 2 then N1 else N2))
        ∗ cred (tallyAt (rCell c (ix u.1 u.2 5)) 0 (if (ix u.1 u.2 5).val % 8 < 2 then N1 else N2))
        ∗ cred (tallyAt (rCell c (ix u.1 u.2 6)) 0 (if (ix u.1 u.2 6).val % 8 < 2 then N1 else N2))
        ∗ cred (tallyAt (rCell c (ix u.1 u.2 7)) 0 (if (ix u.1 u.2 7).val % 8 < 2 then N1 else N2)))
      ∗ (cred (tallyAt (rCell c (ix u.1 u.2 0)) 1 N2) ∗ cred (tallyAt (rCell c (ix u.1 u.2 1)) 1 N2))) := by
  rw [amt_big u 0 (by decide), amt_big u 1 (by decide), amt_small u 2 (by decide), amt_small u 3 (by decide),
    amt_small u 4 (by decide), amt_small u 5 (by decide), amt_small u 6 (by decide), amt_small u 7 (by decide)]
  unfold dueU
  simp only [cred_add_eq]
  iintro ⟨⟨⟨⟨⟨⟨⟨⟨⟨H0, H1⟩, H2⟩, H3⟩, H4⟩, H5⟩, H6⟩, H7⟩, H8⟩, H9⟩
  isplitl [H0 H1 H2 H3 H4 H5 H6 H7]
  · iframe H0 H1 H2 H3 H4 H5 H6 H7
  · isplitl [H8] <;> iassumption

private theorem cred_due (c : Dev nD) : (cred (due c) : sProp 𝕄) ⊢ creds c := by
  unfold due creds
  rw [cred_add_eq, tallyAt_add, Pipeline.cred_finsetSum]
  refine sep_mono_right ?_
  rw [bigSep_slots (fun i : Fin 32 => (cred (tallyAt (rCell c i) 0 (if i.val % 8 < 2 then N1 else N2)) : sProp 𝕄)), ← bigSep_sep']
  exact bigSep_mono fun u _ => cred_dueU c u

private theorem creds_intro (c : Dev nD) : (Pipeline.launchCred O₀ c : sProp 𝕄) ⊢ creds c := by
  rw [launchCred_eq]; exact cred_due c

private theorem ownSems0_eq (c : Dev nD) :
    (Pipeline.ownSems0 (Ix := ℕ) (Name := ℕ) (U := UU) (Lvl := ℕ) (Val := Elt F) (τ := τ) osem c : sProp 𝕄)
      = iprop((bigSep Finset.univ fun i : Fin 32 => semVal (sCell c i) 0) ∗ bigSep Finset.univ fun i : Fin 32 => semVal (rCell c i) 0) := by
  unfold Pipeline.ownSems0; rw [bigSep_univ_sum]; rfl

private theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · iframe HG Hc Hlev
  · iempintro

private theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  iframe Hs Hr

private theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨Hr, HzS, HzV⟩
  isplitr; · iempintro
  isplitl [HzS HzV]
  · isplitl [HzS] <;> iassumption
  iexact Hr

private theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide) _ (by
      rcases t with ⟨_ | _, ht⟩
      · exact Or.inl rfl
      · exact Or.inr rfl)

set_option maxRecDepth 40000 in

theorem run_main (hbody : ∀ c : Dev nD, BodyObligation (dats (F := F) m ρ 0 c) (defs₀ (F := F)) 𝒱₀ 0 Set.univ) :
    θ_run defs (onTc (τ := τ) (main (F := F))) (s₀ m ρ) (QC m ρ) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ar m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_x (c : Dev nD) : finalA m ρ c (0 : Fin 2) = (s₀ m ρ).mem (win0_0.arr.view.loc (c : Thread nD τ)) :=
  (dats (F := F) m ρ 0 c).arrAt_in (0 : Fin 2) rfl _

theorem finalA_out (c : Dev nD) : finalA m ρ c (1 : Fin 2) = outAt (xstg m ρ) := by
  unfold finalA
  rw [show cfg0.N = (t0_0 : Fin cfg0.N).val + 1 from rfl, (dats (F := F) m ρ 0 c).arrAt_succ (1 : Fin 2) t0_0, if_pos (flush0_1 _)]
  exact Memref.write_access_unit_zero_univ (Elt F) main_v1 (funext fun a => Nat.zero_mul _) _ _ _

theorem run_value (hbody : ∀ c : Dev nD, BodyObligation (dats (F := F) m ρ 0 c) (defs₀ (F := F)) 𝒱₀ 0 Set.univ) :
    θ_run defs (onTc (τ := τ) (main (F := F))) ⟨m, fun _ => 0, ρ⟩ (fun r => ∀ c : Dev nD,
      r.2.mem ((c.tc : Thread nD τ).loc main_v1) = outAt (xstg m ρ)
      ∧ r.2.mem ((c.tc : Thread nD τ).loc main_arg0) = m ((c.tc : Thread nD τ).loc main_arg0)) :=
  (θ_run defs (onTc (τ := τ) (main (F := F))) (s₀ m ρ)).mono
    (fun r (h : QC m ρ r) c => ⟨(h c (1 : Fin 2)).trans (finalA_out m ρ c), (h c (0 : Fin 2)).trans (finalA_x m ρ c)⟩)
    (run_main m ρ hbody)

end Cert.KernelIdeal.AR

end
-- ==== Proof.Value.lean ====
-- The array every device ends with is the reference's sum of the four blocks along the stacking axis.
import proofs.«900112_g7700000000000113_dist_ar_v7x_i4_i_m2048_n512_bf16_1_alg».proof.Proof.Ghost
import proofs.«900112_g7700000000000113_dist_ar_v7x_i4_i_m2048_n512_bf16_1_alg».proof.Proof.Gen.ReferenceIdeal.Read
import Idealize.ShloMosaic.Lib.Layout
import Idealize.ShloMosaic.Lib.Pipeline.Value
import Idealize.ShloMosaic.Lib.ValueIdx
import Idealize.ShloMosaic.PureOps.Ideal.Laws

noncomputable section

namespace Cert.KernelIdeal.ARValue

open Cert.KernelIdeal Cert.KernelIdeal.Gen Cert.KernelIdeal.AR
open Idealize.ShloMosaic Idealize.ShloMosaic.TcCoe Idealize.SL.Sem

open Idealize.ShloMosaic.ValueIdx

abbrev rd32 {s : Shape} (v : Vec Ideal s .f32) : s.Idx → EReal := v

abbrev rd16 {s : Shape} (v : Vec Ideal s .bf16) : s.Idx → EReal := v

theorem pay1_apply (v : Vec Ideal S512x128 .f32) (z : S512x128.Idx) : rd16 (k0_pay1 v) z = rd32 v z := by
  unfold k0_pay1
  simp only [shapeCast_self]
  rfl

theorem pay9_apply (a : Vec Ideal S512x128 .f32) (b : Vec Ideal S512x128 .bf16) (z : S512x128.Idx) :
    rd16 (k0_pay9 a b) z = rd32 a z + rd16 b z := by
  unfold k0_pay9
  simp only [shapeCast_self]
  rfl

theorem pay18_apply (a b : Vec Ideal S256x128 .bf16) (z : S256x128.Idx) :
    rd16 (k0_pay18 a b) z = rd16 a z + rd16 b z := rfl

section Tiles
variable (X : Dev nD → S2048x512.Idx → EReal)

theorem xt_apply (e : Dev nD) (rc : Fin 2) (col : Fin 4) (o : Fin 2) (z0 : Fin 512) (z1 : Fin 128) :
    rd32 (xt (F := Ideal) X e rc col o) (ix2 z0 z1)
      = X e (ix2 (⟨rc.val * 1024 + o.val * 512 + z0.val, by have := rc.isLt; have := o.isLt; have := z0.isLt; omega⟩ : Fin 2048)
                 (⟨col.val * 128 + z1.val, by have := col.isLt; have := z1.isLt; omega⟩ : Fin 512)) := by
  show X e ((RX rc col o).emb (ix2 z0 z1)) = _
  refine congrArg (X e) (funext fun a => Fin.ext ?_)
  match a with
  | ⟨0, _⟩ => show rc.val * 1024 + o.val * 512 + 1 * z0.val = rc.val * 1024 + o.val * 512 + z0.val; omega
  | ⟨1, _⟩ => show col.val * 128 + 1 * z1.val = col.val * 128 + z1.val; omega

theorem half_apply (h : Fin 2) (V : Vec Ideal S512x128 .bf16) (y0 : Fin 256) (y1 : Fin 128) :
    rd16 (half h V) (ix2 y0 y1)
      = rd16 V (ix2 (⟨h.val * 256 + y0.val, by have := h.isLt; have := y0.isLt; omega⟩ : Fin 512) y1) := by
  show V _ = V _
  refine congrArg V (funext fun a => Fin.ext ?_)
  match a with
  | ⟨0, _⟩ => show h.val * 256 + 1 * y0.val = h.val * 256 + y0.val; omega
  | ⟨1, _⟩ => show 0 + 1 * y1.val = y1.val; omega

end Tiles

section Sum
variable (X : Dev nD → S2048x512.Idx → EReal)

def ent (rc : Fin 2) (col : Fin 4) (o h : Fin 2) (y0 : Fin 256) (y1 : Fin 128) (e : Dev nD) : EReal :=
  X e (ix2 (⟨rc.val * 1024 + o.val * 512 + h.val * 256 + y0.val,
              by have := rc.isLt; have := o.isLt; have := h.isLt; have := y0.isLt; omega⟩ : Fin 2048)
           (⟨col.val * 128 + y1.val, by have := col.isLt; have := y1.isLt; omega⟩ : Fin 512))

theorem half_xt (e : Dev nD) (rc : Fin 2) (col : Fin 4) (o h : Fin 2) (y0 : Fin 256) (y1 : Fin 128) :
    rd32 (xt (F := Ideal) X e rc col o)
        (ix2 (⟨h.val * 256 + y0.val, by have := h.isLt; have := y0.isLt; omega⟩ : Fin 512) y1)
      = ent X rc col o h y0 y1 e := by
  refine (xt_apply X e rc col o _ y1).trans ?_
  unfold ent
  refine congrArg (X e) (funext fun a => Fin.ext ?_)
  match a with
  | ⟨0, _⟩ =>
    show rc.val * 1024 + o.val * 512 + (h.val * 256 + y0.val) = rc.val * 1024 + o.val * 512 + h.val * 256 + y0.val
    omega
  | ⟨1, _⟩ => rfl

theorem half_redA (d : Dev nD) (rc cc h : Fin 2) (y0 : Fin 256) (y1 : Fin 128) :
    rd16 (half h (redA (F := Ideal) X d rc cc)) (ix2 y0 y1)
      = ent X rc (ca cc) (kA d) h y0 y1 d + ent X rc (ca cc) (fl (kA (p1 d))) h y0 y1 (p1 d) := by
  refine (half_apply h _ y0 y1).trans ?_
  refine (pay9_apply (xt X d rc (ca cc) (kA d)) (xsA X (p1 d) rc cc) _).trans ?_
  refine congrArg₂ (· + ·) (half_xt X d rc (ca cc) (kA d) h y0 y1) ?_
  exact (pay1_apply (xt X (p1 d) rc (ca cc) (fl (kA (p1 d)))) _).trans (half_xt X (p1 d) rc (ca cc) (fl (kA (p1 d))) h y0 y1)

theorem half_redB (d : Dev nD) (rc cc h : Fin 2) (y0 : Fin 256) (y1 : Fin 128) :
    rd16 (half h (redB (F := Ideal) X d rc cc)) (ix2 y0 y1)
      = ent X rc (cb cc) (kB d) h y0 y1 d + ent X rc (cb cc) (fl (kB (p2 d))) h y0 y1 (p2 d) := by
  refine (half_apply h _ y0 y1).trans ?_
  refine (pay9_apply (xt X d rc (cb cc) (kB d)) (xsB X (p2 d) rc cc) _).trans ?_
  refine congrArg₂ (· + ·) (half_xt X d rc (cb cc) (kB d) h y0 y1) ?_
  exact (pay1_apply (xt X (p2 d) rc (cb cc) (fl (kB (p2 d)))) _).trans (half_xt X (p2 d) rc (cb cc) (fl (kB (p2 d))) h y0 y1)

theorem selA (d : Dev nD) :
    fl (kA (p1 d)) = kA d ∧ kA (p2 d) = kA d ∧ fl (kA (p1 (p2 d))) = kA d ∧ p1 (p2 d) = p3 d := by
  revert d; decide
theorem selB (d : Dev nD) :
    fl (kB (p2 d)) = kB d ∧ kB (p1 d) = kB d ∧ fl (kB (p2 (p1 d))) = kB d ∧ p2 (p1 d) = p3 d := by
  revert d; decide

theorem partners (d : Dev nD) :
    (d = 0 ∧ p1 d = 1 ∧ p2 d = 3 ∧ p3 d = 2) ∨ (d = 1 ∧ p1 d = 0 ∧ p2 d = 2 ∧ p3 d = 3)
      ∨ (d = 2 ∧ p1 d = 3 ∧ p2 d = 1 ∧ p3 d = 0) ∨ (d = 3 ∧ p1 d = 2 ∧ p2 d = 0 ∧ p3 d = 1) := by
  revert d; decide

theorem sum_fourA (f : Dev nD → EReal) (d : Dev nD) :
    (f d + f (p1 d)) + (f (p2 d) + f (p3 d)) = ∑ e : Dev nD, f e := by
  rw [Fin.sum_univ_four]
  rcases partners d with ⟨h0, h1, h2, h3⟩ | ⟨h0, h1, h2, h3⟩ | ⟨h0, h1, h2, h3⟩ | ⟨h0, h1, h2, h3⟩ <;>
    rw [h1, h2, h3, h0] <;> simp only [add_comm, add_left_comm, add_assoc]

theorem sum_fourB (f : Dev nD → EReal) (d : Dev nD) :
    (f d + f (p2 d)) + (f (p1 d) + f (p3 d)) = ∑ e : Dev nD, f e := by
  rw [Fin.sum_univ_four]
  rcases partners d with ⟨h0, h1, h2, h3⟩ | ⟨h0, h1, h2, h3⟩ | ⟨h0, h1, h2, h3⟩ | ⟨h0, h1, h2, h3⟩ <;>
    rw [h1, h2, h3, h0] <;> simp only [add_comm, add_left_comm, add_assoc]

theorem outA_apply (d : Dev nD) (rc cc : Fin 2) (y0 : Fin 256) (y1 : Fin 128) :
    rd16 (outA (F := Ideal) X d rc cc) (ix2 y0 y1) = ∑ e : Dev nD, ent X rc (ca cc) (kA d) (k2A d) y0 y1 e := by
  obtain ⟨s1, s2, s3, s4⟩ := selA d
  refine (pay18_apply (half (k2A d) (redA X d rc cc)) (half (k2A d) (redA X (p2 d) rc cc)) _).trans ?_
  refine (congrArg₂ (· + ·) (half_redA X d rc cc (k2A d) y0 y1) (half_redA X (p2 d) rc cc (k2A d) y0 y1)).trans ?_
  rw [s1, s2, s3, s4]
  exact sum_fourA (ent X rc (ca cc) (kA d) (k2A d) y0 y1) d

theorem outB_apply (d : Dev nD) (rc cc : Fin 2) (y0 : Fin 256) (y1 : Fin 128) :
    rd16 (outB (F := Ideal) X d rc cc) (ix2 y0 y1) = ∑ e : Dev nD, ent X rc (cb cc) (kB d) (k2B d) y0 y1 e := by
  obtain ⟨s1, s2, s3, s4⟩ := selB d
  refine (pay18_apply (half (k2B d) (redB X d rc cc)) (half (k2B d) (redB X (p1 d) rc cc)) _).trans ?_
  refine (congrArg₂ (· + ·) (half_redB X d rc cc (k2B d) y0 y1) (half_redB X (p1 d) rc cc (k2B d) y0 y1)).trans ?_
  rw [s1, s2, s3, s4]
  exact sum_fourB (ent X rc (cb cc) (kB d) (k2B d) y0 y1) d

theorem outTile_apply (rc : Fin 2) (col q : Fin 4) (y0 : Fin 256) (y1 : Fin 128) :
    rd16 (outTile (F := Ideal) X rc col q) (ix2 y0 y1)
      = ∑ e : Dev nD, X e (ix2 (⟨rc.val * 1024 + q.val * 256 + y0.val,
                                  by have := rc.isLt; have := q.isLt; have := y0.isLt; omega⟩ : Fin 2048)
                               (⟨col.val * 128 + y1.val, by have := col.isLt; have := y1.isLt; omega⟩ : Fin 512)) := by
  unfold outTile
  split
  next hc =>
    refine (outA_apply X (ownA q) rc ⟨col.val, hc⟩ y0 y1).trans (Finset.sum_congr rfl fun e _ => ?_)
    have hq : 2 * (kA (ownA q)).val + (k2A (ownA q)).val = q.val := congrArg Fin.val (qA_ownA q)
    unfold ent
    refine congrArg (X e) (funext fun a => Fin.ext ?_)
    match a with
    | ⟨0, _⟩ =>
      show rc.val * 1024 + (kA (ownA q)).val * 512 + (k2A (ownA q)).val * 256 + y0.val = rc.val * 1024 + q.val * 256 + y0.val
      omega
    | ⟨1, _⟩ => rfl
  next hc =>
    refine (outB_apply X (ownB q) rc ⟨col.val - 2, by have := col.isLt; omega⟩ y0 y1).trans (Finset.sum_congr rfl fun e _ => ?_)
    have hq : 2 * (kB (ownB q)).val + (k2B (ownB q)).val = q.val := congrArg Fin.val (qB_ownB q)
    unfold ent
    refine congrArg (X e) (funext fun a => Fin.ext ?_)
    match a with
    | ⟨0, _⟩ =>
      show rc.val * 1024 + (kB (ownB q)).val * 512 + (k2B (ownB q)).val * 256 + y0.val = rc.val * 1024 + q.val * 256 + y0.val
      omega
    | ⟨1, _⟩ =>
      show (2 + (col.val - 2)) * 128 + y1.val = col.val * 128 + y1.val
      omega

theorem outAt_apply (i : S2048x512.Idx) : rd16 (outAt (F := Ideal) X) i = ∑ e : Dev nD, X e i := by
  have h0 : (i 0).val < 2048 := (i 0).isLt
  have h1 : (i 1).val < 512 := (i 1).isLt
  show rd16 (outTile (F := Ideal) X ⟨(i 0).val / 1024, by omega⟩ ⟨(i 1).val / 128, by omega⟩ ⟨(i 0).val % 1024 / 256, by omega⟩)
      (ix2 (⟨(i 0).val % 256, by omega⟩ : Fin 256) (⟨(i 1).val % 128, by omega⟩ : Fin 128)) = _
  refine (outTile_apply X _ _ _ _ _).trans (Finset.sum_congr rfl fun e _ => ?_)
  refine congrArg (X e) (funext fun a => Fin.ext ?_)
  match a with
  | ⟨0, _⟩ =>
    show (i 0).val / 1024 * 1024 + (i 0).val % 1024 / 256 * 256 + (i 0).val % 256 = (i 0).val
    omega
  | ⟨1, _⟩ =>
    show (i 1).val / 128 * 128 + (i 1).val % 128 = (i 1).val
    omega

end Sum

section Join
variable (m : (ℓ : Loc nD τ sig) → Buf (Elt Ideal) ℓ) (ρ : Dev nD → PrngReg)
  (W : Cert.ReferenceIdeal.S8192x512.Idx → EReal)

theorem xstg_apply
    (hblock : ∀ c : Dev nD, m ((c.tc : Thread nD τ).loc main_arg0) = Layout.block ⟨2, ![2048, 512]⟩ ⟨2, ![8192, 512]⟩ 0 4 c W)
    (e : Dev nD) (i : S2048x512.Idx) :
    rd32 (xstg (F := Ideal) m ρ e) i
      = W (Cert.ReferenceIdeal.Read.idx_main_v0 (Cert.ReferenceIdeal.Read.idx_main_v1 i e)) := by
  have hw : xstg (F := Ideal) m ρ e = m ((e.tc : Thread nD τ).loc main_arg0) :=
    Memref.read_access_unit_zero (Elt Ideal) main_arg0 (funext fun _ => Nat.zero_mul _) _ _
  have h0 : (i 0).val < 2048 := (i 0).isLt
  have h1 : (i 1).val < 512 := (i 1).isLt
  have he : e.val < 4 := e.isLt
  unfold rd32
  rw [hw, hblock e, Layout.block_apply]
  refine congrArg W (funext fun a => Fin.ext ?_)
  match a with
  | ⟨0, _⟩ =>
    show e.val * 2048 + (i 0).val = ((e.val * 2048 + (i 0).val) * 512 + (i 1).val) / 512
    omega
  | ⟨1, _⟩ =>
    show (i 1).val = ((e.val * 2048 + (i 0).val) * 512 + (i 1).val) % 512
    omega

theorem ref_apply (i : S2048x512.Idx) :
    rd16 (Cert.ReferenceIdeal.Read.val_main_v2 (F := Ideal) W) i
      = ∑ k : Fin 4, W (Cert.ReferenceIdeal.Read.idx_main_v0 (Cert.ReferenceIdeal.Read.idx_main_v1 i k)) := by
  show rd32 (Cert.ReferenceIdeal.Read.val_main_v1 (F := Ideal) W) i = _
  refine (Cert.ReferenceIdeal.Read.val_main_v1_apply W i).trans ?_
  show Ideal.ofBits .f32 0x00000000#32 + _ = _
  rw [Ideal.ofBits_zero_f32, zero_add]
  exact Finset.sum_congr rfl fun k _ => Cert.ReferenceIdeal.Read.val_main_v0_apply (F := Ideal) W _

end Join

theorem out_eq_reference (m : (ℓ : Loc nD τ sig) → Buf (Elt Ideal) ℓ) (ρ : Dev nD → PrngReg)
    (W : (⟨Cert.ReferenceIdeal.S8192x512, .f32⟩ : BufTy).Contents (Elt Ideal))
    (hblock : ∀ c : Dev nD, m ((c.tc : Thread nD τ).loc main_arg0) = Layout.block ⟨2, ![2048, 512]⟩ ⟨2, ![8192, 512]⟩ 0 4 c W) :
    outAt (F := Ideal) (xstg m ρ) = Cert.ReferenceIdeal.Read.val_main_v2 (F := Ideal) W := by
  funext i
  show rd16 (outAt (F := Ideal) (xstg m ρ)) i = rd16 (Cert.ReferenceIdeal.Read.val_main_v2 (F := Ideal) W) i
  refine (outAt_apply (xstg m ρ) i).trans ?_
  refine ((ref_apply W i).trans ?_).symm
  exact Finset.sum_congr rfl fun e _ => (xstg_apply m ρ W hblock e i).symm

end Cert.KernelIdeal.ARValue

end
-- ==== Proof.lean ====
/-
  Four devices each hold a 2048 x 512 block of x; every device must end with the sum of the four blocks.
  The sum is built by halving twice (exchange a half with one partner and add, exchange a quarter of that with
  the other partner and add), and the four finished quarters are then passed round. Over the extended reals
  narrowing is the identity and a sum of four terms does not depend on its bracketing, which is all that
  separates a device's result from the reference's sum along the stacking axis.

  No operation was rewritten in idealizing: the two printed kernels are one text, so one run, proved for any
  number instance, gives both frames.
-/
import proofs.«900112_g7700000000000113_dist_ar_v7x_i4_i_m2048_n512_bf16_1_alg».proof.Defs
import proofs.«900112_g7700000000000113_dist_ar_v7x_i4_i_m2048_n512_bf16_1_alg».proof.Proof.Gen.Kernel
import proofs.«900112_g7700000000000113_dist_ar_v7x_i4_i_m2048_n512_bf16_1_alg».proof.Proof.Gen.KernelIdeal
import proofs.«900112_g7700000000000113_dist_ar_v7x_i4_i_m2048_n512_bf16_1_alg».proof.Proof.Gen.ReferenceIdeal
import proofs.«900112_g7700000000000113_dist_ar_v7x_i4_i_m2048_n512_bf16_1_alg».proof.Proof.Gen.Pre_finite_inputs_Kernel
import proofs.«900112_g7700000000000113_dist_ar_v7x_i4_i_m2048_n512_bf16_1_alg».proof.Proof.Gen.Pre_finite_inputs_ReferenceIdeal
import proofs.«900112_g7700000000000113_dist_ar_v7x_i4_i_m2048_n512_bf16_1_alg».proof.Proof.Gen.ReferenceIdeal.Run
import proofs.«900112_g7700000000000113_dist_ar_v7x_i4_i_m2048_n512_bf16_1_alg».proof.Proof.Gen.ReferenceIdeal.Read
import proofs.«900112_g7700000000000113_dist_ar_v7x_i4_i_m2048_n512_bf16_1_alg».proof.Proof.Body
import proofs.«900112_g7700000000000113_dist_ar_v7x_i4_i_m2048_n512_bf16_1_alg».proof.Proof.Launch
import proofs.«900112_g7700000000000113_dist_ar_v7x_i4_i_m2048_n512_bf16_1_alg».proof.Proof.Value
import Idealize.ShloMosaic.Adequacy
import Idealize.ShloMosaic.Init

noncomputable section

namespace Cert.Proof

open Idealize.ShloMosaic Idealize.SL.Sem

/-- The two printed programs have the same body table: the one kernel body is the same term. -/
theorem defs_eq : Cert.Kernel.defs (F := Bits) = Cert.KernelIdeal.defs (F := Bits) := by
  refine congrArg (Pipeline.defs _) (congrArg Defs.onTc ?_)
  funext l a
  match l, a with
  | 0, (t, s) => rfl

theorem frame_k : Cert.frame_Kernel := fun m g _ =>
  defs_eq ▸ (θ_run (Cert.KernelIdeal.defs (F := Bits)) _ _).mono (fun _ h c => (h c).2)
    (Cert.KernelIdeal.AR.run_value (F := Bits) m g (Cert.KernelIdeal.AR.body_obligation m g))

theorem frame_ki : Cert.frame_KernelIdeal := fun m g _ =>
  (θ_run (Cert.KernelIdeal.defs (F := Ideal)) _ _).mono (fun _ h c => (h c).2)
    (Cert.KernelIdeal.AR.run_value (F := Ideal) m g (Cert.KernelIdeal.AR.body_obligation m g))

theorem frame_ri : Cert.frame_ReferenceIdeal := fun m g _ =>
  (θ_run Cert.ReferenceIdeal.defs _ _).mono (fun _ h c => (h c).2) (Cert.ReferenceIdeal.Value.run (F := Ideal) m g)

theorem algebraic : Cert.algebraic_KernelIdeal_ReferenceIdeal := by
  intro m g m' g' _ hagree
  refine ⟨Cert.ReferenceIdeal.Read.val_main_v2 (F := Ideal)
    (m' (((0 : Dev Cert.ReferenceIdeal.nD).tc : Thread Cert.ReferenceIdeal.nD Cert.ReferenceIdeal.τ).loc Cert.ReferenceIdeal.main_arg0)), ?_, ?_⟩
  · exact (θ_run (Cert.KernelIdeal.defs (F := Ideal)) _ _).mono
      (fun _ h c => ⟨(h c).1.trans (Cert.KernelIdeal.ARValue.out_eq_reference m g _ hagree), (h c).2⟩)
      (Cert.KernelIdeal.AR.run_value (F := Ideal) m g (Cert.KernelIdeal.AR.body_obligation m g))
  · exact (θ_run Cert.ReferenceIdeal.defs _ _).mono
      (fun _ h => ⟨((h 0).1).trans (Cert.ReferenceIdeal.Read.val_main_v2_eq _), (h 0).2⟩)
      (Cert.ReferenceIdeal.Value.run (F := Ideal) m' g')

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, frame_ri, trivial, algebraic⟩

end Cert.Proof

end
